-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S100000x2 : Shape := ⟨2, ![100000, 2]⟩
abbrev S384x128 : Shape := ⟨2, ![384, 128]⟩
abbrev S384x256 : Shape := ⟨2, ![384, 256]⟩
abbrev S1x384 : Shape := ⟨2, ![1, 384]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384x256 : S_.BroadcastsInDim S384x256 (![] : Fin 0 → Fin S384x256.rank)
  reducesTo_S384x256_S_d0_1 : S384x256.ReducesTo [0, 1] S_
  bcast_S_S1x384 : S_.BroadcastsInDim S1x384 (![] : Fin 0 → Fin S1x384.rank)
  reducesTo_S1x384_S_d0_1 : S1x384.ReducesTo [0, 1] S_
  bcast_S_S128x256 : S_.BroadcastsInDim S128x256 (![] : Fin 0 → Fin S128x256.rank)
  reducesTo_S128x256_S_d0_1 : S128x256.ReducesTo [0, 1] S_
  bcast_S_S100000x2 : S_.BroadcastsInDim S100000x2 (![] : Fin 0 → Fin S100000x2.rank)
  reducesTo_S100000x2_S_d0_1 : S100000x2.ReducesTo [0, 1] S_

variable [Facts]

def fn_part2 {F : FTy → Type} [FloatOps F] (main_v28 : IVec S_ 1) (main_v33 : IVec S100000x2 1) : IVec S_ 1 :=
  let main_c_12 : IVec S_ 1 := constantI S_ 1 1#1
  let main_v34 : IVec S_ 1 := (fun x v => Host.reduce IntOp.andi x v reducesTo_S100000x2_S_d0_1 h_S_) main_v33 main_c_12
  let main_v35 : IVec S_ 1 := andi main_v28 main_v34
  main_v35

def fn_part1 {F : FTy → Type} [FloatOps F] (main_arg2 : IVec S100000x2 32) (main_arg5 : FVec F S1x384 .f32) (main_arg6 : FVec F S128x256 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S1x384 .f32 := Host.absf main_arg5
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_c_10 : IVec S_ 32 := constantI S_ 32 0#32
  let main_v29 : IVec S100000x2 32 := broadcastInDim S100000x2 ![] bcast_S_S100000x2 main_c_10
  let main_v30 : IVec S100000x2 1 := cmpi .sge main_arg2 main_v29
  let main_c_11 : IVec S_ 32 := constantI S_ 32 99999#32
  let main_v31 : IVec S100000x2 32 := broadcastInDim S100000x2 ![] bcast_S_S100000x2 main_c_11
  let main_v32 : IVec S100000x2 1 := cmpi .sle main_arg2 main_v31
  let main_v33 : IVec S100000x2 1 := andi main_v30 main_v32
  fn_part2 (F := F) main_v28 main_v33

def fn {F : FTy → Type} [FloatOps F] (main_arg0 : FVec F S100000x128 .f32) (main_arg1 : FVec F S100000x128 .f32) (main_arg2 : IVec S100000x2 32) (main_arg3 : FVec F S384x128 .f32) (main_arg4 : FVec F S384x256 .f32) (main_arg5 : FVec F S1x384 .f32) (main_arg6 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x256 .f32 := Host.absf main_arg4
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg2 main_arg5 main_arg6 main_v13 main_v16
-- ==== Kernel.lean ====
abbrev S100000x128 : Shape := ⟨2, ![100000, 128]⟩
abbrev S100000x2 : Shape := ⟨2, ![100000, 2]⟩
abbrev S384x128 : Shape := ⟨2, ![384, 128]⟩
abbrev S384x256 : Shape := ⟨2, ![384, 256]⟩
abbrev S1x384 : Shape := ⟨2, ![1, 384]⟩
abbrev S128x256 : Shape := ⟨2, ![128, 256]⟩
abbrev S4800 : Shape := ⟨1, ![4800]⟩
abbrev S_ : Shape := ⟨0, ![]⟩
abbrev S100000x1 : Shape := ⟨2, ![100000, 1]⟩
abbrev S100000 : Shape := ⟨1, ![100000]⟩
abbrev S204800 : Shape := ⟨1, ![204800]⟩
abbrev S204800x128 : Shape := ⟨2, ![204800, 128]⟩
abbrev S6400 : Shape := ⟨1, ![6400]⟩
abbrev S128x128 : Shape := ⟨2, ![128, 128]⟩
abbrev S128 : Shape := ⟨1, ![128]⟩
abbrev S256x128 : Shape := ⟨2, ![256, 128]⟩
abbrev S1x256 : Shape := ⟨2, ![1, 256]⟩
abbrev S4000x128 : Shape := ⟨2, ![4000, 128]⟩
abbrev S4000x256 : Shape := ⟨2, ![4000, 256]⟩

abbrev nBuf : Table → Nat
  | .hbm => 46
  | .local .tc .vmem => 14
  | .local .scVector .vmem => 6
  | _ => 0

abbrev bufTy : (tb : Table) → Fin (nBuf tb) → BufTy
  | .hbm, ⟨0, _⟩ => ⟨S100000x128, .f32⟩
  | .hbm, ⟨1, _⟩ => ⟨S100000x128, .f32⟩
  | .hbm, ⟨2, _⟩ => ⟨S100000x2, .i32⟩
  | .hbm, ⟨3, _⟩ => ⟨S384x128, .f32⟩
  | .hbm, ⟨4, _⟩ => ⟨S384x256, .f32⟩
  | .hbm, ⟨5, _⟩ => ⟨S1x384, .f32⟩
  | .hbm, ⟨6, _⟩ => ⟨S128x256, .f32⟩
  | .hbm, ⟨7, _⟩ => ⟨S4800, .i32⟩
  | .hbm, ⟨8, _⟩ => ⟨S_, .i32⟩
  | .hbm, ⟨9, _⟩ => ⟨S4800, .i32⟩
  | .hbm, ⟨10, _⟩ => ⟨S4800, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4800, .i32⟩
  | .hbm, ⟨18, _⟩ => ⟨S4800, .i32⟩
  | .hbm, ⟨19, _⟩ => ⟨S_, .i32⟩
  | .hbm, ⟨20, _⟩ => ⟨S4800, .i32⟩
  | .hbm, ⟨21, _⟩ => ⟨S4800, .i1⟩
  | .hbm, ⟨22, _⟩ => ⟨S_, .i32⟩
  | .hbm, ⟨23, _⟩ => ⟨S4800, .i32⟩
  | .hbm, ⟨24, _⟩ => ⟨S4800, .i1⟩
  | .hbm, ⟨25, _⟩ => ⟨S_, .i32⟩
  | .hbm, ⟨26, _⟩ => ⟨S_, .i1⟩
  | .hbm, ⟨27, _⟩ => ⟨S4800, .i1⟩
  | .hbm, ⟨28, _⟩ => ⟨S4800, .i1⟩
  | .hbm, ⟨29, _⟩ => ⟨S4800, .i1⟩
  | .hbm, ⟨30, _⟩ => ⟨S4800, .i32⟩
  | .hbm, ⟨31, _⟩ => ⟨S4800, .i32⟩
  | .hbm, ⟨32, _⟩ => ⟨S4800, .i32⟩
  | .hbm, ⟨33, _⟩ => ⟨S100000x1, .i32⟩
  | .hbm, ⟨34, _⟩ => ⟨S100000, .i32⟩
  | .hbm, ⟨35, _⟩ => ⟨S100000x1, .i32⟩
  | .hbm, ⟨36, _⟩ => ⟨S100000, .i32⟩
  | .hbm, ⟨37, _⟩ => ⟨S204800, .i32⟩
  | .hbm, ⟨38, _⟩ => ⟨S204800x128, .f32⟩
  | .hbm, ⟨39, _⟩ => ⟨S256x128, .f32⟩
  | .hbm, ⟨40, _⟩ => ⟨S256x128, .f32⟩
  | .hbm, ⟨41, _⟩ => ⟨S256x128, .f32⟩
  | .hbm, ⟨42, _⟩ => ⟨S1x256, .f32⟩
  | .hbm, ⟨43, _⟩ => ⟨S128x128, .f32⟩
  | .hbm, ⟨44, _⟩ => ⟨S128x128, .f32⟩
  | .hbm, ⟨45, _⟩ => ⟨S100000x128, .f32⟩
  | .local .tc .vmem, ⟨0, _⟩ => ⟨S4000x128, .f32⟩
  | .local .tc .vmem, ⟨1, _⟩ => ⟨S4000x128, .f32⟩
  | .local .tc .vmem, ⟨2, _⟩ => ⟨S4000x128, .f32⟩
  | .local .tc .vmem, ⟨3, _⟩ => ⟨S4000x128, .f32⟩
  | .local .tc .vmem, ⟨4, _⟩ => ⟨S4000x128, .f32⟩
  | .local .tc .vmem, ⟨5, _⟩ => ⟨S4000x128, .f32⟩
  | .local .tc .vmem, ⟨6, _⟩ => ⟨S256x128, .f32⟩
  | .local .tc .vmem, ⟨7, _⟩ => ⟨S256x128, .f32⟩
  | .local .tc .vmem, ⟨8, _⟩ => ⟨S256x128, .f32⟩
  | .local .tc .vmem, ⟨9, _⟩ => ⟨S1x256, .f32⟩
  | .local .tc .vmem, ⟨10, _⟩ => ⟨S128x128, .f32⟩
  | .local .tc .vmem, ⟨11, _⟩ => ⟨S128x128, .f32⟩
  | .local .tc .vmem, ⟨12, _⟩ => ⟨S4000x128, .f32⟩
  | .local .tc .vmem, ⟨13, _⟩ => ⟨S4000x128, .f32⟩
  | .local .scVector .vmem, ⟨0, _⟩ => ⟨S6400, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_arg1_scv : Ref sig .scVector := ⟨.hbm, 1, rfl⟩
abbrev main_v8_scv : Ref sig .scVector := ⟨.hbm, 37, rfl⟩
abbrev main_v9_scv : Ref sig .scVector := ⟨.hbm, 38, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg9_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_11 : BitVec 32 := 0#32
  let c10_i32 : BitVec 32 := 10#32
  let v13 : BitVec 32 := Scalar.addi c0_i32_11 c10_i32
  let c1_i32 : BitVec 32 := 1#32
  ⟨c0_i32_11, v13, c1_i32⟩
def k0_off2 (k0_t1 : Fin k0_t1_loop.trips) (c0_i32_23 : BitVec 32) : Fin 1 → Nat :=
  let c0_i32_11 : BitVec 32 := 0#32
  let c1_i32 : BitVec 32 := 1#32
  let arg21 : BitVec 32 := Scf.iv c0_i32_11 c1_i32 k0_t1
  let c5_i32 : BitVec 32 := 5#32
  let v29 : BitVec 32 := Scalar.muli arg21 c5_i32
  let v30 : BitVec 32 := Scalar.addi v29 c0_i32_23
  let c128_i32_24 : BitVec 32 := 128#32
  let v31 : BitVec 32 := Scalar.muli v30 c128_i32_24
  ![v31.toNat]
def k0_off3 (i : grid0.Coords) (k0_t1 : Fin k0_t1_loop.trips) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32 : BitVec 32 := 5#32
  let v29 : BitVec 32 := Scalar.muli arg21 c5_i32
  let v30 : BitVec 32 := Scalar.addi v29 c0_i32_23
  let c128_i32_27 : BitVec 32 := 128#32
  let v34 : BitVec 32 := Scalar.muli v30 c128_i32_27
  let v35 : BitVec 32 := Scalar.addi v2 v34
  let c0_i32_28 : BitVec 32 := 0#32
  ![v35.toNat, 0]
def k0_cond1 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c1_i32_62 : BitVec 32 := 1#32
  let v76 : BitVec 32 := Scalar.addi arg21 c1_i32_62
  let c10_i32_63 : BitVec 32 := 10#32
  let v77 : BitVec 1 := Scalar.cmpi .slt v76 c10_i32_63
  let v78 : BitVec 32 := Scalar.extui v77
  let c0_i32_64 : BitVec 32 := 0#32
  let v79 : BitVec 1 := Scalar.cmpi .ne v78 c0_i32_64
  v79

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32_60 : BitVec 32 := 5#32
  let v74 : BitVec 32 := Scalar.muli arg21 c5_i32_60
  let c0_i32_61 : BitVec 32 := 0#32
  let v75 : BitVec 32 := Scalar.addi v74 c0_i32_61
  let c128_i32_85 : BitVec 32 := 128#32
  let v104 : BitVec 32 := Scalar.muli v75 c128_i32_85
  let v105 : BitVec 32 := Scalar.addi v2 v104
  let c0_i32_86 : BitVec 32 := 0#32
  ![v105.toNat, 0]
def k0_off5 (k0_t1 : Fin k0_t1_loop.trips) : Fin 1 → Nat :=
  let c0_i32_11 : BitVec 32 := 0#32
  let c1_i32 : BitVec 32 := 1#32
  let arg21 : BitVec 32 := Scf.iv c0_i32_11 c1_i32 k0_t1
  let c5_i32_60 : BitVec 32 := 5#32
  let v74 : BitVec 32 := Scalar.muli arg21 c5_i32_60
  let c0_i32_61 : BitVec 32 := 0#32
  let v75 : BitVec 32 := Scalar.addi v74 c0_i32_61
  let c5_i32_88 : BitVec 32 := 5#32
  let v108 : BitVec 32 := Scalar.addi v75 c5_i32_88
  let c128_i32_89 : BitVec 32 := 128#32
  let v109 : BitVec 32 := Scalar.muli v108 c128_i32_89
  ![v109.toNat]
def k0_cond2 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c1_i32_67 : BitVec 32 := 1#32
  let v82 : BitVec 32 := Scalar.addi arg21 c1_i32_67
  let c10_i32_68 : BitVec 32 := 10#32
  let v83 : BitVec 1 := Scalar.cmpi .slt v82 c10_i32_68
  let v84 : BitVec 32 := Scalar.extui v83
  let c0_i32_69 : BitVec 32 := 0#32
  let v85 : BitVec 1 := Scalar.cmpi .ne v84 c0_i32_69
  v85

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32_65 : BitVec 32 := 5#32
  let v80 : BitVec 32 := Scalar.muli arg21 c5_i32_65
  let c1_i32_66 : BitVec 32 := 1#32
  let v81 : BitVec 32 := Scalar.addi v80 c1_i32_66
  let c128_i32_85 : BitVec 32 := 128#32
  let v104 : BitVec 32 := Scalar.muli v81 c128_i32_85
  let v105 : BitVec 32 := Scalar.addi v2 v104
  let c0_i32_86 : BitVec 32 := 0#32
  ![v105.toNat, 0]
def k0_off7 (k0_t1 : Fin k0_t1_loop.trips) : Fin 1 → Nat :=
  let c0_i32_11 : BitVec 32 := 0#32
  let c1_i32 : BitVec 32 := 1#32
  let arg21 : BitVec 32 := Scf.iv c0_i32_11 c1_i32 k0_t1
  let c5_i32_65 : BitVec 32 := 5#32
  let v80 : BitVec 32 := Scalar.muli arg21 c5_i32_65
  let c1_i32_66 : BitVec 32 := 1#32
  let v81 : BitVec 32 := Scalar.addi v80 c1_i32_66
  let c5_i32_88 : BitVec 32 := 5#32
  let v108 : BitVec 32 := Scalar.addi v81 c5_i32_88
  let c128_i32_89 : BitVec 32 := 128#32
  let v109 : BitVec 32 := Scalar.muli v108 c128_i32_89
  ![v109.toNat]
def k0_cond3 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c1_i32_72 : BitVec 32 := 1#32
  let v88 : BitVec 32 := Scalar.addi arg21 c1_i32_72
  let c10_i32_73 : BitVec 32 := 10#32
  let v89 : BitVec 1 := Scalar.cmpi .slt v88 c10_i32_73
  let v90 : BitVec 32 := Scalar.extui v89
  let c0_i32_74 : BitVec 32 := 0#32
  let v91 : BitVec 1 := Scalar.cmpi .ne v90 c0_i32_74
  v91

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32_70 : BitVec 32 := 5#32
  let v86 : BitVec 32 := Scalar.muli arg21 c5_i32_70
  let c2_i32_71 : BitVec 32 := 2#32
  let v87 : BitVec 32 := Scalar.addi v86 c2_i32_71
  let c128_i32_85 : BitVec 32 := 128#32
  let v104 : BitVec 32 := Scalar.muli v87 c128_i32_85
  let v105 : BitVec 32 := Scalar.addi v2 v104
  let c0_i32_86 : BitVec 32 := 0#32
  ![v105.toNat, 0]
def k0_off9 (k0_t1 : Fin k0_t1_loop.trips) : Fin 1 → Nat :=
  let c0_i32_11 : BitVec 32 := 0#32
  let c1_i32 : BitVec 32 := 1#32
  let arg21 : BitVec 32 := Scf.iv c0_i32_11 c1_i32 k0_t1
  let c5_i32_70 : BitVec 32 := 5#32
  let v86 : BitVec 32 := Scalar.muli arg21 c5_i32_70
  let c2_i32_71 : BitVec 32 := 2#32
  let v87 : BitVec 32 := Scalar.addi v86 c2_i32_71
  let c5_i32_88 : BitVec 32 := 5#32
  let v108 : BitVec 32 := Scalar.addi v87 c5_i32_88
  let c128_i32_89 : BitVec 32 := 128#32
  let v109 : BitVec 32 := Scalar.muli v108 c128_i32_89
  ![v109.toNat]
def k0_cond4 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c1_i32_77 : BitVec 32 := 1#32
  let v94 : BitVec 32 := Scalar.addi arg21 c1_i32_77
  let c10_i32_78 : BitVec 32 := 10#32
  let v95 : BitVec 1 := Scalar.cmpi .slt v94 c10_i32_78
  let v96 : BitVec 32 := Scalar.extui v95
  let c0_i32_79 : BitVec 32 := 0#32
  let v97 : BitVec 1 := Scalar.cmpi .ne v96 c0_i32_79
  v97

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32_75 : BitVec 32 := 5#32
  let v92 : BitVec 32 := Scalar.muli arg21 c5_i32_75
  let c3_i32_76 : BitVec 32 := 3#32
  let v93 : BitVec 32 := Scalar.addi v92 c3_i32_76
  let c128_i32_85 : BitVec 32 := 128#32
  let v104 : BitVec 32 := Scalar.muli v93 c128_i32_85
  let v105 : BitVec 32 := Scalar.addi v2 v104
  let c0_i32_86 : BitVec 32 := 0#32
  ![v105.toNat, 0]
def k0_off11 (k0_t1 : Fin k0_t1_loop.trips) : Fin 1 → Nat :=
  let c0_i32_11 : BitVec 32 := 0#32
  let c1_i32 : BitVec 32 := 1#32
  let arg21 : BitVec 32 := Scf.iv c0_i32_11 c1_i32 k0_t1
  let c5_i32_75 : BitVec 32 := 5#32
  let v92 : BitVec 32 := Scalar.muli arg21 c5_i32_75
  let c3_i32_76 : BitVec 32 := 3#32
  let v93 : BitVec 32 := Scalar.addi v92 c3_i32_76
  let c5_i32_88 : BitVec 32 := 5#32
  let v108 : BitVec 32 := Scalar.addi v93 c5_i32_88
  let c128_i32_89 : BitVec 32 := 128#32
  let v109 : BitVec 32 := Scalar.muli v108 c128_i32_89
  ![v109.toNat]
def k0_cond5 (k0_t1 : Fin k0_t1_loop.trips) : BitVec 1 :=
  let c0_i32_11 : BitVec 32 := 0#32
  let c1_i32 : BitVec 32 := 1#32
  let arg21 : BitVec 32 := Scf.iv c0_i32_11 c1_i32 k0_t1
  let c1_i32_82 : BitVec 32 := 1#32
  let v100 : BitVec 32 := Scalar.addi arg21 c1_i32_82
  let c10_i32_83 : BitVec 32 := 10#32
  let v101 : BitVec 1 := Scalar.cmpi .slt v100 c10_i32_83
  let v102 : BitVec 32 := Scalar.extui v101
  let c0_i32_84 : BitVec 32 := 0#32
  let v103 : BitVec 1 := Scalar.cmpi .ne v102 c0_i32_84
  v103

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_11 : BitVec 32 := 0#32
  let c1_i32 : BitVec 32 := 1#32
  let arg21 : BitVec 32 := Scf.iv c0_i32_11 c1_i32 k0_t1
  let c5_i32_80 : BitVec 32 := 5#32
  let v98 : BitVec 32 := Scalar.muli arg21 c5_i32_80
  let c4_i32_81 : BitVec 32 := 4#32
  let v99 : BitVec 32 := Scalar.addi v98 c4_i32_81
  let c128_i32_85 : BitVec 32 := 128#32
  let v104 : BitVec 32 := Scalar.muli v99 c128_i32_85
  let v105 : BitVec 32 := Scalar.addi v2 v104
  let c0_i32_86 : BitVec 32 := 0#32
  ![v105.toNat, 0]
def k0_off13 (k0_t1 : Fin k0_t1_loop.trips) : Fin 1 → Nat :=
  let c0_i32_11 : BitVec 32 := 0#32
  let c1_i32 : BitVec 32 := 1#32
  let arg21 : BitVec 32 := Scf.iv c0_i32_11 c1_i32 k0_t1
  let c5_i32_80 : BitVec 32 := 5#32
  let v98 : BitVec 32 := Scalar.muli arg21 c5_i32_80
  let c4_i32_81 : BitVec 32 := 4#32
  let v99 : BitVec 32 := Scalar.addi v98 c4_i32_81
  let c5_i32_88 : BitVec 32 := 5#32
  let v108 : BitVec 32 := Scalar.addi v99 c5_i32_88
  let c128_i32_89 : BitVec 32 := 128#32
  let v109 : BitVec 32 := Scalar.muli v108 c128_i32_89
  ![v109.toNat]
def k0_off14 (i : grid0.Coords) (c5760_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v14 : BitVec 32 := Scalar.addi v2 c5760_i32
  let c0_i32_13 : BitVec 32 := 0#32
  ![v14.toNat, 0]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S4800 : S_.BroadcastsInDim S4800 (![] : Fin 0 → Fin S4800.rank)
  slices_S100000x2_S100000x1_0_0 : S100000x2.Slices ![0, 0] S100000x1
  shapeCasts_S100000x1_S100000 : S100000x1.ShapeCasts S100000
  slices_S100000x2_S100000x1_0_1 : S100000x2.Slices ![0, 1] S100000x1
  concatenates_S100000_S100000_S4800_S204800_d0 : Shape.Concatenates [S100000, S100000, S4800] S204800 0
  inb_S6400_S128_0 : ∀ a, (![0] : Fin 1 → Nat) a + S128.size a ≤ S6400.size a
  inb_S100000x128_S100000x128_0_0 : ∀ a, (![0, 0] : Fin 2 → Nat) a + S100000x128.size a ≤ S100000x128.size a
  gathers_S100000x128_S128x128 : S100000x128.Gathers 0 S128x128
  inb_S6400_S128_128 : ∀ a, (![128] : Fin 1 → Nat) a + S128.size a ≤ S6400.size a
  inb_S6400_S128_256 : ∀ a, (![256] : Fin 1 → Nat) a + S128.size a ≤ S6400.size a
  inb_S6400_S128_384 : ∀ a, (![384] : Fin 1 → Nat) a + S128.size a ≤ S6400.size a
  inb_S6400_S128_512 : ∀ a, (![512] : Fin 1 → Nat) a + S128.size a ≤ S6400.size a
  slices_S384x128_S256x128_128_0 : S384x128.Slices ![128, 0] S256x128
  slices_S384x256_S256x128_128_0 : S384x256.Slices ![128, 0] S256x128
  slices_S384x256_S256x128_128_128 : S384x256.Slices ![128, 128] S256x128
  slices_S1x384_S1x256_0_128 : S1x384.Slices ![0, 128] S1x256
  slices_S128x256_S128x128_0_0 : S128x256.Slices ![0, 0] S128x128
  slices_S128x256_S128x128_0_128 : S128x256.Slices ![0, 128] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  slices_S4000x256_o0_0_S4000x128 : S4000x256.Slices ![0, 0] S4000x128
  slices_S4000x256_o0_128_S4000x128 : S4000x256.Slices ![0, 128] S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S4000x128_S256x128_S4000x256_1_1_0_0_n_n_wf : DotDims.WF S4000x128 S256x128 S4000x256 [1] [1] [0] [0] [] []
  dot_S4000x128_S128x128_S4000x128_1_1_0_0_n_n_wf : DotDims.WF S4000x128 S128x128 S4000x128 [1] [1] [0] [0] [] []
  hcc0_scratch6 : 0 + S_.numel ≤ 25
  hcc0_scratch7 : 1 + S_.numel ≤ 25
  hcc0_scratch8 : 2 + S_.numel ≤ 25
  hcc0_scratch9 : 3 + S_.numel ≤ 25
  hcc0_scratch10 : 4 + S_.numel ≤ 25
  hcc0_scratch11 : 5 + S_.numel ≤ 25
  hcc0_scratch12 : 6 + S_.numel ≤ 25
  hcc0_scratch13 : 7 + S_.numel ≤ 25
  hcc0_scratch14 : 8 + S_.numel ≤ 25
  hcc0_scratch15 : 9 + S_.numel ≤ 25
  hcc0_scoped0 : 10 + S_.numel ≤ 25
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_t1_ok : k0_t1_loop.OK
  k0_off2_inb : ∀ k0_t1 : Fin k0_t1_loop.trips, ∀ (r : Fin 5), ∀ a, (k0_off2 k0_t1 (BitVec.ofNat 32 r.val)) a + S128.size a ≤ S6400.size a
  k0_off3_inb : ∀ (i : grid0.Coords) (k0_t1 : Fin k0_t1_loop.trips), ∀ (r : Fin 5), ∀ a, (k0_off3 i k0_t1 (BitVec.ofNat 32 r.val)) a + S128x128.size a ≤ S204800x128.size a
  k0_off4_inb : ∀ (i : grid0.Coords) (k0_t1 : Fin k0_t1_loop.trips), ∀ (k0_h1 : k0_cond1 k0_t1 = 1#1), ∀ a, (k0_off4 i k0_t1) a + S128x128.size a ≤ S204800x128.size a
  k0_off5_inb : ∀ k0_t1 : Fin k0_t1_loop.trips, ∀ (k0_h1 : k0_cond1 k0_t1 = 1#1), ∀ a, (k0_off5 k0_t1) a + S128.size a ≤ S6400.size a
  k0_off6_inb : ∀ (i : grid0.Coords) (k0_t1 : Fin k0_t1_loop.trips), ∀ (k0_h2 : k0_cond2 k0_t1 = 1#1), ∀ a, (k0_off6 i k0_t1) a + S128x128.size a ≤ S204800x128.size a
  k0_off7_inb : ∀ k0_t1 : Fin k0_t1_loop.trips, ∀ (k0_h2 : k0_cond2 k0_t1 = 1#1), ∀ a, (k0_off7 k0_t1) a + S128.size a ≤ S6400.size a
  k0_off8_inb : ∀ (i : grid0.Coords) (k0_t1 : Fin k0_t1_loop.trips), ∀ (k0_h3 : k0_cond3 k0_t1 = 1#1), ∀ a, (k0_off8 i k0_t1) a + S128x128.size a ≤ S204800x128.size a
  k0_off9_inb : ∀ k0_t1 : Fin k0_t1_loop.trips, ∀ (k0_h3 : k0_cond3 k0_t1 = 1#1), ∀ a, (k0_off9 k0_t1) a + S128.size a ≤ S6400.size a
  k0_off10_inb : ∀ (i : grid0.Coords) (k0_t1 : Fin k0_t1_loop.trips), ∀ (k0_h4 : k0_cond4 k0_t1 = 1#1), ∀ a, (k0_off10 i k0_t1) a + S128x128.size a ≤ S204800x128.size a
  k0_off11_inb : ∀ k0_t1 : Fin k0_t1_loop.trips, ∀ (k0_h4 : k0_cond4 k0_t1 = 1#1), ∀ a, (k0_off11 k0_t1) a + S128.size a ≤ S6400.size a
  k0_off12_inb : ∀ (i : grid0.Coords) (k0_t1 : Fin k0_t1_loop.trips), ∀ (k0_h5 : k0_cond5 k0_t1 = 1#1), ∀ a, (k0_off12 i k0_t1) a + S128x128.size a ≤ S204800x128.size a
  k0_off13_inb : ∀ k0_t1 : Fin k0_t1_loop.trips, ∀ (k0_h5 : k0_cond5 k0_t1 = 1#1), ∀ a, (k0_off13 k0_t1) a + S128.size a ≤ S6400.size a
  k0_off14_inb : ∀ i : grid0.Coords, ∀ (r : Fin 5), ∀ a, (k0_off14 i (BitVec.ofNat 32 (5760 + 128 * r.val))) a + S128x128.size a ≤ S204800x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4000x128.size a < S204800x128.size a
  hwx1_1 : ∀ i : grid1.Coords, EltTy.bits .f32 = 32 ∨ (Rect.unit (s := S204800x128) (fun a => cc1_transform_1 i a * S4000x128.size a) (fun a => (Pipeline.Clip.of (cc1_transform_1 i a) (S4000x128.size a) (S204800x128.size a)).extent (S4000x128.size a)) fun a => Pipeline.Clip.inb (Pipeline.Clip.ok_of (hstart1_1 i a))).WholeWords (EltTy.packing .f32)
  hwxs1_1 : ∀ i : grid1.Coords, EltTy.bits .f32 = 32 ∨ (Rect.unit (s := S4000x128) (fun _ => 0) (fun a => (Pipeline.Clip.of (cc1_transform_1 i a) (S4000x128.size a) (S204800x128.size a)).extent (S4000x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4000x128.size a < S204800x128.size a
  hwx1_2 : ∀ i : grid1.Coords, EltTy.bits .f32 = 32 ∨ (Rect.unit (s := S204800x128) (fun a => cc1_transform_2 i a * S4000x128.size a) (fun a => (Pipeline.Clip.of (cc1_transform_2 i a) (S4000x128.size a) (S204800x128.size a)).extent (S4000x128.size a)) fun a => Pipeline.Clip.inb (Pipeline.Clip.ok_of (hstart1_2 i a))).WholeWords (EltTy.packing .f32)
  hwxs1_2 : ∀ i : grid1.Coords, EltTy.bits .f32 = 32 ∨ (Rect.unit (s := S4000x128) (fun _ => 0) (fun a => (Pipeline.Clip.of (cc1_transform_2 i a) (S4000x128.size a) (S204800x128.size a)).extent (S4000x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
def dot_S4000x128_S256x128_S4000x256_1_1_0_0_n_n : DotDims S4000x128 S256x128 S4000x256 where
  lhsContracting := [1]
  rhsContracting := [1]
  lhsNonContracting := [0]
  rhsNonContracting := [0]
  lhsBatch := []
  rhsBatch := []
  wf := dot_S4000x128_S256x128_S4000x256_1_1_0_0_n_n_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v9) S4000x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v9) S4000x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x2 : Shape := ⟨2, ![100000, 2]⟩
abbrev S384x128 : Shape := ⟨2, ![384, 128]⟩
abbrev S384x256 : Shape := ⟨2, ![384, 256]⟩
abbrev S1x384 : Shape := ⟨2, ![1, 384]⟩
abbrev S128x256 : Shape := ⟨2, ![128, 256]⟩
abbrev S_ : Shape := ⟨0, ![]⟩
abbrev S100000x2x1 : Shape := ⟨3, ![100000, 2, 1]⟩
abbrev S1 : Shape := ⟨1, ![1]⟩
abbrev S1x1x1 : Shape := ⟨3, ![1, 1, 1]⟩
abbrev S100000x2x128 : Shape := ⟨3, ![100000, 2, 128]⟩
abbrev S100000x256 : Shape := ⟨2, ![100000, 256]⟩
abbrev S128x384 : Shape := ⟨2, ![128, 384]⟩
abbrev S100000x384 : Shape := ⟨2, ![100000, 384]⟩
abbrev S256x384 : Shape := ⟨2, ![256, 384]⟩
abbrev S256x128 : Shape := ⟨2, ![256, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x2, .i32⟩
  | .hbm, ⟨3, _⟩ => ⟨S384x128, .f32⟩
  | .hbm, ⟨4, _⟩ => ⟨S384x256, .f32⟩
  | .hbm, ⟨5, _⟩ => ⟨S1x384, .f32⟩
  | .hbm, ⟨6, _⟩ => ⟨S128x256, .f32⟩
  | .hbm, ⟨7, _⟩ => ⟨S_, .i32⟩
  | .hbm, ⟨8, _⟩ => ⟨S100000x2, .i32⟩
  | .hbm, ⟨9, _⟩ => ⟨S100000x2, .i1⟩
  | .hbm, ⟨10, _⟩ => ⟨S_, .i32⟩
  | .hbm, ⟨11, _⟩ => ⟨S100000x2, .i32⟩
  | .hbm, ⟨12, _⟩ => ⟨S100000x2, .i32⟩
  | .hbm, ⟨13, _⟩ => ⟨S100000x2, .i32⟩
  | .hbm, ⟨14, _⟩ => ⟨S100000x2x1, .i32⟩
  | .hbm, ⟨15, _⟩ => ⟨S1, .i32⟩
  | .hbm, ⟨16, _⟩ => ⟨S_, .i32⟩
  | .hbm, ⟨17, _⟩ => ⟨S100000x2x1, .i32⟩
  | .hbm, ⟨18, _⟩ => ⟨S100000x2x1, .i1⟩
  | .hbm, ⟨19, _⟩ => ⟨S1x1x1, .i32⟩
  | .hbm, ⟨20, _⟩ => ⟨S100000x2x1, .i32⟩
  | .hbm, ⟨21, _⟩ => ⟨S100000x2x1, .i1⟩
  | .hbm, ⟨22, _⟩ => ⟨S100000x2x1, .i1⟩
  | .hbm, ⟨23, _⟩ => ⟨S_, .i1⟩
  | .hbm, ⟨24, _⟩ => ⟨S100000x2, .i1⟩
  | .hbm, ⟨25, _⟩ => ⟨S100000x2x128, .f32⟩
  | .hbm, ⟨26, _⟩ => ⟨S100000x2x128, .i1⟩
  | .hbm, ⟨27, _⟩ => ⟨S_, .f32⟩
  | .hbm, ⟨28, _⟩ => ⟨S100000x2x128, .f32⟩
  | .hbm, ⟨29, _⟩ => ⟨S100000x2x128, .f32⟩
  | .hbm, ⟨30, _⟩ => ⟨S100000x256, .f32⟩
  | .hbm, ⟨31, _⟩ => ⟨S128x384, .f32⟩
  | .hbm, ⟨32, _⟩ => ⟨S100000x384, .f32⟩
  | .hbm, ⟨33, _⟩ => ⟨S256x384, .f32⟩
  | .hbm, ⟨34, _⟩ => ⟨S100000x384, .f32⟩
  | .hbm, ⟨35, _⟩ => ⟨S100000x384, .f32⟩
  | .hbm, ⟨36, _⟩ => ⟨S100000x384, .f32⟩
  | .hbm, ⟨37, _⟩ => ⟨S100000x384, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S256x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_v15 : Ref sig .tc := ⟨.hbm, 45, rfl⟩
abbrev main_cst_0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩

abbrev nD : Nat := 1
abbrev τ : Topo := Topo.v7x

variable {F : FTy → Type} [FloatOps F]

class Facts₀ : Prop where
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  bcast_S_S100000x2x1 : S_.BroadcastsInDim S100000x2x1 (![] : Fin 0 → Fin S100000x2x1.rank)
  bcast_S1_S1x1x1_2 : S1.BroadcastsInDim S1x1x1 (![2] : Fin 1 → Fin S1x1x1.rank)
  bcast_S1x1x1_S100000x2x1_0_1_2 : S1x1x1.BroadcastsInDim S100000x2x1 (![0, 1, 2] : Fin 3 → Fin S100000x2x1.rank)
  reducesTo_S100000x2x1_S100000x2_d2 : S100000x2x1.ReducesTo [2] S100000x2
  h_S_ : 0 < S_.numel
  bcast_S100000x2_S100000x2x128_0_1 : S100000x2.BroadcastsInDim S100000x2x128 (![0, 1] : Fin 2 → Fin S100000x2x128.rank)
  bcast_S_S100000x2x128 : S_.BroadcastsInDim S100000x2x128 (![] : Fin 0 → Fin S100000x2x128.rank)
  shapeCasts_S100000x2x128_S100000x256 : S100000x2x128.ShapeCasts S100000x256
  transposes_S384x128_S128x384_1_0 : S384x128.Transposes [1, 0] S128x384
  transposes_S384x256_S256x384_1_0 : S384x256.Transposes [1, 0] S256x384
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S100000x128 : S_.BroadcastsInDim S100000x128 (![] : Fin 0 → Fin S100000x128.rank)
  transposes_S128x256_S256x128_1_0 : S128x256.Transposes [1, 0] S256x128
  gather_S100000x128_S100000x2x1_S100000x2x128_2_0_n_n_0_2_1128_wf : GatherDims.WF S100000x128 S100000x2x1 S100000x2x128 [2] [0] [] [0] [] 2 ![1, 128]
  dot_S100000x128_S128x384_S100000x384_1_0_0_1_n_n_wf : DotDims.WF S100000x128 S128x384 S100000x384 [1] [0] [0] [1] [] []
  dot_S100000x256_S256x384_S100000x384_1_0_0_1_n_n_wf : DotDims.WF S100000x256 S256x384 S100000x384 [1] [0] [0] [1] [] []
  dot_S100000x256_S256x128_S100000x128_1_0_0_1_n_n_wf : DotDims.WF S100000x256 S256x128 S100000x128 [1] [0] [0] [1] [] []

variable [Facts₀]

def gather_S100000x128_S100000x2x1_S100000x2x128_2_0_n_n_0_2_1128 : GatherDims S100000x128 S100000x2x1 S100000x2x128 where
  offsetDims := [2]
  collapsedSliceDims := [0]
  operandBatchingDims := []
  startIndicesBatchingDims := []
  startIndexMap := [0]
  indexVectorDim := 2
  sliceSizes := ![1, 128]
  wf := gather_S100000x128_S100000x2x1_S100000x2x128_2_0_n_n_0_2_1128_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def dot_S100000x256_S256x384_S100000x384_1_0_0_1_n_n : DotDims S100000x256 S256x384 S100000x384 where
  lhsContracting := [1]
  rhsContracting := [0]
  lhsNonContracting := [0]
  rhsNonContracting := [1]
  lhsBatch := []
  rhsBatch := []
  wf := dot_S100000x256_S256x384_S100000x384_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Setup.lean ====
import proofs.«211965_g16441134809400_cont_sun_m_142_16_alg».proof.KernelIdeal
import proofs.«211965_g16441134809400_cont_sun_m_142_16_alg».proof.Proof.Gen.KernelIdeal
import proofs.«211965_g16441134809400_cont_sun_m_142_16_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

abbrev hLoc (d : Dev nD) : Loc nD τ sig := (SparseCore.T d).loc main_arg1
abbrev iLoc (d : Dev nD) : Loc nD τ sig := (SparseCore.T d).loc main_v8
abbrev gLoc (d : Dev nD) : Loc nD τ sig := (SparseCore.T d).loc main_v9

def wid (c : Fin 2) (s : Fin 16) : Fin 32 := ⟨2 * s.val + c.val, by omega⟩

end Cert.Proof.KI

end
-- ==== Proof.HostOps.lean ====
import proofs.«211965_g16441134809400_cont_sun_m_142_16_alg».proof.Proof.Setup
import Idealize.ShloMosaic.Lib.StableHlo.Run
import Idealize.ShloMosaic.Lib.Pipeline.Frame

noncomputable section

namespace Cert.Proof.KI

open Cert.KernelIdeal Cert.KernelIdeal.Gen
open Idealize.ShloMosaic Idealize.SL.Sem
open Idealize.ShloMosaic.StableHlo (TRef)

variable {F : FTy → Type} [FloatOps F]

abbrev opsA : List (HloOp τ sig (Elt F)) :=
  [ StableHlo.nullary main_v0 (iotaInDim S4800 32 0),
    StableHlo.nullary main_c (constantI S_ 32 17#32),
    StableHlo.unary main_c main_v1 (broadcastInDim S4800 ![] bcast_S_S4800 : (⟨S_, .i32⟩ : BufTy).Contents (Elt F) → (⟨S4800, .i32⟩ : BufTy).Contents (Elt F)),
    StableHlo.binary main_v0 main_v1 main_v2 (muli : (⟨S4800, .i32⟩ : BufTy).Contents (Elt F) → (⟨S4800, .i32⟩ : BufTy).Contents (Elt F) → (⟨S4800, .i32⟩ : BufTy).Contents (Elt F)),
    StableHlo.nullary main_c_0 (constantI S_ 32 100000#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4800 ![] bcast_S_S4800),
    TRef.binary (.of main_v2) main_call0.v3 main_call0.v4 Host.remsi,
    TRef.nullary main_call0.c_1 (constantI S_ 32 0#32),
    TRef.unary main_call0.c_1 main_call0.v5 (broadcastInDim S4800 ![] bcast_S_S4800),
    TRef.binary main_call0.v4 main_call0.v5 main_call0.v6 (cmpi .ne),
    TRef.nullary main_call0.c_2 (constantI S_ 32 0#32),
    TRef.unary main_call0.c_2 main_call0.v7 (broadcastInDim S4800 ![] bcast_S_S4800),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4800 ![] bcast_S_S4800),
    TRef.binary main_call0.v8 main_call0.v10 main_call0.v11 (cmpi .ne),
    TRef.binary main_call0.v11 main_call0.v6 main_call0.v12 andi,
    TRef.unary main_call0.call0.v0 main_call0.v13 (broadcastInDim S4800 ![] bcast_S_S4800),
    TRef.binary main_call0.v4 main_call0.v13 main_call0.v14 addi,
    TRef.ternary main_call0.v12 main_call0.v14 main_call0.v4 main_call0.v15 select,
    StableHlo.unary main_arg2 main_v4 ((extractStridedSlice S100000x1 ![0, 0] · slices_S100000x2_S100000x1_0_0) : (⟨S100000x2, .i32⟩ : BufTy).Contents (Elt F) → (⟨S100000x1, .i32⟩ : BufTy).Contents (Elt F)),
    StableHlo.reshape main_v4 main_v5 rfl shapeCasts_S100000x1_S100000,
    StableHlo.unary main_arg2 main_v6 ((extractStridedSlice S100000x1 ![0, 1] · slices_S100000x2_S100000x1_0_1) : (⟨S100000x2, .i32⟩ : BufTy).Contents (Elt F) → (⟨S100000x1, .i32⟩ : BufTy).Contents (Elt F)),
    StableHlo.reshape main_v6 main_v7 rfl shapeCasts_S100000x1_S100000,
    StableHlo.nary ![main_v5, main_v7, main_v3] main_v8 (fun u => concatenate S204800 0 [⟨S100000, u 0⟩, ⟨S100000, u 1⟩, ⟨S4800, u 2⟩] concatenates_S100000_S100000_S4800_S204800_d0) ]

abbrev opsB : List (HloOp τ sig (Elt F)) :=
  [ StableHlo.unary main_arg3 main_v10 ((extractStridedSlice S256x128 ![128, 0] · slices_S384x128_S256x128_128_0) : (⟨S384x128, .f32⟩ : BufTy).Contents (Elt F) → (⟨S256x128, .f32⟩ : BufTy).Contents (Elt F)),
    StableHlo.unary main_arg4 main_v11 ((extractStridedSlice S256x128 ![128, 0] · slices_S384x256_S256x128_128_0) : (⟨S384x256, .f32⟩ : BufTy).Contents (Elt F) → (⟨S256x128, .f32⟩ : BufTy).Contents (Elt F)),
    StableHlo.unary main_arg4 main_v12 ((extractStridedSlice S256x128 ![128, 128] · slices_S384x256_S256x128_128_128) : (⟨S384x256, .f32⟩ : BufTy).Contents (Elt F) → (⟨S256x128, .f32⟩ : BufTy).Contents (Elt F)),
    StableHlo.unary main_arg5 main_v13 ((extractStridedSlice S1x256 ![0, 128] · slices_S1x384_S1x256_0_128) : (⟨S1x384, .f32⟩ : BufTy).Contents (Elt F) → (⟨S1x256, .f32⟩ : BufTy).Contents (Elt F)),
    StableHlo.unary main_arg6 main_v14 ((extractStridedSlice S128x128 ![0, 0] · slices_S128x256_S128x128_0_0) : (⟨S128x256, .f32⟩ : BufTy).Contents (Elt F) → (⟨S128x128, .f32⟩ : BufTy).Contents (Elt F)),
    StableHlo.unary main_arg6 main_v15 ((extractStridedSlice S128x128 ![0, 128] · slices_S128x256_S128x128_0_128) : (⟨S128x256, .f32⟩ : BufTy).Contents (Elt F) → (⟨S128x128, .f32⟩ : BufTy).Contents (Elt F)) ]

theorem main_eq (d : Dev nD) :
    main (F := F) d
      = (StableHlo.seq opsA >>= fun _ => sc.run d 0 >>= fun _ => StableHlo.seq opsB >>= fun _ =>
          Prog.lift (.customCall (SparseCore.inner (Pipeline.entry 0)) ()) >>= fun _ => pure ⟨⟩) := by
  simp only [main, fn_remainder.body, fn_where.body, StableHlo.seq, bind_assoc, pure_bind]

theorem ops_tc : (opsA ++ opsB : List (HloOp τ sig (Elt F))).Forall fun op => op.bufs ⊆ StableHlo.tcRefs τ sig := by
  simp only [List.cons_append, List.nil_append, List.Forall, StableHlo.nullary_bufs_sub, StableHlo.unary_bufs_sub, StableHlo.binary_bufs_sub,
    StableHlo.ternary_bufs_sub, StableHlo.reshape_bufs_sub, StableHlo.nary_bufs_sub, and_self]
theorem opsA_sub : ∀ op ∈ (opsA : List (HloOp τ sig (Elt F))), op.bufs ⊆ Pipeline.ucRefs τ sig :=
  fun op h => Pipeline.sub_ucRefs op (List.forall_iff_forall_mem.mp ops_tc op (List.mem_append_left _ h))
theorem opsB_sub : ∀ op ∈ (opsB : List (HloOp τ sig (Elt F))), op.bufs ⊆ Pipeline.ucRefs τ sig :=
  fun op h => Pipeline.sub_ucRefs op (List.forall_iff_forall_mem.mp ops_tc op (List.mem_append_right _ h))

theorem opsA_fresh : ∀ op ∈ (opsA : List (HloOp τ sig (Elt F))), op.fresh = ∅ :=
  List.forall_iff_forall_mem.mp (by simp only [List.Forall]; repeat' constructor)
theorem opsB_fresh : ∀ op ∈ (opsB : List (HloOp τ sig (Elt F))), op.fresh = ∅ :=
  List.forall_iff_forall_mem.mp (by simp only [List.Forall]; repeat' constructor)

abbrev wrA : List (Ref sig .tc) :=
  [main_v0, main_c, main_v1, main_v2, main_c_0, main_call0_v0, main_call0_c, main_call0_v1,
    main_call0_c_0, main_call0_v2, main_call0_v3, main_call0_v4, main_call0_c_1, main_call0_v5, main_call0_v6, main_call0_c_2,
    main_call0_v7, main_call0_v8, main_call0_c_3, main_call0_v9, main_call0_v10, main_call0_v11, main_call0_v12, main_call0_v13,
    main_call0_v14, main_v3, main_v4, main_v5, main_v6, main_v7, main_v8]
abbrev wrB : List (Ref sig .tc) := [main_v10, main_v11, main_v12, main_v13, main_v14, main_v15]

-- Each operation writes its own result only, so a buffer that is no result of a line holds after it what it held before.
theorem opsA_keeps (V : Valuation τ sig (Elt F)) {r : Ref sig .tc} (hr : r ∉ wrA) :
    StableHlo.after opsA V (Proc.devRef .tc r) = V (Proc.devRef .tc r) :=
  StableHlo.after_of_writes_sub opsA V (by
    repeat' apply And.intro
    all_goals exact Finset.singleton_subset_iff.mpr (List.mem_toFinset.mpr (List.mem_map_of_mem (by decide)))) hr
theorem opsB_keeps (V : Valuation τ sig (Elt F)) {r : Ref sig .tc} (hr : r ∉ wrB) :
    StableHlo.after opsB V (Proc.devRef .tc r) = V (Proc.devRef .tc r) :=
  StableHlo.after_of_writes_sub opsB V (by
    repeat' apply And.intro
    all_goals exact Finset.singleton_subset_iff.mpr (List.mem_toFinset.mpr (List.mem_map_of_mem (by decide)))) hr

theorem opsB_v9 (V : Valuation τ sig (Elt F)) : StableHlo.after opsB V (Proc.devRef .tc main_v9) = V (Proc.devRef .tc main_v9) := opsB_keeps V (by decide)

end Cert.Proof.KI

end
-- ==== Proof.Spec.lean ====
import Idealize.ShloMosaic.PureOps.Ideal
import Idealize.ShloMosaic.Lib.ValueIdx

noncomputable section

namespace Cert.Proof.Spec

open Idealize.ShloMosaic Idealize.ShloMosaic.ValueIdx

abbrev SNxH : Shape := ⟨2, ![100000, 128]⟩
abbrev SNx2 : Shape := ⟨2, ![100000, 2]⟩
abbrev S384x128 : Shape := ⟨2, ![384, 128]⟩
abbrev S384x256 : Shape := ⟨2, ![384, 256]⟩
abbrev S1x384 : Shape := ⟨2, ![1, 384]⟩
abbrev S128x256 : Shape := ⟨2, ![128, 256]⟩

def rowU (j : Fin 128) : Fin 384 := ⟨128 + j.val, by omega⟩
def rowO (j : Fin 128) : Fin 384 := ⟨256 + j.val, by omega⟩
def colL (k : Fin 128) : Fin 256 := ⟨k.val, by omega⟩
def colR (k : Fin 128) : Fin 256 := ⟨128 + k.val, by omega⟩

def rowOf (v : BitVec 32) : Fin 100000 := ⟨v.toNat % 100000, Nat.mod_lt _ (by norm_num)⟩

theorem rowOf_val {v : BitVec 32} (h : v.toNat < 100000) : (rowOf v).val = v.toNat := Nat.mod_eq_of_lt h

def dot (a b : Fin 128 → EReal) : EReal := ∑ k : Fin 128, a k * b k

def pre (xr h0 h1 : Fin 128 → EReal) (W : Vec Ideal S384x128 .f32) (U : Vec Ideal S384x256 .f32)
    (b : Vec Ideal S1x384 .f32) (ρ : Fin 384) : EReal :=
  ((dot xr (fun k => W (ix2 ρ k)) + dot h0 (fun k => U (ix2 ρ (colL k)))) + dot h1 (fun k => U (ix2 ρ (colR k)))) + b (ix2 (0 : Fin 1) ρ)

def agg (h0 h1 : Fin 128 → EReal) (U2 : Vec Ideal S128x256 .f32) (j : Fin 128) : EReal :=
  dot h0 (fun k => U2 (ix2 j (colL k))) + dot h1 (fun k => U2 (ix2 j (colR k)))

/-- The tree cell's new hidden state as one function of the seven arguments, entry by entry. -/
def G (x h : Vec Ideal SNxH .f32) (ci : Vec Ideal SNx2 .i32) (W : Vec Ideal S384x128 .f32)
    (U : Vec Ideal S384x256 .f32) (b : Vec Ideal S1x384 .f32) (U2 : Vec Ideal S128x256 .f32) :
    Vec Ideal SNxH .f32 := fun i =>
  let n : Fin 100000 := i 0
  let j : Fin 128 := i 1
  let xr : Fin 128 → EReal := fun k => x (ix2 n k)
  let h0 : Fin 128 → EReal := fun k => h (ix2 (rowOf (ci (ix2 n (0 : Fin 2)))) k)
  let h1 : Fin 128 → EReal := fun k => h (ix2 (rowOf (ci (ix2 n (1 : Fin 2)))) k)
  let u : EReal := Ideal.logistic (pre xr h0 h1 W U b (rowU j))
  let o : EReal := Ideal.tanh (pre xr h0 h1 W U b (rowO j))
  o * u + (1 - u) * agg h0 h1 U2 j

end Cert.Proof.Spec

end
-- ==== Proof.Pay.lean ====
import proofs.«211965_g16441134809400_cont_sun_m_142_16_alg».proof.Proof.Setup
import proofs.«211965_g16441134809400_cont_sun_m_142_16_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (Iv : (d : Dev nD) → Buf (Elt F) (iLoc d))

theorem idiv : 32 ∣ S204800.size 0 := ⟨6400, rfl⟩
theorem gdiv : 32 ∣ S204800x128.size 0 := ⟨6400, rfl⟩
abbrev irow (w : Fin 32) : Rect S204800 := Rect.part (s := S204800) (a₀ := 0) idiv w
abbrev grow (w : Fin 32) : Rect S204800x128 := Rect.part (s := S204800x128) (a₀ := 0) gdiv w
abbrev iSet (w : Fin 32) : Finset S204800.Idx := ((Memref.whole main_v8_scv : Memref sig .scVector .hbm S204800 .i32).view.slice (irow w)).set
abbrev gSet (w : Fin 32) : Finset S204800x128.Idx := ((Memref.whole main_v9_scv : Memref sig .scVector .hbm S204800x128 .f32).view.slice (grow w)).set

abbrev hq (w : Fin 32) : PosShare TreeShare := Transfers.shareTok fullShare 32 w

def Gv (d : Dev nD) : Buf (Elt F) (gLoc d) := fun j =>
  (m (hLoc d) : S100000x128.Idx → Elt F .f32) (ValueIdx.ix2 (Spec.rowOf ((Iv d : S204800.Idx → BitVec 32) (ValueIdx.ix1 (j 0)))) (j 1))

def PreOK : Prop := ∀ (d : Dev nD) (j : S204800.Idx), ((Iv d : S204800.Idx → BitVec 32) j).toNat < 100000

abbrev iPart (d : Dev nD) (w : Fin 32) : sProp 𝕄 := iLoc d ↦[iSet w]{fullShare} Iv d
abbrev hPart (d : Dev nD) (w : Fin 32) : sProp 𝕄 := hLoc d ↦{hq w} m (hLoc d)
abbrev gPart (d : Dev nD) (w : Fin 32) (f : Buf (Elt F) (gLoc d)) : sProp 𝕄 := gLoc d ↦[gSet w]{fullShare} f

abbrev goW (d : Dev nD) (w : Fin 32) : sProp 𝕄 := iprop(iPart Iv d w ∗ hPart m d w ∗ gPart d w (m (gLoc d)))
abbrev tdW (d : Dev nD) (w : Fin 32) : sProp 𝕄 := iprop(iPart Iv d w ∗ hPart m d w ∗ gPart d w (Gv m Iv d))

def P : (K (F := F)).Pay (nD := nD) (Val := Elt F) (Name := ℕ) (U := UU) where
  st := fun q d c => match q with
    | 0 => bigSep Finset.univ fun i : Fin ((K (F := F)).nSub 0) => goW m Iv d (wid (Fin.cast nCore_zero c) (Fin.cast nSub_zero i))
  dn := fun q d c => match q with
    | 0 => bigSep Finset.univ fun i : Fin ((K (F := F)).nSub 0) => tdW m Iv d (wid (Fin.cast nCore_zero c) (Fin.cast nSub_zero i))
  go := fun q d c i => match q with | 0 => goW m Iv d (wid (Fin.cast nCore_zero c) (Fin.cast nSub_zero i))
  td := fun q d c i => match q with | 0 => tdW m Iv d (wid (Fin.cast nCore_zero c) (Fin.cast nSub_zero i))
  x := fun _ _ => iprop(emp)

instance P_storable : (P (F := F) m Iv).IsStorable where
  st q d c := match q with | 0 => by unfold P; infer_instance
  dn q d c := match q with | 0 => by unfold P; infer_instance
  go q d c i := match q with | 0 => by unfold P; infer_instance
  td q d c i := match q with | 0 => by unfold P; infer_instance

/-- A SparseCore's operands are its workers' operands together: nothing to split, nothing to gather. -/
theorem vecSplit : (K (F := F)).VecSplit' (P m Iv) 0 := by
  intro d c
  dsimp only [P]
  iintro H; imodintro
  isplitl [H]; · iexact H
  iintro H; iexact H

end Cert.Proof.KI

end
-- ==== Proof.Vals.lean ====
import proofs.«211965_g16441134809400_cont_sun_m_142_16_alg».proof.Proof.HostOps
import proofs.«211965_g16441134809400_cont_sun_m_142_16_alg».proof.Proof.Pay

noncomputable section

namespace Cert.Proof.KI

open Cert.KernelIdeal Cert.KernelIdeal.Gen

open Idealize.ShloMosaic
open Idealize.ShloMosaic.SparseCore (T)
open Idealize.ShloMosaic.SparseCore.Cfg (HIx)
open Idealize.SL Idealize.SL.RA Idealize.SL.BI Idealize.SL.BI.BIBase Idealize.SL.Sem
open scoped Idealize.SL.BI
open Idealize.ShloMosaic.StableHlo (held)

variable {F : FTy → Type} [FloatOps F]

local notation "𝕄" => MT nD τ sig (HIx 1) (Elt F) ℕ UU ℕ

variable (m : (ℓ : Loc nD τ sig) → Buf (Elt F) ℓ)

abbrev W0 (d : Dev nD) : Valuation τ sig (Elt F) := fun b => m (d, b)
abbrev W1 (d : Dev nD) : Valuation τ sig (Elt F) := StableHlo.after opsA (W0 m d)

abbrev h' : DevRef τ sig := Proc.devRef .tc (main_arg1 : Ref sig .tc)
abbrev i' : DevRef τ sig := Proc.devRef .tc (main_v8 : Ref sig .tc)
abbrev g' : DevRef τ sig := Proc.devRef .tc (main_v9 : Ref sig .tc)

def IvOf (d : Dev nD) : Buf (Elt F) (iLoc d) := W1 m d i'

def W2 (d : Dev nD) : Valuation τ sig (Elt F) := Function.update (W1 m d) g' (Gv m (IvOf m) d)
abbrev W3 (d : Dev nD) : Valuation τ sig (Elt F) := StableHlo.after opsB (W2 m d)

abbrev T3 : Finset (DevRef τ sig) := {h', i', g'}

omit [FloatOps F] in
theorem held_T3 (d : Dev nD) (X : Valuation τ sig (Elt F)) :
    (held (T d) T3 X : sProp 𝕄) = iprop((hLoc d ↦{fullShare} X h') ∗ (iLoc d ↦{fullShare} X i') ∗ gLoc d ↦{fullShare} X g') := by
  unfold held T3
  rw [SparseCore.bigSep_insert' (by decide), SparseCore.bigSep_insert' (by decide), bigSep_singleton]

theorem T3_sub : (T3 : Finset (DevRef τ sig)) ⊆ Pipeline.ucRefs τ sig := by decide

theorem W1_h (d : Dev nD) : W1 m d h' = m (hLoc d) := opsA_keeps (W0 m d) (r := main_arg1) (by decide)
theorem W1_g (d : Dev nD) : W1 m d g' = m (gLoc d) := opsA_keeps (W0 m d) (r := main_v9) (by decide)
theorem W2_h (d : Dev nD) : W2 m d h' = m (hLoc d) := (Function.update_of_ne (show h' ≠ g' by decide) _ _).trans (W1_h m d)
theorem W2_i (d : Dev nD) : W2 m d i' = IvOf m d := Function.update_of_ne (show i' ≠ g' by decide) _ _
theorem W2_g (d : Dev nD) : W2 m d g' = Gv m (IvOf m) d := Function.update_self _ _ _

theorem held_rest_W2 (d : Dev nD) :
    (held (T d) (Pipeline.ucRefs τ sig \ T3) (W2 m d) : sProp 𝕄) = held (T d) (Pipeline.ucRefs τ sig \ T3) (W1 m d) :=
  StableHlo.held_congr (T d) fun b hb => Function.update_of_ne (fun e => (Finset.mem_sdiff.mp hb).2 (by subst e; decide)) _ _

omit [FloatOps F] in
theorem unscoped_held (d : Dev nD) :
    (unscopedBufs d (fun b => m ((SparseCore.T d).loc b)) : sProp 𝕄) = held (T d) (Pipeline.ucRefs τ sig) (W0 m d) :=
  Pipeline.unscopedBufs_held d (W0 m d)

end Cert.Proof.KI

end
-- ==== Proof.Split.lean ====
import proofs.«211965_g16441134809400_cont_sun_m_142_16_alg».proof.Proof.Pay

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type}

local notation "𝕄" => MT nD τ sig (HIx 1) (Elt F) ℕ UU ℕ

variable (m : (ℓ : Loc nD τ sig) → Buf (Elt F) ℓ) (Iv : (d : Dev nD) → Buf (Elt F) (iLoc d))

-- Core `c`'s subcore `s` is worker `2·s + c`: a sum over the call's cores and subcores is a sum over the thirty-two numbers.
theorem bigSep_workers (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ := by
  rw [bigSep_univ_equiv ((Equiv.prodComm _ _).trans (finProdFinEquiv : Fin 16 × Fin 2 ≃ Fin 32)) Φ, bigSep_univ_prod]
  exact bigSep_congr fun c _ => bigSep_congr fun s _ => congrArg Φ (Fin.ext (Nat.add_comm _ _))

-- The index list and the result array, whole, are their thirty-two blocks of rows.
theorem iWhole_eq (d : Dev nD) (f : Buf (Elt F) (iLoc d)) :
    (iLoc d ↦{fullShare} f : sProp 𝕄) = bigSep Finset.univ fun w : Fin 32 => iLoc d ↦[iSet w]{fullShare} f := by
  rw [show iSet = fun w => (irow w).set from funext fun w => View.set_slice_whole main_v8_scv (irow w),
    ← pointsTo_biUnion Finset.univ (ℓ := iLoc d) (fun w => (irow w).set) fun _ _ _ _ => Rect.part_disjoint idiv, Rect.biUnion_part idiv]
theorem gWhole_eq (d : Dev nD) (f : Buf (Elt F) (gLoc d)) :
    (gLoc d ↦{fullShare} f : sProp 𝕄) = bigSep Finset.univ fun w : Fin 32 => gLoc d ↦[gSet w]{fullShare} f := by
  rw [show gSet = fun w => (grow w).set from funext fun w => View.set_slice_whole main_v9_scv (grow w),
    ← pointsTo_biUnion Finset.univ (ℓ := gLoc d) (fun w => (grow w).set) fun _ _ _ _ => Rect.part_disjoint gdiv, Rect.biUnion_part gdiv]

-- The three arrays whole, the result array at `f`, are the workers' operands and the rest of `h`'s share: `h` goes out as thirty-two read shares.
theorem split_iff (d : Dev nD) (f : Buf (Elt F) (gLoc d)) :
    (iprop((hLoc d ↦{fullShare} m (hLoc d)) ∗ (iLoc d ↦{fullShare} Iv d) ∗ (gLoc d ↦{fullShare} f)) : sProp 𝕄)
      ⊣⊢ iprop((hLoc d ↦{Transfers.shareDrop fullShare 32} m (hLoc d))
        ∗ bigSep Finset.univ fun c : Fin ((K (F := F)).nCore 0) => bigSep Finset.univ fun i : Fin ((K (F := F)).nSub 0) =>
          (fun w => iprop(iPart Iv d w ∗ hPart m d w ∗ gPart d w f)) (wid (Fin.cast nCore_zero c) (Fin.cast nSub_zero i))) := by
  rw [bigSep_workers (F := F) fun w => iprop(iPart Iv d w ∗ hPart m d w ∗ gPart d w f), bigSep_sep', bigSep_sep', ← iWhole_eq, ← gWhole_eq]
  exact (sep_congr_left (Transfers.pointsTo_toks fullShare 32)).trans (sep_assoc.trans (sep_congr_right sep_left_comm))

theorem st_split (d : Dev nD) :
    iprop((hLoc d ↦{fullShare} m (hLoc d)) ∗ (iLoc d ↦{fullShare} Iv d) ∗ (gLoc d ↦{fullShare} m (gLoc d)))
      ⊢ (iprop((hLoc d ↦{Transfers.shareDrop fullShare 32} m (hLoc d))
          ∗ bigSep Finset.univ fun c : Fin ((K (F := F)).nCore 0) => (P m Iv).st 0 d c) : sProp 𝕄) :=
  (split_iff m Iv d _).1

theorem dn_join (d : Dev nD) :
    iprop((hLoc d ↦{Transfers.shareDrop fullShare 32} m (hLoc d))
        ∗ bigSep Finset.univ fun c : Fin ((K (F := F)).nCore 0) => (P m Iv).dn 0 d c)
      ⊢ (iprop((hLoc d ↦{fullShare} m (hLoc d)) ∗ (iLoc d ↦{fullShare} Iv d) ∗ (gLoc d ↦{fullShare} Gv m Iv d)) : sProp 𝕄) :=
  (split_iff m Iv d _).2

end Cert.Proof.KI

end
-- ==== Proof.LaunchElem.lean ====
import proofs.«211965_g16441134809400_cont_sun_m_142_16_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

def u₀ : UU :=
  (initOf (K (F := F)).hsCells (K (F := F)).hsToks, (initOf (Pipeline.cells cfgs cellOf_inj) (Pipeline.launchToks cfgs cellOf_inj), 1))

-- What the launch leaves device `d`'s TensorCore for the dense region.
abbrev GD (d : Dev nD) : sProp 𝕄 :=
  iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => GD (F := F) d)
        ∗ bigSep Finset.univ fun thr : Thread nD τ => bigSep Finset.univ fun q : Fin 1 => (P m Iv).x q thr) := by
  have h := Pipeline.fund_ghost cfgs (EP (F := F)) cellOf_inj
  simp only [bigSep_univ_of_subsingleton (0 : Fin 1), GD] at h ⊢
  rw [show (bigSep Finset.univ fun thr : Thread nD τ => (P (F := F) m Iv).x 0 thr) = iprop(emp) from bigSep_emp_const _]
  unfold u₀
  iintro Hu
  ihave ⟨HH, HR⟩ := (ownU_pair _ _) $$ Hu
  ihave ⟨HP, -⟩ := (own_pair_emb embR _ _) $$ HR
  imod h $$ HP with ⟨Hg, Ht⟩
  imodintro
  iframe

end Cert.Proof.KI

end
-- ==== Proof.CallStep.lean ====
import proofs.«211965_g16441134809400_cont_sun_m_142_16_alg».proof.Proof.Vals
import proofs.«211965_g16441134809400_cont_sun_m_142_16_alg».proof.Proof.Split
import proofs.«211965_g16441134809400_cont_sun_m_142_16_alg».proof.Proof.LaunchElem

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)

-- The call takes `h`, the index list and the result array out of the held buffers and puts them back, the result array at the gathered rows.
theorem call_step (κ : GSem nD τ sig → ℕ) (d : Dev nD) (Q : PUnit → sProp 𝕄) :
    iprop((K (F := F)).ctx EH (P m (IvOf m)) κ ∗ (K (F := F)).tcSt EH d 0 ∗ held (T d) (Pipeline.ucRefs τ sig) (W1 m d)
        ∗ ((iprop((K (F := F)).tcSt EH d 1 ∗ held (T d) (Pipeline.ucRefs τ sig) (W2 m d))) -∗ Q ⟨⟩))
      ⊢ wp frame (wpE ((K (F := F)).defs (D (F := F))) 𝒱 (SparseCore.T d) none) Set.univ ((K (F := F)).run d 0) Q := by
  rw [StableHlo.held_sub_split (T d) T3_sub (W1 m d), StableHlo.held_sub_split (T d) T3_sub (W2 m d), held_T3, held_T3, held_rest_W2,
    W1_h, W1_g, W2_h, W2_i, W2_g, show W1 m d i' = IvOf m d from rfl]
  iintro ⟨#Hctx, Hst, ⟨H3, Hrest⟩, HQ⟩
  ihave ⟨Hdrop, Hsts⟩ := (st_split m (IvOf m) d) $$ H3
  iapply ((K (F := F)).wp_run (D (F := F)) 𝒱 (EH := EH) (P := P m (IvOf m)) κ d 0)
  iframe Hctx Hsts
  isplitl [Hst]; · iexact Hst
  iintro ⟨Hst, Hdn⟩
  iapply HQ
  isplitl [Hst]; · iexact Hst
  iframe Hrest
  iapply (dn_join m (IvOf m) d)
  iframe

end Cert.Proof.KI

end
-- ==== Proof.DenseOut.lean ====
import proofs.«211965_g16441134809400_cont_sun_m_142_16_alg».proof.Proof.Gen.KernelIdeal.Skeleton

noncomputable section

namespace Cert.Proof.KI

open Cert.KernelIdeal Cert.KernelIdeal.Gen
open Idealize.ShloMosaic

variable {F : FTy → Type} [FloatOps F]

/-- The block the body stores, as a function of the nine blocks it loads. -/
def outD (x h0 h1 : Vec F S4000x128 .f32) (w u0 u1 : Vec F S256x128 .f32) (b : Vec F S1x256 .f32) (v0 v1 : Vec F S128x128 .f32) :
    Vec F S4000x128 .f32 :=
  k1_pay1 (k1_pay6 h0 h1 x w u0 u1 b) (k1_pay7 h0 h1 x w u0 u1 b v0 v1)

end Cert.Proof.KI

end
-- ==== Proof.DenseKernel.lean ====
import proofs.«211965_g16441134809400_cont_sun_m_142_16_alg».proof.Proof.Setup
import proofs.«211965_g16441134809400_cont_sun_m_142_16_alg».proof.Proof.DenseOut
import proofs.«211965_g16441134809400_cont_sun_m_142_16_alg».proof.Proof.Gen.KernelIdeal.Points
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen Idealize.ShloMosaic
open TcCoe Tactic
open SparseCore.Cfg (HIx)
open Idealize.SL Idealize.SL.RA Idealize.SL.BI Idealize.SL.BI.BIBase Idealize.SL.ProofMode Idealize.SL.Sem
open scoped Idealize.SL.BI

variable {F : FTy → Type} [FloatOps F]

local notation "𝕄" => MT nD τ sig (HIx 1) (Elt F) ℕ UU ℕ

theorem zeroOff : (![0, 0] : Fin 2 → Nat) = fun _ => 0 := funext fun a => by fin_cases a <;> rfl

abbrev rRows : Rect S4000x128 := Rect.unit (s := S4000x128) ![0, 0] S4000x128.size inb_S4000x128_S4000x128_0_0
abbrev rGate : Rect S256x128 := Rect.unit (s := S256x128) ![0, 0] S256x128.size inb_S256x128_S256x128_0_0
abbrev rBias : Rect S1x256 := Rect.unit (s := S1x256) ![0, 0] S1x256.size inb_S1x256_S1x256_0_0
abbrev rAgg : Rect S128x128 := Rect.unit (s := S128x128) ![0, 0] S128x128.size inb_S128x128_S128x128_0_0

/-- A load of a whole block reads the block, and one store of a whole block leaves what it stored. -/
theorem canon_outD (x h0 h1 : Vec F S4000x128 .f32) (w u0 u1 : Vec F S256x128 .f32) (b : Vec F S1x256 .f32) (v0 v1 : Vec F S128x128 .f32) :
    (View.canon [⟨rRows, outD (View.ld x rRows) (View.ld h0 rRows) (View.ld h1 rRows) (View.ld w rGate) (View.ld u0 rGate)
      (View.ld u1 rGate) (View.ld b rBias) (View.ld v0 rAgg) (View.ld v1 rAgg)⟩] : Vec F S4000x128 .f32) = outD x h0 h1 w u0 u1 b v0 v1 := by
  rw [View.canon_unit_zero zeroOff]
  simp only [View.ld_unit_zero (S := S4000x128) zeroOff, View.ld_unit_zero (S := S256x128) zeroOff,
    View.ld_unit_zero (S := S1x256) zeroOff, View.ld_unit_zero (S := S128x128) zeroOff]

/-- At a point the body loads its nine input blocks whole and stores one whole block, `outD` of them. -/
theorem sound_kernel1 (c : Dev nD) (t : Fin cfg1.N)
    (x h0 h1 : Vec F S4000x128 .f32) (w u0 u1 : Vec F S256x128 .f32) (b : Vec F S1x256 .f32) (v0 v1 : Vec F S128x128 .f32)
    (K : PUnit → sProp 𝕄) :
    iprop(owns c.tc (st1_0 t) fullShare x ∗ owns c.tc (st1_1 t) fullShare h0 ∗ owns c.tc (st1_2 t) fullShare h1 ∗ owns c.tc (st1_3 t) fullShare w ∗ owns c.tc (st1_4 t) fullShare u0 ∗ owns c.tc (st1_5 t) fullShare u1 ∗ owns c.tc (st1_6 t) fullShare b ∗ owns c.tc (st1_7 t) fullShare v0 ∗ owns c.tc (st1_8 t) fullShare v1 ∗ (∃ d, owns c.tc (st1_9 t) fullShare d)
        ∗ (iprop(owns c.tc (st1_0 t) fullShare x ∗ owns c.tc (st1_1 t) fullShare h0 ∗ owns c.tc (st1_2 t) fullShare h1 ∗ owns c.tc (st1_3 t) fullShare w ∗ owns c.tc (st1_4 t) fullShare u0 ∗ owns c.tc (st1_5 t) fullShare u1 ∗ owns c.tc (st1_6 t) fullShare b ∗ owns c.tc (st1_7 t) fullShare v0 ∗ owns c.tc (st1_8 t) fullShare v1 ∗ owns c.tc (st1_9 t) fullShare (outD x h0 h1 w u0 u1 b v0 v1)) -∗ K ⟨⟩))
      ⊢ wp frame (wpE (defs₀ (F := F)) Variants.none c none) Set.univ (bodyAt1 t) K := by
  rw [← canon_outD]
  unfold bodyAt1
  simp only [cc1__dense_body_eq_skeleton]; unfold cc1__dense_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr; swap; · iexact H10
  ipureintro
  exact View.read_writes_eq_canon _ _ _ fun y =>
    ⟨_, List.mem_singleton_self _, View.mem_set_unit_zero zeroOff inb_S4000x128_S4000x128_0_0 y⟩

end Cert.Proof.KI

end
-- ==== Proof.DenseBlocks.lean ====
import proofs.«211965_g16441134809400_cont_sun_m_142_16_alg».proof.Proof.Setup
import proofs.«211965_g16441134809400_cont_sun_m_142_16_alg».proof.Proof.Gen.KernelIdeal.Points
import Idealize.ShloMosaic.Lib.Pipeline.FrameBody
import Idealize.ShloMosaic.Lib.Pipeline.Frame

noncomputable section

namespace Cert.Proof.KI

open Cert.KernelIdeal Cert.KernelIdeal.Gen Idealize.ShloMosaic
open SparseCore.Cfg (HIx)
open Pipeline (Dat Window)

variable {F : FTy → Type} [FloatOps F]

theorem idx_rows : ∀ t : Fin cfg1.N, win1_0.index t 0 = t.val ∧ win1_1.index t 0 = t.val
    ∧ win1_2.index t 0 = t.val + 25 ∧ win1_9.index t 0 = t.val := by
  decide +kernel

/-- The points visit row blocks 0..49 of the gathered array's 52, so no block is cut. -/
theorem clip_none : ∀ (w : Fin cfg1.W) (t : Fin cfg1.N) a, (cfg1.win w).clip (cfg1.grid.coords t) a = none := by
  decide +kernel

/-- For `before1`: an input window handed back at the array's block, none of its blocks cut. -/
theorem before_eq_after {c : Dev nD} (dat : Dat τ (Elt F) (HIx 1) ℕ UU ℕ cfg1 c) (w : Fin cfg1.W)
    (hw : (cfg1.win w).isOut = false)
    (hkeep : ∀ t, (cfg1.win w).cut (cfg1.grid.coords t) (dat.after w t) = dat.blockOf w t) (t : Fin cfg1.N) (d) :
    dat.before w t d = dat.after w t := by
  rw [dat.before_in_eq_fetched w hw (fun _ => rfl)
    (fun t t' _ => funext fun a => (clip_none w t a).trans (clip_none w t' a).symm) hkeep t d]
  unfold Dat.fetched
  rw [← hkeep t, Pipeline.fill_of_clip_none w _ (clip_none w t) d (dat.after w t), Window.fill_cut]

end Cert.Proof.KI

end
-- ==== Proof.DenseFinal.lean ====
import proofs.«211965_g16441134809400_cont_sun_m_142_16_alg».proof.Proof.DenseBlocks
import Idealize.ShloMosaic.Lib.Pipeline.Value
import Idealize.ShloMosaic.Lib.ValueIdx

noncomputable section

namespace Cert.Proof.KI

open Cert.KernelIdeal Cert.KernelIdeal.Gen Idealize.ShloMosaic
open TcCoe
open SparseCore.Cfg (HIx)
open Pipeline (Dat)

variable {F : FTy → Type} [FloatOps F]

theorem lt_N {k : Nat} (h : k < 25) : k < cfg1.N := lt_of_lt_of_eq h N_1.symm

/-- 25 blocks of 4000 rows, one under the other. -/
def tiledRows (c : Dev nD) (G : Fin cfg1.N → Vec F S4000x128 .f32) : Buf (Elt F) ((c : Thread nD τ).loc main_v16) := fun i =>
  G ⟨(i 0).val / 4000, lt_N (by have := ValueIdx.idx2_lt0 i; omega)⟩
    (ValueIdx.ix2 ⟨(i 0).val % 4000, Nat.mod_lt _ (by omega)⟩ (i 1))

/-- `n = 4000·(n / 4000) + n mod 4000`, and `n / 4000 < 25`. -/
theorem cover9 (i : S100000x128.Idx) : ∃ t : Fin cfg1.N, (cfg1.win 9).flush t = true ∧ i ∈ ((cfg1.win 9).blk t).view.set := by
  have := ValueIdx.idx2_lt0 i
  have := ValueIdx.idx2_lt1 i
  obtain ⟨T, hT⟩ : ∃ T : Fin cfg1.N, T.val = (i 0).val / 4000 := ⟨⟨_, lt_N (by omega)⟩, rfl⟩
  refine ⟨T, flush1_9 T, ?_⟩
  show i ∈ ((View.whole main_v16).slice (win1_9.rect T)).set
  rw [View.set_slice_whole, Rect.mem_set_unit]
  have e0 := (idx_rows T).2.2.2
  intro a
  match a with
  | ⟨0, _⟩ => show win1_9.index T 0 * 4000 ≤ (i 0).val ∧ (i 0).val < win1_9.index T 0 * 4000 + 4000; rw [e0, hT]; omega
  | ⟨1, _⟩ => show 0 * 128 ≤ (i 1).val ∧ (i 1).val < 0 * 128 + 128; omega

/-- Row `4000·t + r` of the tiling is row `r` of block `t`. -/
theorem final_of {c : Dev nD} (dat : Dat τ (Elt F) (HIx 1) ℕ UU ℕ cfg1 c) (G : Fin cfg1.N → Vec F S4000x128 .f32)
    (hafter : ∀ t, dat.after 9 t = G t) : dat.arrAt 9 cfg1.N = tiledRows c G :=
  dat.arrAt_eq_of_cover 9 _ (fun t _ => by
    show (cfg1.win 9).cut (grid1.coords t) (dat.after 9 t) = _
    rw [hafter]
    funext y
    have := ValueIdx.idx2_lt0 y
    have h0 : ((((cfg1.win 9).blk t).view.emb y) 0).val = win1_9.index t 0 * 4000 + 1 * (y 0).val := rfl
    rw [(idx_rows t).2.2.2] at h0
    show G t y = tiledRows c G (((cfg1.win 9).blk t).view.emb y)
    unfold tiledRows
    exact (congrArg₂ G (Fin.ext (by show _ / 4000 = _; omega)) ((congrArg₂ ValueIdx.ix2 (Fin.ext (by show _ % 4000 = _; omega))
      (Fin.ext (by show 0 * 128 + 1 * (y 1).val = _; omega))).trans (ValueIdx.eq_ix2 y).symm)).symm) cover9

end Cert.Proof.KI

end
-- ==== Proof.DenseBody.lean ====
import proofs.«211965_g16441134809400_cont_sun_m_142_16_alg».proof.Proof.DenseKernel
import proofs.«211965_g16441134809400_cont_sun_m_142_16_alg».proof.Proof.DenseBlocks
import proofs.«211965_g16441134809400_cont_sun_m_142_16_alg».proof.Proof.DenseFinal
import Idealize.ShloMosaic.Lib.ValueIdx

noncomputable section

namespace Cert.Proof.KI

open Cert.KernelIdeal Cert.KernelIdeal.Gen Idealize.ShloMosaic
open TcCoe
open SparseCore.Cfg (HIx)
open Idealize.SL Idealize.SL.RA Idealize.SL.BI Idealize.SL.ProofMode Idealize.SL.Sem
open scoped Idealize.SL.BI
open Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-- Block `t` of `x`: 4000 rows from row `4000·t`. -/
def xBlk (c : Dev nD) (t : Fin 25) : Vec F S4000x128 .f32 := fun y =>
  (V c main_arg0 : S100000x128.Idx → Elt F .f32) (ValueIdx.ix2 ⟨4000 * t.val + (y 0).val, by have := ValueIdx.idx2_lt0 y; omega⟩ (y 1))
/-- Block `t` of the gathered array: the first children's rows. -/
def h0Blk (c : Dev nD) (t : Fin 25) : Vec F S4000x128 .f32 := fun y =>
  (V c main_v9 : S204800x128.Idx → Elt F .f32) (ValueIdx.ix2 ⟨4000 * t.val + (y 0).val, by have := ValueIdx.idx2_lt0 y; omega⟩ (y 1))
/-- Block `25 + t` of the gathered array: the second children's rows. -/
def h1Blk (c : Dev nD) (t : Fin 25) : Vec F S4000x128 .f32 := fun y =>
  (V c main_v9 : S204800x128.Idx → Elt F .f32) (ValueIdx.ix2 ⟨100000 + 4000 * t.val + (y 0).val, by have := ValueIdx.idx2_lt0 y; omega⟩ (y 1))

def outBlk (c : Dev nD) (t : Fin 25) : Vec F S4000x128 .f32 :=
  outD (xBlk V c t) (h0Blk V c t) (h1Blk V c t) (V c main_v10) (V c main_v11) (V c main_v12) (V c main_v13) (V c main_v14) (V c main_v15)

/-- The result after the last point: the 25 stored blocks, one under the other. -/
def finalD (c : Dev nD) : Buf (Elt F) ((c : Thread nD τ).loc main_v16) := tiledRows c (outBlk V c)

def ΦD (c : Dev nD) : sProp 𝕄 :=
  Pipeline.scopedRest (Ix := HIx 1) (Name := ℕ) (U := UU) (Lvl := ℕ) (Val := Elt F) spec1 c

def dat1 (c : Dev nD) : Dat τ (Elt F) (HIx 1) ℕ UU ℕ cfg1 c where
  A w := V c (Pipeline.arrRef spec1 w)
  after w t := match w with
    | ⟨0, _⟩ => xBlk V c t
    | ⟨1, _⟩ => h0Blk V c t
    | ⟨2, _⟩ => h1Blk V c t
    | ⟨3, _⟩ => V c main_v10
    | ⟨4, _⟩ => V c main_v11
    | ⟨5, _⟩ => V c main_v12
    | ⟨6, _⟩ => V c main_v13
    | ⟨7, _⟩ => V c main_v14
    | ⟨8, _⟩ => V c main_v15
    | ⟨9, _⟩ => outBlk V c t
  Φ _ := ΦD c
  q w := if w = 1 then fullShare.left else if w = 2 then fullShare.right else fullShare
  owed _ := 0
  recorded _ := {p : SemLoc sig × HIx 1 | (K (F := F)).lev ((c : Thread nD τ), p.1) p.2 ≤ 8}

theorem A_eq1 (c : Dev nD) (w : Fin cfg1.W) : (dat1 V c).A w = V c (Pipeline.arrRef spec1 w) := rfl
theorem Φ_eq1 (c : Dev nD) (t : Fin (cfg1.N + 1)) : (dat1 V c).Φ t = ΦD (F := F) c := rfl
theorem owed_eq1 (c : Dev nD) (t : Fin (cfg1.N + 1)) : (dat1 V c).owed t = 0 := rfl
theorem rec_eq1 (c : Dev nD) (t : Fin (cfg1.N + 1)) :
    (dat1 V c).recorded t = {p : SemLoc sig × HIx 1 | (K (F := F)).lev ((c : Thread nD τ), p.1) p.2 ≤ 8} := rfl
theorem q_eq1 (c : Dev nD) : (dat1 V c).q 1 = fullShare.left ∧ (dat1 V c).q 2 = fullShare.right
      ∧ ∀ w : Fin cfg1.W, w ≠ 1 → w ≠ 2 → (dat1 V c).q w = fullShare :=
  ⟨rfl, rfl, fun _ h1 h2 => (if_neg h1).trans (if_neg h2)⟩

theorem rowIx {i k r : ℕ} (e : i = k) (h : r = 4000 * k) (v : ℕ) : r + v = i * 4000 + 1 * v := by omega
theorem sameIx (s v : ℕ) : v = 0 * s + 1 * v := by omega

/-- Element `y` of block `k` lies in the array at `k`·size + `y` on each axis. -/
theorem before1 (c : Dev nD) (w : Fin cfg1.W) (hw : (cfg1.win w).isOut = false) (t : Fin cfg1.N) (d) :
    (dat1 V c).before w t d = (dat1 V c).after w t := by
  refine before_eq_after _ w hw (fun t => funext fun y => ?_) t d
  obtain ⟨e0, e1, e2, -⟩ := idx_rows t
  match w with
  | ⟨0, _⟩ => exact congrArg (V c _) (Shape.idx_ext₂ (rowIx e0 rfl _) (sameIx _ _))
  | ⟨1, _⟩ => exact congrArg (V c _) (Shape.idx_ext₂ (rowIx e1 rfl _) (sameIx _ _))
  | ⟨2, _⟩ => exact congrArg (V c _) (Shape.idx_ext₂ (rowIx e2 (by omega) _) (sameIx _ _))
  | ⟨3, _⟩ | ⟨4, _⟩ | ⟨5, _⟩ | ⟨6, _⟩ | ⟨7, _⟩ | ⟨8, _⟩ => exact congrArg (V c _) (Shape.idx_ext₂ (sameIx _ _) (sameIx _ _))
  | ⟨9, _⟩ => cases hw

/-- The body's triple at each point, the invariant and the dues framed. -/
theorem body_obligation1 (c : Dev nD) :
    BodyObligation (dat1 (F := F) V c) (defs₀ (F := F)) Variants.none (none : HIx 1) Set.univ := fun t => by
  rw [bigSep_W1, bigSep_W1]
  simp (disch := exact rfl) only [before1 V c, Φ_eq1]
  rw [show (dat1 V c).owesAt (none : HIx 1) t.succ = (dat1 V c).owesAt (none : HIx 1) t.castSucc from rfl]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%d, H9⟩⟩
  iapply (sound_kernel1 c t ((dat1 V c).after 0 t) ((dat1 V c).after 1 t) ((dat1 V c).after 2 t) ((dat1 V c).after 3 t)
    ((dat1 V c).after 4 t) ((dat1 V c).after 5 t) ((dat1 V c).after 6 t) ((dat1 V c).after 7 t) ((dat1 V c).after 8 t) _)
  iframe H0 H1 H2 H3 H4 H5 H6 H7 H8
  isplitl [H9]; · iexists _; iexact H9
  iintro ⟨H0, H1, H2, H3, H4, H5, H6, H7, H8, H9⟩
  iframe
  iexact H9

theorem final9 (c : Dev nD) : (dat1 V c).arrAt 9 cfg1.N = finalD V c :=
  final_of (dat1 V c) (outBlk V c) fun _ => rfl

end Cert.Proof.KI

end
-- ==== Proof.Region.lean ====
import proofs.«211965_g16441134809400_cont_sun_m_142_16_alg».proof.Proof.DenseBody
import Idealize.ShloMosaic.Lib.Pipeline.Regions
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

abbrev VW (W : Dev nD → Valuation τ sig (Elt F)) (c : Dev nD) (b : Ref sig .tc) : Buf (Elt F) ((c : Thread nD τ).loc b) :=
  W c (Proc.devRef .tc b)

abbrev adm : (p : Fin 1) → (pcfgs (F := F) p).Adm := fun p => (cfgs p).toPCfg_adm

def pdats (W : Dev nD → Valuation τ sig (Elt F)) :
    (p : Fin 1) → (c : Dev nD) → Dat τ (Elt F) (HIx 1) ℕ UU ℕ (Pipeline.pin (pcfgs (F := F)) adm p) c
  | ⟨0, _⟩ => fun c => dat1 (VW W) c

-- The buffers when the region is left: the result array at what the points wrote, the others as entered.
def Wout (W : Dev nD → Valuation τ sig (Elt F)) (c : Dev nD) : Valuation τ sig (Elt F) :=
  Function.update (W c) (Proc.devRef .tc main_v16) (finalD (VW W) c)

abbrev tcOwes (c : Dev nD) : sProp 𝕄 :=
  iprop(∃ Wt, ⌜(K (F := F)).WBelow (T c) Wt 8⌝ ∗ owes (T c) (0 : CellTallies nD τ sig (HIx 1)) Wt)

-- The thread state around the region, at the buffers' contents `W`.
abbrev regPre (W : Dev nD → Valuation τ sig (Elt F)) (c : Dev nD) : sProp 𝕄 :=
  iprop(StableHlo.held (T c) (Pipeline.ucRefs τ sig) (W c) ∗ tcOwes (F := F) c)

variable (W : Dev nD → Valuation τ sig (Elt F)) (V : (c : Dev nD) → (b : Ref sig .tc) → Buf (Elt F) ((c : Thread nD τ).loc b)) (c : Dev nD)

-- The buffers behind the windows are the windows' arrays: the full share of the array two windows read is its two halves.
theorem arrays_iff (V' : (b : Ref sig .tc) → Buf (Elt F) ((c : Thread nD τ).loc b)) :
    (Pipeline.arrBufs (Ix := HIx 1) (Name := ℕ) (U := UU) (Lvl := ℕ) spec1 c V' : sProp 𝕄)
      ⊣⊢ (dat1 V c).arrays fun w => V' (Pipeline.arrRef spec1 w) := by
  obtain ⟨h1, h2, hq⟩ := q_eq1 V c
  unfold Pipeline.arrBufs Pipeline.Dat.arrays
  rw [show Finset.univ.image (Pipeline.arrRef spec1) = insert main_v9 ((Finset.univ \ {1, 2}).image (Pipeline.arrRef spec1)) by decide,
    SparseCore.bigSep_insert' (by decide), bigSep_image_of_injOn (by decide), bigSep_sdiff_split (Finset.subset_univ {1, 2}),
    SparseCore.bigSep_insert' (by decide), bigSep_singleton, (arr_whole1 1).set_eq_univ,
    show (dat1 V c).share 1 = fullShare.left from h1, show (dat1 V c).share 2 = fullShare.right from h2]
  refine sep_congr (pointsTo_share (PosShare.mem_left_op_right fullShare)) (.of_eq (bigSep_congr fun w hw => ?_))
  have hn : w ≠ 1 ∧ w ≠ 2 := by constructor <;> rintro rfl <;> exact absurd hw (by decide)
  rw [(arr_whole1 w).set_eq_univ, show (dat1 V c).share w = fullShare from ite_eq_left_iff.2 fun _ => hq w hn.1 hn.2]

theorem VW_Wout (b : Ref sig .tc) (hb : b ≠ main_v16) : VW (Wout W) c b = VW W c b := by
  unfold Wout; exact Function.update_of_ne (StableHlo.devRef_ne_of_ne hb) _ _

-- When the region is left every input's array is as entered and the result array holds what the points wrote.
theorem arrAt_last : ((dat1 (VW W) c).arrAt · cfg1.N) = fun w => VW (Wout W) c (Pipeline.arrRef spec1 w) := by
  have hin : ∀ w : Fin 10, w ≠ 9 → (cfg1.win w).isOut = false ∧ Pipeline.arrRef spec1 w ≠ main_v16 := by decide
  funext w
  by_cases hw : w = 9
  · subst hw; rw [final9]; symm; exact Function.update_self _ _ _
  · rw [(dat1 (VW W) c).arrAt_in w (hin w hw).1, A_eq1, VW_Wout W c _ (hin w hw).2]

theorem unscopedRest_Wout :
    (Pipeline.unscopedRest (Ix := HIx 1) (Name := ℕ) (U := UU) (Lvl := ℕ) spec1 c (VW (Wout W) c) : sProp 𝕄)
      = Pipeline.unscopedRest spec1 c (VW W c) :=
  bigSep_congr fun b hb => by
    rw [VW_Wout W c b fun e => (Finset.mem_sdiff.mp hb).2 (Finset.mem_image.mpr ⟨9, Finset.mem_univ _, e.symm⟩)]

-- The TensorCore's buffers at contents `X`: the windows' arrays at `X`, and the buffers no window reads.
theorem held_iff (X : Dev nD → Valuation τ sig (Elt F)) :
    (StableHlo.held (T c) (Pipeline.ucRefs τ sig) (X c) : sProp 𝕄)
      ⊣⊢ iprop((dat1 V c).arrays (fun w => VW X c (Pipeline.arrRef spec1 w)) ∗ Pipeline.unscopedRest spec1 c (VW X c)) := by
  rw [← Pipeline.unscopedBufs_held (Ix := HIx 1) (Name := ℕ) (U := UU) (Lvl := ℕ) c (X c),
    Pipeline.unscopedBufs_split₀ cfgs 0 winFacts₀1.arr_unscoped c _]
  exact sep_congr_left (arrays_iff V c _)

-- Around the region the TensorCore owes nothing, which is all that any point of the region asks of it.
theorem owes_iff (t : Fin (cfg1.N + 1)) : (tcOwes (F := F) c : sProp 𝕄) ⊣⊢ (dat1 V c).owesAt (none : HIx 1) t := by
  unfold Pipeline.Dat.owesAt Pipeline.owesWithin Pipeline.Dat.bound
  rw [owed_eq1, rec_eq1]
  exact exists_congr fun Wt => sep_congr_left (pure_congr
    ⟨fun h p hp => .inl (h p hp), fun h p hp => (h hp).elim id fun ⟨w, s, e⟩ => by subst e; exact Nat.zero_le _⟩)

set_option backward.isDefEq.respectTransparency.types false in
def regD : Pipeline.RegionSeg (pcfgs (F := F)) adm (pdats W) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation1 (VW W) c).loose
  hwaits := Pipeline.hwaits_of_owed_zero _ _ _ _ (K (F := F)).L (K (F := F)).lev 0 fun _ _ => rfl
  pre := regPre W
  post := regPre (Wout W)
  X _ := BI.emp
  Y _ := BI.emp
  Z c := Pipeline.unscopedRest (Ix := HIx 1) (Name := ℕ) (U := UU) (Lvl := ℕ) spec1 c (VW W c)
  hentry c := by
    show iprop(regPre W c ∗ _) ⊢ |={Set.univ}=> iprop((dat1 (VW W) c).arrays ((dat1 (VW W) c).arrAt · 0) ∗ BI.emp ∗ (dat1 (VW W) c).owesAt (none : HIx 1) 0 ∗ _ ∗ _)
    rw [show ((dat1 (VW W) c).arrAt · 0) = fun w => VW W c (Pipeline.arrRef spec1 w) from funext (A_eq1 (VW W) c)]
    iintro ⟨⟨Hub, HO⟩, -⟩
    ihave ⟨Ha, Hr⟩ := (held_iff (VW W) c W).1 $$ Hub
    ihave HO := (owes_iff (VW W) c 0).1 $$ HO
    imodintro
    iframe
    isplitr <;> iempintro
  hin c := by
    show _ ⊢ ΦD (F := F) c
    unfold ΦD
    iintro ⟨-, -, Hr⟩
    iexact Hr
  hout c := by
    show ΦD (F := F) c ⊢ _
    unfold ΦD
    rw [Pipeline.ownSems0_none]
    iintro Hr
    iframe
    isplitr <;> iempintro
  hexit c := by
    show iprop((dat1 (VW W) c).arrays ((dat1 (VW W) c).arrAt · cfg1.N) ∗ (dat1 (VW W) c).owesAt (none : HIx 1) (Fin.last cfg1.N) ∗ _ ∗ _) ⊢ |={Set.univ}=> iprop(StableHlo.held _ _ (Wout W c) ∗ tcOwes c)
    rw [arrAt_last, ← unscopedRest_Wout]
    iintro ⟨Ha, HO, -, Hr⟩
    ihave HO := (owes_iff (VW W) c _).2 $$ HO
    imodintro
    iframe
    iapply (held_iff (VW W) c (Wout W)).2
    iframe

end Cert.Proof.KI

end
-- ==== Proof.RegionStep.lean ====
import proofs.«211965_g16441134809400_cont_sun_m_142_16_alg».proof.Proof.Region
import proofs.«211965_g16441134809400_cont_sun_m_142_16_alg».proof.Proof.LaunchElem

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

abbrev regionCall : Prog (TpuEff nD τ sig (Elt F) (ΛP (F := F)) .tc) PUnit :=
  .op (.customCall (Pipeline.entry (0 : Fin 1)) ()) fun _ => .ret ⟨⟩

-- The region's call, as @main spells it, runs from the thread state around the region at `W` to the one at `Wout W`.
theorem region_step [∀ e, Nonempty (Elt F e)] (W : Dev nD → Valuation τ sig (Elt F)) (d : Dev nD) (Q : PUnit → sProp 𝕄) :
    iprop(boundary (T d) ∗ regPre W d ∗ levAts (K (F := F)).L (K (F := F)).lev ∗ GD (F := F) d ∗ (regPre (Wout W) d -∗ Q ⟨⟩))
      ⊢ wp frame (wpE ((K (F := F)).defs (D (F := F))) 𝒱 (SparseCore.T d) none) Set.univ
          (Prog.lift (.customCall (SparseCore.inner (Pipeline.entry (0 : Fin 1))) ()) >>= fun _ => pure ⟨⟩) Q := by
  refine .trans ?_ ((K (F := F)).wp_liftProg (D (F := F)) 𝒱 (T d) Set.univ none (regionCall (F := F)) Q)
  set_option backward.isDefEq.respectTransparency.types false in
  have key := Pipeline.RegionSeg.wp (pcfgs (F := F)) adm (pdats W) (none : HIx 1) cellOf_inj (EP (F := F)) defs₀ 𝒱₀
    (K (F := F)).L (K (F := F)).lev (regD W) d none (fun u hu => by cases hu) (fun _ => .ret ⟨⟩) Q
  set_option backward.isDefEq.respectTransparency.types false in
  refine .trans ?_ key
  show _ ⊢ iprop((iprop(_ ∗ regPre (Wout W) d) -∗ _) ∗ _ ∗ regPre W d ∗ _)
  iintro ⟨Hb, Hpre, #Hlev, ⟨Hg, Ht⟩, HQ⟩
  iframe Hb Hpre Hlev Hg Ht
  iintro ⟨-, Hpost⟩
  rw [wp_ret]
  imodintro
  iapply HQ; iexact Hpost

end Cert.Proof.KI

end
-- ==== Proof.Main.lean ====
import proofs.«211965_g16441134809400_cont_sun_m_142_16_alg».proof.Proof.Vals
import proofs.«211965_g16441134809400_cont_sun_m_142_16_alg».proof.Proof.CallStep
import proofs.«211965_g16441134809400_cont_sun_m_142_16_alg».proof.Proof.RegionStep

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

abbrev W4 (d : Dev nD) : Valuation τ sig (Elt F) := Wout (fun d => W3 m d) d

-- What @main leaves: the TensorCore's buffers at the contents the dense region leaves.
abbrev FIN (d : Dev nD) : sProp 𝕄 := held (T d) (Pipeline.ucRefs τ sig) (W4 m d)

-- @main on the TensorCore: a host stretch, the SparseCore call, a host stretch, the dense region.
theorem hmain [∀ e, Nonempty (Elt F e)] (κ : GSem nD τ sig → ℕ) (d : Dev nD) :
    iprop((K (F := F)).ctx EH (P m (IvOf m)) κ ∗ (K (F := F)).tcSt EH d 0 ∗ (K (F := F)).tcRes m ρ d ∗ GD (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  iapply (StableHlo.wp_seq 𝒱 none Set.univ d (Pipeline.ucRefs τ sig) _ opsA opsA_sub opsA_fresh (W0 m d)) $$ [Hb Hheld]
  · iframe
  iintro ⟨Hb, Hheld⟩
  rw [wp_bind]
  iapply (call_step m κ d _)
  iframe Hctx Hst Hheld
  iintro ⟨Hst, Hheld⟩
  iapply (StableHlo.wp_seq 𝒱 none Set.univ d (Pipeline.ucRefs τ sig) _ opsB opsB_sub opsB_fresh (W2 m d)) $$ [Hb Hheld]
  · iframe
  iintro ⟨Hb, Hheld⟩
  unfold SparseCore.Cfg.tcSt
  rw [(K (F := F)).Otc_end d le_rfl]
  icases Hst with ⟨HO, Hhs⟩
  ihave Hlev := (SparseCore.Cfg.ctx_levAts κ) $$ Hctx
  iapply (region_step (fun d => W3 m d) d _)
  iframe Hb Hlev HG
  isplitl [Hheld HO]
  · isplitl [Hheld] <;> iassumption
  iintro ⟨Hheld, HO⟩
  iframe Hheld
  isplitl [HO] <;> iassumption

end Cert.Proof.KI

end
-- ==== Proof.TileBody.lean ====
import proofs.«211965_g16441134809400_cont_sun_m_142_16_alg».proof.Proof.Pay
import proofs.«211965_g16441134809400_cont_sun_m_142_16_alg».proof.Proof.Gen.KernelIdeal.Skeleton
import Idealize.ShloMosaic.Lib.SparseCore.Ops
import Idealize.ShloMosaic.Lib.SparseCore.Stream
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev InW (off : Fin 1 → Nat) : Prop := ∀ a, off a + S128.size a ≤ S6400.size a
abbrev InC (off : Fin 2 → Nat) : Prop := ∀ a, off a + S128x128.size a ≤ S204800x128.size a

/-- The indices whose key lies in `lo … hi`. -/
def band {ι : Type} [Fintype ι] (key : ι → Nat) (lo hi : Nat) : Finset ι := Finset.univ.filter fun j => lo ≤ key j ∧ key j < hi

theorem mem_band {ι : Type} [Fintype ι] {key : ι → Nat} {lo hi : Nat} {j : ι} : j ∈ band key lo hi ↔ lo ≤ key j ∧ key j < hi := by
  simp [band]

/-- A family of index sets that behaves as the intervals of a line do. -/
structure IsBand {ι : Type} [DecidableEq ι] (I : Nat → Nat → Finset ι) : Prop where
  union : ∀ {lo mid hi : Nat}, lo ≤ mid → mid ≤ hi → I lo hi = I lo mid ∪ I mid hi
  disj : ∀ {lo mid hi : Nat}, Disjoint (I lo mid) (I mid hi)
  nil : ∀ {a b : Nat}, b ≤ a → I a b = ∅

theorem band_isBand {ι : Type} [Fintype ι] [DecidableEq ι] (key : ι → Nat) : IsBand (band key) where
  union h1 h2 := by ext j; simp only [Finset.mem_union, mem_band]; omega
  disj := by intro lo mid hi; rw [Finset.disjoint_left]; intro j a b; rw [mem_band] at a b; omega
  nil h := by ext j; simp only [mem_band, Finset.notMem_empty, iff_false]; omega

section Band

variable {ℓ : Loc nD τ sig} {I : Nat → Nat → Finset (Idx ℓ)} (hI : IsBand I) (f : Buf (Elt F) ℓ)
include hI

/-- A band held whole is its two halves held apart. -/
theorem band_split {lo mid hi : Nat} (h1 : lo ≤ mid) (h2 : mid ≤ hi) :
    (ℓ ↦[I lo hi]{fullShare} f : sProp 𝕄) = iprop((ℓ ↦[I lo mid]{fullShare} f) ∗ (ℓ ↦[I mid hi]{fullShare} f)) := by
  have h : (ℓ ↦[_]{fullShare} f : sProp 𝕄) ⊣⊢ _ := pointsTo_union (hI.disj (lo := lo) (mid := mid) (hi := hi))
  rw [hI.union h1 h2]; exact BI.equiv_iff.mp ⟨h.1, h.2⟩

theorem band_empty {a b : Nat} (h : b ≤ a) : (ℓ ↦[I a b]{fullShare} f : sProp 𝕄) = iprop(emp) := by
  rw [hI.nil h, pointsTo_empty]

/-- Five consecutive stretches of 128 off the front of a band. -/
theorem band_split5 {a hi a1 a2 a3 a4 a5 : Nat} (h1 : a + 128 = a1) (h2 : a + 256 = a2) (h3 : a + 384 = a3) (h4 : a + 512 = a4)
    (h5 : a + 640 = a5) (h : a5 ≤ hi) :
    (ℓ ↦[I a hi]{fullShare} f : sProp 𝕄)
      = iprop((ℓ ↦[I a a1]{fullShare} f) ∗ (ℓ ↦[I a1 a2]{fullShare} f) ∗ (ℓ ↦[I a2 a3]{fullShare} f)
          ∗ (ℓ ↦[I a3 a4]{fullShare} f) ∗ (ℓ ↦[I a4 a5]{fullShare} f) ∗ (ℓ ↦[I a5 hi]{fullShare} f)) := by
  subst h1 h2 h3 h4 h5
  rw [band_split hI f (mid := a + 128) (by omega) (by omega), band_split hI f (lo := a + 128) (mid := a + 256) (by omega) (by omega),
    band_split hI f (lo := a + 256) (mid := a + 384) (by omega) (by omega), band_split hI f (lo := a + 384) (mid := a + 512) (by omega) (by omega),
    band_split hI f (lo := a + 512) (mid := a + 640) (by omega) h]

/-- Five consecutive stretches of 128 onto the back of a band. -/
theorem band_join5 {b a a1 a2 a3 a4 a5 : Nat} (hb : b ≤ a) (h1 : a + 128 = a1) (h2 : a + 256 = a2) (h3 : a + 384 = a3) (h4 : a + 512 = a4)
    (h5 : a + 640 = a5) :
    (iprop((ℓ ↦[I b a]{fullShare} f) ∗ (ℓ ↦[I a a1]{fullShare} f) ∗ (ℓ ↦[I a1 a2]{fullShare} f)
          ∗ (ℓ ↦[I a2 a3]{fullShare} f) ∗ (ℓ ↦[I a3 a4]{fullShare} f) ∗ (ℓ ↦[I a4 a5]{fullShare} f)) : sProp 𝕄)
      = (ℓ ↦[I b a5]{fullShare} f) := by
  subst h1 h2 h3 h4 h5
  rw [band_split hI f (lo := b) (mid := a) (hi := a + 640) hb (by omega), band_split hI f (lo := a) (mid := a + 128) (hi := a + 640) (by omega) (by omega),
    band_split hI f (lo := a + 128) (mid := a + 256) (hi := a + 640) (by omega) (by omega), band_split hI f (lo := a + 256) (mid := a + 384) (hi := a + 640) (by omega) (by omega),
    band_split hI f (lo := a + 384) (mid := a + 512) (hi := a + 640) (by omega) (by omega)]

/-- The same, the five stretches given as sets equal to them. -/
theorem band_join5' {b a a5 : Nat} {s0 s1 s2 s3 s4 : Finset (Idx ℓ)} (hb : b ≤ a) (h5 : a + 640 = a5) (e0 : s0 = I a (a + 128))
    (e1 : s1 = I (a + 128) (a + 256)) (e2 : s2 = I (a + 256) (a + 384)) (e3 : s3 = I (a + 384) (a + 512)) (e4 : s4 = I (a + 512) a5) :
    (iprop((ℓ ↦[I b a]{fullShare} f) ∗ (ℓ ↦[s0]{fullShare} f) ∗ (ℓ ↦[s1]{fullShare} f) ∗ (ℓ ↦[s2]{fullShare} f) ∗ (ℓ ↦[s3]{fullShare} f)
      ∗ (ℓ ↦[s4]{fullShare} f)) : sProp 𝕄) = (ℓ ↦[I b a5]{fullShare} f) := by
  subst e0 e1 e2 e3 e4; exact band_join5 hI f hb rfl rfl rfl rfl h5

end Band

section Tile

variable (d : Dev nD) (L : grid0.Coords)

abbrev VT (d : Dev nD) (L : grid0.Coords) : Thread nD τ := V d (cV L) (jV L)

local notation "hV" => (Memref.whole main_arg1_scv : Memref sig Kind.scVector Space.hbm S100000x128 EltTy.f32)
local notation "iV" => (Memref.whole main_v8_scv : Memref sig Kind.scVector Space.hbm S204800 EltTy.i32)
local notation "gV" => (Memref.whole main_v9_scv : Memref sig Kind.scVector Space.hbm S204800x128 EltTy.f32)
local notation "sV" => (Memref.whole cc0_scratch0 : Memref sig Kind.scVector Space.vmem S6400 EltTy.i32)
local notation "bV1" => (Memref.whole cc0_scratch1 : Memref sig Kind.scVector Space.vmem S128x128 EltTy.f32)
local notation "bV2" => (Memref.whole cc0_scratch2 : Memref sig Kind.scVector Space.vmem S128x128 EltTy.f32)
local notation "bV3" => (Memref.whole cc0_scratch3 : Memref sig Kind.scVector Space.vmem S128x128 EltTy.f32)
local notation "bV4" => (Memref.whole cc0_scratch4 : Memref sig Kind.scVector Space.vmem S128x128 EltTy.f32)
local notation "bV5" => (Memref.whole cc0_scratch5 : Memref sig Kind.scVector Space.vmem S128x128 EltTy.f32)

abbrev sLoc : Loc nD τ sig := (sV).view.loc (VT d L)
abbrev irowK (L : grid0.Coords) : Rect S204800 := Rect.unit (s := S204800) (k0_off1 L) S6400.size (k0_off1_inb L)
abbrev iRowK (L : grid0.Coords) : Memref sig .scVector .hbm S6400 .i32 := (iV).slice (irowK L) (fun _ => rfl)

theorem irowK_eq : irowK L = irow (wL L) := by
  unfold irowK irow Rect.part Rect.block
  congr 1 <;> funext a
  · rw [k0_off1_eq]
    obtain rfl : a = 0 := Subsingleton.elim _ _
    show 12800 * (L 1).val + 6400 * (L 0).val = (2 * (L 1).val + (L 0).val) * (204800 / 32)
    omega
  · obtain rfl : a = 0 := Subsingleton.elim _ _
    simp [Shape.partSize]

theorem set_iRowK : (iRowK L).view.set = iSet (wL L) := by
  show ((iV).view.slice (irowK L)).set = ((iV).view.slice (irow (wL L))).set
  exact irowK_eq L ▸ rfl

theorem pts_iRowK (f : Buf (Elt F) (iLoc d)) :
    ((iRowK L).view.loc (VT d L) ↦[(iRowK L).view.set]{fullShare} f : sProp 𝕄) = iLoc d ↦[iSet (wL L)]{fullShare} f := by
  rw [set_iRowK]
theorem pts_hV (q : PosShare TreeShare) (f : Buf (Elt F) (hLoc d)) :
    ((hV).view.loc (VT d L) ↦{q} f : sProp 𝕄) = hLoc d ↦{q} f := rfl
theorem pts_scr (r : Ref sig .scVector) (f : Buf (Elt F) ((VT d L).loc r)) :
    ((Memref.whole r).view.loc (VT d L) ↦[(Memref.whole r).view.set]{fullShare} f : sProp 𝕄) = (VT d L).loc r ↦{fullShare} f := by
  rw [View.set_whole]

abbrev csem (k : Nat) (hk : k < 25 := by decide) : DmaSem sig := ⟨k, hk⟩
abbrev dcell (d : Dev nD) (c : Fin τ.nSC) (i : Fin τ.nSub) (k : Fin 11) : GSem nD τ sig :=
  (V d c i, .dma (csem k.val (Nat.lt_trans k.isLt (by decide))))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 11)) = {0, 1, 2, 3, 4, 5, 6, 7, 8, 9, 10} by decide]
  repeat rw [SparseCore.bigSep_insert' (by decide)]
  rw [bigSep_singleton]
  rfl

def scr : Fin 6 → Ref sig .scVector
  | 0 => cc0_scratch0 | 1 => cc0_scratch1 | 2 => cc0_scratch2 | 3 => cc0_scratch3 | 4 => cc0_scratch4 | 5 => cc0_scratch5
theorem scr_injective : Function.Injective scr := by decide

theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f))
          ∗ bigSep ((ownRefs (τ := τ) (.scVector (cV L) (jV L))) \ Finset.univ.image fun k => (Proc.scVector (cV L) (jV L)).devRef (scr k))
              fun b => iprop(∃ f, ((d, b) : Loc nD τ sig) ↦{fullShare} f)) := by
  unfold SparseCore.Cfg.ownBufs
  rw [SparseCore.bigSep_sdiff_split' (t := Finset.univ.image fun k => (Proc.scVector (cV L) (jV L)).devRef (scr k))
      (Finset.image_subset_iff.mpr fun k _ => by
        fin_cases k <;> exact SparseCore.Cfg.mem_ownRefs_of_owner (p := Proc.scVector (cV L) (jV L)) rfl),
    SparseCore.bigSep_image_of_injOn (fun a _ b _ h => scr_injective (Proc.devRef_injective _ h))]
  rw [show (Finset.univ : Finset (Fin 6)) = {0, 1, 2, 3, 4, 5} by decide]
  repeat rw [SparseCore.bigSep_insert' (by decide)]
  rw [bigSep_singleton]
  rfl

theorem hToks (q : PosShare TreeShare) (f : Buf (Elt F) (hLoc d)) :
    (hLoc d ↦{q} f : sProp 𝕄) ⊣⊢ iprop((hLoc d ↦{Transfers.shareDrop q 5} f) ∗ (hLoc d ↦{Transfers.shareTokN q 0} f) ∗ (hLoc d ↦{Transfers.shareTokN q 1} f)
      ∗ (hLoc d ↦{Transfers.shareTokN q 2} f) ∗ (hLoc d ↦{Transfers.shareTokN q 3} f) ∗ (hLoc d ↦{Transfers.shareTokN q 4} f)) := by
  have h : (hLoc d ↦{q} f : sProp 𝕄) ⊣⊢ iprop((hLoc d ↦{Transfers.shareDrop q 5} f) ∗ bigSep (Finset.range 5) fun i => hLoc d ↦{Transfers.shareTokN q i} f) :=
    Transfers.pointsTo_toks_range (ℓ := hLoc d) (S := Finset.univ) (f := f) q 5
  rw [show Finset.range 5 = {0, 1, 2, 3, 4} by decide] at h
  repeat rw [SparseCore.bigSep_insert' (by decide)] at h
  rwa [bigSep_singleton] at h

abbrev PAYI : S6400.Idx → Elt F .i32 := ReadAs.same.apply ((iRowK L).view.read (Elt F) (Iv d))

theorem PAYI_apply (x : S6400.Idx) : PAYI Iv d L x = Iv d ((iRowK L).view.emb x) :=
  (View.read_apply _ _).trans (cast_eq _ _)

/-- A word of a window of the index buffer, once a whole payload has been written over it, is the payload's word there. -/
theorem read_win (g0 : Buf (Elt F) (sLoc d L)) (pay : S6400.Idx → Elt F .i32)
    (off : Fin 1 → Nat) (hk : InW off) (hs : ∀ a, (Rect.unit (s := S6400) off S128.size hk).stride a = 1) (x) :
    View.read (Elt F) ((sV).slice (Rect.unit (s := S6400) off S128.size hk) hs).view
      ((sV).view.writes (Elt F) g0 [⟨Rect.whole cc0_scratch0.ty.shape, pay⟩]) x = pay ((Rect.unit (s := S6400) off S128.size hk).emb x) := by
  refine Eq.trans (b := View.read (Elt F) (sV).view ((sV).view.writes (Elt F) g0 [⟨Rect.whole cc0_scratch0.ty.shape, pay⟩])
    ((Rect.unit (s := S6400) off S128.size hk).emb x)) (by rw [View.read_apply, View.read_apply]; rfl) ?_
  rw [View.read_writes_whole]

theorem idx_inb (hpre : PreOK Iv) (g0 : Buf (Elt F) (sLoc d L)) (pay : S6400.Idx → Elt F .i32) (hpay : pay = PAYI Iv d L)
    (off : Fin 1 → Nat) (hk : InW off) (hs : ∀ a, (Rect.unit (s := S6400) off S128.size hk).stride a = 1) :
    ∀ x, (View.read (Elt F) ((sV).slice (Rect.unit (s := S6400) off S128.size hk) hs).view
      ((sV).view.writes (Elt F) g0 [⟨Rect.whole cc0_scratch0.ty.shape, pay⟩]) x).toNat < 100000 := by
  subst hpay; intro x
  rw [read_win, PAYI_apply]
  exact hpre d _

abbrev rowsSet (lo hi : Nat) : Finset S204800x128.Idx := band (fun j => (j 0).val) lo hi
abbrev posSet (lo hi : Nat) : Finset S6400.Idx := band (fun x => (x 0).val) lo hi
theorem rowsB : IsBand (ι := Idx (gLoc d)) rowsSet := band_isBand _
theorem posB : IsBand (ι := Idx (sLoc d L)) posSet := band_isBand _

theorem rows_congr {lo hi lo' hi' : Nat} (f : Buf (Elt F) (gLoc d)) (h1 : lo = lo') (h2 : hi = hi') :
    (gLoc d ↦[rowsSet lo hi]{fullShare} f : sProp 𝕄) = (gLoc d ↦[rowsSet lo' hi']{fullShare} f) := by subst h1 h2; rfl
theorem mem_rowsSet {lo hi : Nat} {j : S204800x128.Idx} : j ∈ rowsSet lo hi ↔ lo ≤ (j 0).val ∧ (j 0).val < hi := mem_band
theorem mem_posSet {lo hi : Nat} {x : S6400.Idx} : x ∈ posSet lo hi ↔ lo ≤ (x 0).val ∧ (x 0).val < hi := mem_band

abbrev hSl : Memref sig .scVector .hbm S100000x128 .f32 :=
  (hV).slice (Rect.unit (s := S100000x128) ![0, 0] S100000x128.size inb_S100000x128_S100000x128_0_0) (fun _ => rfl)
abbrev sWin (off : Fin 1 → Nat) (hk : InW off) : Memref sig .scVector .vmem S128 .i32 :=
  (sV).slice (Rect.unit (s := S6400) off S128.size hk) (fun _ => rfl)
abbrev gCh (off : Fin 2 → Nat) (hk : InC off) : Memref sig .scVector .hbm S128x128 .f32 :=
  (gV).slice (Rect.unit (s := S204800x128) off S128x128.size hk) (fun _ => rfl)
abbrev fS : Buf (Elt F) (sLoc d L) :=
  (sV).view.writes (Elt F) (sV).view.junk [⟨Rect.whole cc0_scratch0.ty.shape, PAYI Iv d L⟩]

abbrev gPay (hpre : PreOK Iv) (off : Fin 1 → Nat) (hk : InW off) : S128x128.Idx → Elt F .f32 :=
  SparseCore.gatherPayload gathers_S100000x128_S128x128 ((hSl).view.read (Elt F) (m (hLoc d)))
    (SparseCore.rows ((sWin off hk).view.read (Elt F) (fS Iv d L)) rfl
      (idx_inb Iv d L hpre _ _ rfl off hk (fun _ => rfl)))

abbrev gFl (c : Nat) (hc : c < 25) (bV : Memref sig .scVector .vmem S128x128 .f32) (cont : Buf (Elt F) (bV.view.loc (VT d L)))
    (off : Fin 1 → Nat) (hk : InW off) : sProp 𝕄 :=
  Transfers.Flight countersEmb (VT d L) (SemLoc.dma (csem c hc)) (default : HIx 1) 524288
    iprop(((bV.view.loc (VT d L) ↦[bV.view.set]{fullShare} cont)
        ∗ (sLoc d L ↦[(sWin off hk).view.set]{fullShare} fS Iv d L))
      ∗ ((hV).view.loc (VT d L) ↦[(hSl).view.set]{Transfers.shareTokN (hq (wL L)) c} m (hLoc d)))

abbrev cFl (c : Nat) (hc : c < 25) (bV : Memref sig .scVector .vmem S128x128 .f32) (cont : Buf (Elt F) (bV.view.loc (VT d L))) (lo hi : Nat) : sProp 𝕄 :=
  Transfers.Flight countersEmb (VT d L) (SemLoc.dma (csem c hc)) (default : HIx 1) 524288
    iprop((gLoc d ↦[rowsSet lo hi]{fullShare} Gv m Iv d) ∗ (bV.view.loc (VT d L) ↦[bV.view.set]{fullShare} cont))

theorem winInb (k b : Nat) (hb : b < 5) : InW ![640 * (k % 10) + 128 * b] := by
  intro a; obtain rfl : a = 0 := Subsingleton.elim _ _
  show 640 * (k % 10) + 128 * b + 128 ≤ 6400
  omega

theorem vec1_eq (off : Fin 1 → Nat) (n : Nat) (h : off 0 = n) : off = ![n] := by
  funext a; obtain rfl : a = 0 := Subsingleton.elim _ _; exact h

/-- Chunk `5k + r` is being gathered into the row buffer `bV`: the rows of `h` its index words name. -/
abbrev gIn (hpre : PreOK Iv) (bV : Memref sig .scVector .vmem S128x128 .f32) (k r : Nat) (hr : r < 5) : sProp 𝕄 :=
  iprop(∃ c, gFl m Iv d L r (by omega) bV c ![640 * (k % 10) + 128 * r] (winInb k r hr)
    ∗ ⌜bV.view.read (Elt F) c = gPay m Iv d L hpre ![640 * (k % 10) + 128 * r] (winInb k r hr)⌝)

theorem gIn_intro (hpre : PreOK Iv) (bV : Memref sig .scVector .vmem S128x128 .f32) (g0 : Buf (Elt F) (bV.view.loc (VT d L))) (k r : Nat) (hr : r < 5)
    (off : Fin 1 → Nat) (hk : InW off) (ho : off 0 = 640 * (k % 10) + 128 * r) :
    gFl m Iv d L r (by omega) bV (bV.view.writes (Elt F) g0 [⟨Rect.whole S128x128, gPay m Iv d L hpre off hk⟩]) off hk
      ⊢ gIn m Iv d L hpre bV k r hr := by
  obtain rfl := vec1_eq off _ ho
  iintro H; iexists _; isplitl [H]; · iexact H
  ipureintro; exact View.read_writes_whole _ _ _

theorem rect_rows (off : Fin 2 → Nat) (hk : InC off) (h1 : off 1 = 0) :
    (Rect.unit (s := S204800x128) off S128x128.size hk).set = rowsSet (off 0) (off 0 + 128) := by
  ext j
  rw [Rect.mem_set_unit, mem_rowsSet]
  have hj1 : (j 1).val < 128 := (j 1).isLt
  constructor
  · intro h; exact h 0
  · intro h a
    match a with
    | 0 => exact h
    | 1 => exact ⟨by rw [h1]; exact Nat.zero_le _, by rw [h1]; show (j 1).val < 0 + 128; omega⟩
theorem set_gCh (off : Fin 2 → Nat) (hk : InC off) (h1 : off 1 = 0) :
    (gCh off hk).view.set = rowsSet (off 0) (off 0 + 128) := by
  show ((View.whole (main_v9_scv : Ref sig .scVector)).slice (Rect.unit (s := S204800x128) off S128x128.size hk)).set = _
  rw [View.set_slice_whole]; exact rect_rows off hk h1
theorem pts_gCh (off : Fin 2 → Nat) (hk : InC off) (h1 : off 1 = 0) (f : Buf (Elt F) (gLoc d)) :
    ((gCh off hk).view.loc (VT d L) ↦[(gCh off hk).view.set]{fullShare} f : sProp 𝕄) = gLoc d ↦[rowsSet (off 0) (off 0 + 128)]{fullShare} f := by
  rw [set_gCh off hk h1]
theorem pts_gCh' (off : Fin 2 → Nat) (hk : InC off) (h1 : off 1 = 0) (lo hi : Nat)
    (hlo : off 0 = lo) (hhi : off 0 + 128 = hi) (f : Buf (Elt F) (gLoc d)) :
    ((gCh off hk).view.loc (VT d L) ↦[(gCh off hk).view.set]{fullShare} f : sProp 𝕄) = gLoc d ↦[rowsSet lo hi]{fullShare} f := by
  subst hlo hhi; exact pts_gCh d L off hk h1 f
theorem rect_pos (off : Fin 1 → Nat) (hk : InW off) :
    (Rect.unit (s := S6400) off S128.size hk).set = posSet (off 0) (off 0 + 128) := by
  ext x
  rw [Rect.mem_set_unit, mem_posSet]
  constructor
  · intro h; exact h 0
  · intro h a; obtain rfl : a = 0 := Subsingleton.elim _ _; exact h
theorem set_sWin (off : Fin 1 → Nat) (hk : InW off) : (sWin off hk).view.set = posSet (off 0) (off 0 + 128) := by
  show ((View.whole (cc0_scratch0 : Ref sig .scVector)).slice (Rect.unit (s := S6400) off S128.size hk)).set = _
  rw [View.set_slice_whole]; exact rect_pos off hk
theorem pts_sWin' (off : Fin 1 → Nat) (hk : InW off) (lo hi : Nat) (hlo : off 0 = lo) (hhi : off 0 + 128 = hi)
    (f : Buf (Elt F) (sLoc d L)) :
    (sLoc d L ↦[(sWin off hk).view.set]{fullShare} f : sProp 𝕄) = (sLoc d L ↦[posSet lo hi]{fullShare} f) := by
  subst hlo hhi; rw [set_sWin off hk]
theorem pts_sWinK' (off : Fin 1 → Nat) (hk : InW off) (lo hi : Nat) (hlo : off 0 = lo) (hhi : off 0 + 128 = hi)
    (f : Buf (Elt F) (sLoc d L)) :
    ((sWin off hk).view.loc (VT d L) ↦[(sWin off hk).view.set]{fullShare} f : sProp 𝕄) = (sLoc d L ↦[posSet lo hi]{fullShare} f) :=
  pts_sWin' d L off hk lo hi hlo hhi f
theorem pts_sV_pos (f : Buf (Elt F) (sLoc d L)) :
    (sLoc d L ↦[(sV).view.set]{fullShare} f : sProp 𝕄) = (sLoc d L ↦[posSet 0 6400]{fullShare} f) := by
  have h : (posSet 0 6400 : Finset S6400.Idx) = Finset.univ := by
    ext x
    have hx : (x 0).val < 6400 := (x 0).isLt
    simp only [mem_posSet, Finset.mem_univ, iff_true]; exact ⟨Nat.zero_le _, hx⟩
  rw [View.set_whole, h]
theorem part_rows (w : Fin 32) : (grow w).set = rowsSet (6400 * w.val) (6400 * w.val + 6400) := by
  ext j
  rw [Rect.mem_set_unit, mem_rowsSet]
  have hj1 : (j 1).val < 128 := (j 1).isLt
  constructor
  · intro h
    have h0 : w.val * (204800 / 32) ≤ (j 0).val ∧ (j 0).val < w.val * (204800 / 32) + 204800 / 32 := h 0
    omega
  · intro h a
    match a with
    | 0 => show w.val * (204800 / 32) ≤ (j 0).val ∧ (j 0).val < w.val * (204800 / 32) + 204800 / 32; omega
    | 1 => show 0 * 128 ≤ (j 1).val ∧ (j 1).val < 0 * 128 + 128; omega
theorem gSet_rows (w : Fin 32) : gSet w = rowsSet (6400 * w.val) (6400 * w.val + 6400) := by
  show ((View.whole (main_v9_scv : Ref sig .scVector)).slice (grow w)).set = _
  rw [View.set_slice_whole]; exact part_rows w

theorem win_word (off : Fin 1 → Nat) (hk : InW off) (y : S128.Idx) :
    (sWin off hk).view.read (Elt F) (fS Iv d L) y = Iv d ((iRowK L).view.emb ((Rect.unit (s := S6400) off S128.size hk).emb y)) :=
  (read_win d L _ _ off hk _ y).trans (PAYI_apply Iv d L _)

theorem word_ix (off1 : Fin 1 → Nat) (hk1 : InW off1) (y : S128.Idx) (q : Fin 204800)
    (hq : q.val = 6400 * (wL L).val + off1 0 + (y 0).val) :
    ((iRowK L).view.emb ((Rect.unit (s := S6400) off1 S128.size hk1).emb y) : S204800.Idx) = ValueIdx.ix1 q := by
  funext a
  obtain ⟨a, ha⟩ := a
  have ha' : a < 1 := ha
  obtain rfl : a = 0 := by omega
  apply Fin.ext
  show (k0_off1 L) 0 + 1 * (off1 0 + 1 * (y 0).val) = q.val
  rw [hq, k0_off1_eq]
  show 12800 * (L 1).val + 6400 * (L 0).val + 1 * (off1 0 + 1 * (y 0).val) = 6400 * (2 * (L 1).val + (L 0).val) + off1 0 + (y 0).val
  omega

theorem src_ix (z : S100000x128.Idx) (r : Fin 100000) (c : Fin 128) (h0 : (z 0).val = r.val) (h1 : (z 1).val = c.val) :
    ((hSl).view.emb z : S100000x128.Idx) = ValueIdx.ix2 r c := by
  funext a
  obtain ⟨a, ha⟩ := a
  have ha' : a < 2 := ha
  rcases (by omega : a = 0 ∨ a = 1) with rfl | rfl
  · apply Fin.ext; show 0 + 1 * (z 0).val = r.val; omega
  · apply Fin.ext; show 0 + 1 * (z 1).val = c.val; omega

theorem rows_val {si : Shape} {o z : ℕ} (idx : si.Idx → Elt F .i32) (hn : si.numel = o) (h : ∀ x, (idx x).toNat < z) (kk : Fin o) :
    (SparseCore.rows idx hn h kk).val = (idx (si.rowMajor.symm (kk.cast hn.symm))).toNat := rfl

theorem gPay_eq_Gv_aux (hpre : PreOK Iv) (off1 : Fin 1 → Nat) (hk1 : InW off1)
    (off2 : Fin 2 → Nat) (hk2 : InC off2)
    (h1 : off2 1 = 0) (h0 : off2 0 = 6400 * (wL L).val + off1 0) (x : S128x128.Idx)
    (R : Fin (S128x128.size gathers_S100000x128_S128x128.axis') → Fin (S100000x128.size gathers_S100000x128_S128x128.axis))
    (hR : ∀ kk, (R kk).val = ((sWin off1 hk1).view.read (Elt F) (fS Iv d L) (S128.rowMajor.symm (kk.cast rfl))).toNat) :
    SparseCore.gatherPayload gathers_S100000x128_S128x128 ((hSl).view.read (Elt F) (m (hLoc d))) R x
      = Gv m Iv d ((gCh off2 hk2).view.emb x) := by
  have hy : ((S128.rowMajor.symm ((x gathers_S100000x128_S128x128.axis').cast rfl)) 0).val = (x 0).val := by
    have h := Shape.rowMajor_val_one (S128.rowMajor.symm ((x gathers_S100000x128_S128x128.axis').cast rfl))
    rw [Equiv.apply_symm_apply] at h
    exact h.symm
  have hj0 : (((gCh off2 hk2).view.emb x) 0).val = off2 0 + (x 0).val := by
    show off2 0 + 1 * (x 0).val = _; omega
  have hj1 : (((gCh off2 hk2).view.emb x) 1).val = (x 1).val := by
    show off2 1 + 1 * (x 1).val = _; rw [h1]; omega
  have hw : (sWin off1 hk1).view.read (Elt F) (fS Iv d L) (S128.rowMajor.symm ((x gathers_S100000x128_S128x128.axis').cast rfl))
      = (Iv d : S204800.Idx → BitVec 32) (ValueIdx.ix1 (((gCh off2 hk2).view.emb x) 0)) := by
    rw [win_word]
    exact congrArg (Iv d : S204800.Idx → BitVec 32) (word_ix L off1 hk1 _ (((gCh off2 hk2).view.emb x) 0) (by rw [hj0, hy, h0]))
  have hlt := hpre d (ValueIdx.ix1 (((gCh off2 hk2).view.emb x) 0))
  have e0 : ((gathers_S100000x128_S128x128.idx R x) 0).val = (R (x gathers_S100000x128_S128x128.axis')).val :=
    congrArg Fin.val (Shape.Gathers.idx_axis gathers_S100000x128_S128x128 R x)
  have e1 : ((gathers_S100000x128_S128x128.idx R x) 1).val = (x 1).val :=
    Shape.Gathers.idx_of_ne gathers_S100000x128_S128x128 R x 1 (by decide)
  show (hSl).view.read (Elt F) (m (hLoc d)) (gathers_S100000x128_S128x128.idx R x)
    = (m (hLoc d) : S100000x128.Idx → Elt F .f32) (ValueIdx.ix2 (Spec.rowOf ((Iv d : S204800.Idx → BitVec 32) (ValueIdx.ix1 (((gCh off2 hk2).view.emb x) 0)))) (((gCh off2 hk2).view.emb x) 1))
  rw [View.read_apply]
  refine (cast_eq _ _).trans (congrArg (m (hLoc d) : S100000x128.Idx → Elt F .f32) ?_)
  refine src_ix _ _ _ (e0.trans ((hR _).trans ?_)) (e1.trans hj1.symm)
  rw [hw, Spec.rowOf_val hlt]

theorem gPay_eq_Gv (hpre : PreOK Iv) (off1 : Fin 1 → Nat) (hk1 : InW off1)
    (off2 : Fin 2 → Nat) (hk2 : InC off2)
    (h1 : off2 1 = 0) (h0 : off2 0 = 6400 * (wL L).val + off1 0) (x : S128x128.Idx) :
    gPay m Iv d L hpre off1 hk1 x = Gv m Iv d ((gCh off2 hk2).view.emb x) :=
  gPay_eq_Gv_aux m Iv d L hpre off1 hk1 off2 hk2 h1 h0 x
    (SparseCore.rows ((sWin off1 hk1).view.read (Elt F) (fS Iv d L)) rfl (idx_inb Iv d L hpre _ _ rfl off1 hk1 (fun _ => rfl)))
    (fun kk => rows_val _ _ _ kk)

theorem chunk_value (hpre : PreOK Iv) (bV : Memref sig .scVector .vmem S128x128 .f32) (c : Buf (Elt F) (bV.view.loc (VT d L)))
    (off1 : Fin 1 → Nat) (hk1 : InW off1)
    (hc : bV.view.read (Elt F) c = gPay m Iv d L hpre off1 hk1)
    (off2 : Fin 2 → Nat) (hk2 : InC off2)
    (h1 : off2 1 = 0) (h0 : off2 0 = 6400 * (wL L).val + off1 0) (lo hi : Nat) (hlo : off2 0 = lo) (hhi : off2 0 + 128 = hi)
    (g0 : Buf (Elt F) (gLoc d)) (pay : S128x128.Idx → Elt F .f32)
    (hpay : pay = ReadAs.same.apply (bV.view.read (Elt F) c)) :
    ((gCh off2 hk2).view.loc (VT d L) ↦[(gCh off2 hk2).view.set]{fullShare}
        (gCh off2 hk2).view.writes (Elt F) g0 [⟨Rect.whole S128x128, pay⟩] : sProp 𝕄)
      = gLoc d ↦[rowsSet lo hi]{fullShare} Gv m Iv d := by
  subst hlo hhi
  rw [← pts_gCh d L off2 hk2 h1]
  refine pointsTo_congr fun i hi => ?_
  obtain ⟨x, -, rfl⟩ := Finset.mem_map.mp hi
  have e := congrFun (View.read_writes_whole (gCh off2 hk2).view g0 pay) x
  rw [View.read_apply] at e
  refine ((cast_eq _ _).symm.trans e).trans ?_
  subst hpay
  show bV.view.read (Elt F) c x = _
  rw [hc]
  exact gPay_eq_Gv m Iv d L hpre off1 hk1 off2 hk2 h1 h0 x

abbrev base (L : grid0.Coords) : Nat := 6400 * (wL L).val

theorem off3_0 (k : Fin k0_t1_loop.trips) (r : Nat) (hr : r < 5) : (k0_off3 L k (BitVec.ofNat 32 r)) 0 = base L + 640 * k.val + 128 * r := by
  rw [show (k0_off3 L k (BitVec.ofNat 32 r)) = _ from k0_off3_eq L k ⟨r, hr⟩]
  show 12800 * (L 1).val + 6400 * (L 0).val + 640 * k.val + 128 * r = 6400 * (2 * (L 1).val + (L 0).val) + 640 * k.val + 128 * r
  omega
theorem off3_1 (k : Fin k0_t1_loop.trips) (r : Nat) (hr : r < 5) : (k0_off3 L k (BitVec.ofNat 32 r)) 1 = 0 := by
  rw [show (k0_off3 L k (BitVec.ofNat 32 r)) = _ from k0_off3_eq L k ⟨r, hr⟩]
  rfl

theorem trips_le (k : Fin k0_t1_loop.trips) : k.val < 10 := Nat.lt_of_lt_of_le k.isLt k0_t1_abs.2.1
theorem cond1_iff : ∀ k : Fin k0_t1_loop.trips, k0_cond1 k = 1#1 ↔ k.val + 1 < 10 := by decide +kernel
theorem cond2_iff : ∀ k : Fin k0_t1_loop.trips, k0_cond2 k = 1#1 ↔ k.val + 1 < 10 := by decide +kernel
theorem cond3_iff : ∀ k : Fin k0_t1_loop.trips, k0_cond3 k = 1#1 ↔ k.val + 1 < 10 := by decide +kernel
theorem cond4_iff : ∀ k : Fin k0_t1_loop.trips, k0_cond4 k = 1#1 ↔ k.val + 1 < 10 := by decide +kernel
theorem cond5_iff : ∀ k : Fin k0_t1_loop.trips, k0_cond5 k = 1#1 ↔ k.val + 1 < 10 := by decide +kernel
theorem off5_0 (k : Fin k0_t1_loop.trips) : (k0_off5 k) 0 = 640 * k.val + 640 := by rw [k0_off5_eq]; rfl
theorem off7_0 (k : Fin k0_t1_loop.trips) : (k0_off7 k) 0 = 640 * k.val + 768 := by rw [k0_off7_eq]; rfl
theorem off9_0 (k : Fin k0_t1_loop.trips) : (k0_off9 k) 0 = 640 * k.val + 896 := by rw [k0_off9_eq]; rfl
theorem off11_0 (k : Fin k0_t1_loop.trips) : (k0_off11 k) 0 = 640 * k.val + 1024 := by rw [k0_off11_eq]; rfl
theorem off13_0 (k : Fin k0_t1_loop.trips) : (k0_off13 k) 0 = 640 * k.val + 1152 := by rw [k0_off13_eq]; rfl

theorem wins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

/-- Chunk `5k + r` of the worker's slice of the result, as the task addresses it. -/
abbrev gChK (k : Fin k0_t1_loop.trips) (r : Nat) (hr : r < 5) : Memref sig .scVector .hbm S128x128 .f32 :=
  gCh (k0_off3 L k (BitVec.ofNat 32 r)) (k0_off3_inb L k ⟨r, hr⟩)

theorem pts_gChK (k : Fin k0_t1_loop.trips) (r : Nat) (hr : r < 5) (lo hi : Nat) (hlo : base L + 640 * k.val + 128 * r = lo) (hhi : lo + 128 = hi)
    (f : Buf (Elt F) (gLoc d)) :
    ((gChK L k r hr).view.loc (VT d L) ↦[(gChK L k r hr).view.set]{fullShare} f : sProp 𝕄) = gLoc d ↦[rowsSet lo hi]{fullShare} f := by
  have h0 := off3_0 L k r hr
  exact pts_gCh' d L _ _ (off3_1 L k r hr) lo hi (by omega) (by omega) f

/-- Chunk `5k + r` written with a copy of a row buffer that holds the rows gathered for it holds the result's rows. -/
theorem chunk_trip (hpre : PreOK Iv) (k : Fin k0_t1_loop.trips) (r : Nat) (hr : r < 5) (bV : Memref sig .scVector .vmem S128x128 .f32)
    (c : Buf (Elt F) (bV.view.loc (VT d L))) (hc : bV.view.read (Elt F) c = gPay m Iv d L hpre ![640 * (k.val % 10) + 128 * r] (winInb k.val r hr))
    (lo hi : Nat) (hlo : base L + 640 * k.val + 128 * r = lo) (hhi : lo + 128 = hi) (pay : S128x128.Idx → Elt F .f32)
    (hpay : pay = ReadAs.same.apply (bV.view.read (Elt F) c)) :
    ((gChK L k r hr).view.loc (VT d L) ↦[(gChK L k r hr).view.set]{fullShare}
        (gChK L k r hr).view.writes (Elt F) (m (gLoc d)) [⟨Rect.whole S128x128, pay⟩] : sProp 𝕄)
      = gLoc d ↦[rowsSet lo hi]{fullShare} Gv m Iv d := by
  have hb : base L = 6400 * (wL L).val := rfl
  have h0 := off3_0 L k r hr
  have hk := trips_le k
  exact chunk_value m Iv d L hpre bV c _ (winInb k.val r hr) hc (k0_off3 L k (BitVec.ofNat 32 r)) (k0_off3_inb L k ⟨r, hr⟩) (off3_1 L k r hr)
    (by show _ = 6400 * (wL L).val + (640 * (k.val % 10) + 128 * r); omega) lo hi (by omega) (by omega) _ pay hpay

abbrev winSet (k r : Nat) (hr : r < 5) : Finset S6400.Idx := (sWin ![640 * (k % 10) + 128 * r] (winInb k r hr)).view.set

theorem winSet_eq (k : Nat) (hk : k < 10) (r : Nat) (hr : r < 5) (lo hi : Nat) (h1 : 640 * k + 128 * r = lo) (h2 : lo + 128 = hi) :
    winSet k r hr = posSet lo hi := by
  subst h1 h2; unfold winSet; rw [set_sWin, Nat.mod_eq_of_lt hk]; rfl

/-- The five windows of trip `k` join the words of the index buffer before them. -/
theorem win_join (k : Nat) (hk : k < 10) (hi : Nat) (hhi : 640 * k + 640 = hi) (f : Buf (Elt F) (sLoc d L)) :
    (iprop((sLoc d L ↦[posSet 0 (640 * k)]{fullShare} f)
        ∗ (sLoc d L ↦[winSet k 0 (by decide)]{fullShare} f)
        ∗ (sLoc d L ↦[winSet k 1 (by decide)]{fullShare} f)
        ∗ (sLoc d L ↦[winSet k 2 (by decide)]{fullShare} f)
        ∗ (sLoc d L ↦[winSet k 3 (by decide)]{fullShare} f)
        ∗ (sLoc d L ↦[winSet k 4 (by decide)]{fullShare} f)) : sProp 𝕄)
      = (sLoc d L ↦[posSet 0 hi]{fullShare} f) :=
  band_join5' (posB d L) f (Nat.zero_le _) hhi (winSet_eq k hk 0 _ _ _ (by omega) (by omega)) (winSet_eq k hk 1 _ _ _ (by omega) (by omega)) (winSet_eq k hk 2 _ _ _ (by omega) (by omega)) (winSet_eq k hk 3 _ _ _ (by omega) (by omega)) (winSet_eq k hk 4 _ _ _ (by omega) (by omega))

/-- Before trip `k < 10`: chunks `5k … 5k + 4` are being gathered, earlier chunks' rows hold the gathered rows, later rows are as at the launch. -/
def invA (hpre : PreOK Iv) (O : CellTallies nD τ sig (HIx 1)) (W : Waits sig (HIx 1)) (k : Nat) : sProp 𝕄 :=
  iprop(Transfers.MayWaits (VT d L) (default : HIx 1) O
    ∗ gIn m Iv d L hpre bV1 k 0 (by decide)
    ∗ gIn m Iv d L hpre bV2 k 1 (by decide)
    ∗ gIn m Iv d L hpre bV3 k 2 (by decide)
    ∗ gIn m Iv d L hpre bV4 k 3 (by decide)
    ∗ gIn m Iv d L hpre bV5 k 4 (by decide)
    ∗ ((hV).view.loc (VT d L) ↦[Finset.univ \ (hSl).view.set]{Transfers.shareTokN (hq (wL L)) 0} m (hLoc d))
    ∗ ((hV).view.loc (VT d L) ↦[Finset.univ \ (hSl).view.set]{Transfers.shareTokN (hq (wL L)) 1} m (hLoc d))
    ∗ ((hV).view.loc (VT d L) ↦[Finset.univ \ (hSl).view.set]{Transfers.shareTokN (hq (wL L)) 2} m (hLoc d))
    ∗ ((hV).view.loc (VT d L) ↦[Finset.univ \ (hSl).view.set]{Transfers.shareTokN (hq (wL L)) 3} m (hLoc d))
    ∗ ((hV).view.loc (VT d L) ↦[Finset.univ \ (hSl).view.set]{Transfers.shareTokN (hq (wL L)) 4} m (hLoc d))
    ∗ (sLoc d L ↦[posSet 0 (640 * k)]{fullShare} fS Iv d L)
    ∗ (sLoc d L ↦[posSet (640 * k + 640) 6400]{fullShare} fS Iv d L)
    ∗ (gLoc d ↦[rowsSet (base L) (base L + 640 * k)]{fullShare} Gv m Iv d)
    ∗ (gLoc d ↦[rowsSet (base L + 640 * k) (base L + 6400)]{fullShare} m (gLoc d))
    ∗ semVal (VT d L, SemLoc.dma (csem 5)) 0 ∗ semVal (VT d L, SemLoc.dma (csem 6)) 0 ∗ semVal (VT d L, SemLoc.dma (csem 7)) 0
    ∗ semVal (VT d L, SemLoc.dma (csem 8)) 0 ∗ semVal (VT d L, SemLoc.dma (csem 9)) 0
    ∗ ∃ W', owes (VT d L) O W' ∗ ⌜∀ p ∈ W', p ∈ W ∨ p.2 = none⌝)

/-- After the last trip: chunks `45 … 49` are being copied out, everything else is back whole. -/
def invB (O : CellTallies nD τ sig (HIx 1)) (W : Waits sig (HIx 1)) : sProp 𝕄 :=
  iprop(Transfers.MayWaits (VT d L) (default : HIx 1) O
    ∗ (∃ c, cFl m Iv d L 5 (by decide) bV1 c (base L + 5760) (base L + 5888))
    ∗ (∃ c, cFl m Iv d L 6 (by decide) bV2 c (base L + 5888) (base L + 6016))
    ∗ (∃ c, cFl m Iv d L 7 (by decide) bV3 c (base L + 6016) (base L + 6144))
    ∗ (∃ c, cFl m Iv d L 8 (by decide) bV4 c (base L + 6144) (base L + 6272))
    ∗ (∃ c, cFl m Iv d L 9 (by decide) bV5 c (base L + 6272) (base L + 6400))
    ∗ ((hV).view.loc (VT d L) ↦{Transfers.shareTokN (hq (wL L)) 0} m (hLoc d))
    ∗ ((hV).view.loc (VT d L) ↦{Transfers.shareTokN (hq (wL L)) 1} m (hLoc d))
    ∗ ((hV).view.loc (VT d L) ↦{Transfers.shareTokN (hq (wL L)) 2} m (hLoc d))
    ∗ ((hV).view.loc (VT d L) ↦{Transfers.shareTokN (hq (wL L)) 3} m (hLoc d))
    ∗ ((hV).view.loc (VT d L) ↦{Transfers.shareTokN (hq (wL L)) 4} m (hLoc d))
    ∗ (sLoc d L ↦[posSet 0 6400]{fullShare} fS Iv d L)
    ∗ (gLoc d ↦[rowsSet (base L) (base L + 5760)]{fullShare} Gv m Iv d)
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0
    ∗ ∃ W', owes (VT d L) O W' ∗ ⌜∀ p ∈ W', p ∈ W ∨ p.2 = none⌝)

def inv (hpre : PreOK Iv) (O : CellTallies nD τ sig (HIx 1)) (W : Waits sig (HIx 1)) (k : Nat) (_ : Unit) : sProp 𝕄 :=
  if k < 10 then invA m Iv d L hpre O W k else invB m Iv d L O W

theorem trips_eq : k0_t1_loop.trips = 10 := by decide +kernel

theorem inv_zero (hpre : PreOK Iv) (O : CellTallies nD τ sig (HIx 1)) (W : Waits sig (HIx 1)) (u : Unit) :
    inv m Iv d L hpre O W 0 u = invA m Iv d L hpre O W 0 := by
  unfold inv; rw [if_pos (by decide)]
theorem inv_end (hpre : PreOK Iv) (O : CellTallies nD τ sig (HIx 1)) (W : Waits sig (HIx 1)) (u : Unit) :
    inv m Iv d L hpre O W k0_t1_loop.trips u = invB m Iv d L O W := by
  unfold inv; rw [if_neg (by rw [trips_eq]; decide)]

theorem pts_gSet (f : Buf (Elt F) (gLoc d)) :
    (gLoc d ↦[gSet (wL L)]{fullShare} f : sProp 𝕄) = gLoc d ↦[rowsSet (base L) (base L + 6400)]{fullShare} f := by
  rw [gSet_rows]

set_option maxHeartbeats 4000000 in
/-- One trip carries the invariant from `k` to `k + 1`. -/
theorem tile_trip (hpre : PreOK Iv) (O : CellTallies nD τ sig (HIx 1)) (W : Waits sig (HIx 1)) (v2 : BitVec 32)
    (k : Fin k0_t1_loop.trips) (u : Unit) :
    inv m Iv d L hpre O W k.val u
      ⊢ wp frame (wpE (defs₀ (F := F)) 𝒱₀ (VT d L) none) Set.univ
          (k0_t1_body L (Memref.whole main_arg1_scv) (Memref.isWhole_whole _) (Memref.whole main_v8_scv) (Memref.isWhole_whole _)
            (Memref.whole main_v9_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)
            cc0_scratch6 cc0_scratch7 cc0_scratch8 cc0_scratch9 cc0_scratch10 cc0_scratch11 cc0_scratch12 cc0_scratch13 cc0_scratch14 cc0_scratch15 cc0_scoped0 v2 k u)
          (inv m Iv d L hpre O W (k.val + 1)) := by
  have hk : k.val < 10 := trips_le k
  have hb : base L = 6400 * (wL L).val := rfl
  have hidx := fun g off hk hs => idx_inb Iv d L hpre g (PAYI Iv d L) rfl off hk hs
  unfold inv
  rw [if_pos hk]; unfold invA
  iintro ⟨#Hmw, ⟨%c1, HG0, %hc1⟩, ⟨%c2, HG1, %hc2⟩, ⟨%c3, HG2, %hc3⟩, ⟨%c4, HG3, %hc4⟩, ⟨%c5, HG4, %hc5⟩, HX0, HX1, HX2, HX3, HX4,
    HSd, HSt, HGd, HGt, Hc5, Hc6, Hc7, Hc8, Hc9, %W', HO, %hW'⟩
  ihave HGt' := (Entails.of_eq (band_split5 (rowsB d) (m (gLoc d)) (a := base L + 640 * k.val) (hi := base L + 6400) (a5 := base L + 640 * (k.val + 1))
    rfl rfl rfl rfl (by omega) (by omega))) $$ HGt
  icases HGt' with ⟨HC0, HC1, HC2, HC3, HC4, HGt⟩
  ihave HC0 := (Entails.of_eq (pts_gChK d L k 0 (by decide) _ _ (by omega) (by omega) (m (gLoc d))).symm) $$ HC0
  ihave HC1 := (Entails.of_eq (pts_gChK d L k 1 (by decide) _ _ (by omega) (by omega) (m (gLoc d))).symm) $$ HC1
  ihave HC2 := (Entails.of_eq (pts_gChK d L k 2 (by decide) _ _ (by omega) (by omega) (m (gLoc d))).symm) $$ HC2
  ihave HC3 := (Entails.of_eq (pts_gChK d L k 3 (by decide) _ _ (by omega) (by omega) (m (gLoc d))).symm) $$ HC3
  ihave HC4 := (Entails.of_eq (pts_gChK d L k 4 (by decide) _ _ (by omega) (by omega) (m (gLoc d))).symm) $$ HC4
  unfold k0_t1_body
  rw [k0_part1_eq_skeleton, k0_part2_eq_skeleton]; unfold k0_part1_skel k0_part2_skel
  by_cases hc : k.val + 1 < 10
  · have k0_h1 : k0_cond1 k = 1#1 := (cond1_iff k).mpr hc
    have k0_h2 : k0_cond2 k = 1#1 := (cond2_iff k).mpr hc
    have k0_h3 : k0_cond3 k = 1#1 := (cond3_iff k).mpr hc
    have k0_h4 : k0_cond4 k = 1#1 := (cond4_iff k).mpr hc
    have k0_h5 : k0_cond5 k = 1#1 := (cond5_iff k).mpr hc
    rw [if_pos hc]
    ihave HSt' := (Entails.of_eq (band_split5 (posB d L) (fS Iv d L) (a := 640 * k.val + 640) (hi := 6400) (a5 := 640 * (k.val + 1) + 640)
      rfl rfl rfl rfl (by omega) (by omega))) $$ HSt
    icases HSt' with ⟨HW0, HW1, HW2, HW3, HW4, HSt⟩
    ihave HW0 := (Entails.of_eq (pts_sWinK' d L (k0_off5 k) (k0_off5_inb k k0_h1) _ _ (by have := off5_0 k; omega) (by have := off5_0 k; omega) (fS Iv d L)).symm) $$ HW0
    ihave HW1 := (Entails.of_eq (pts_sWinK' d L (k0_off7 k) (k0_off7_inb k k0_h2) _ _ (by have := off7_0 k; omega) (by have := off7_0 k; omega) (fS Iv d L)).symm) $$ HW1
    ihave HW2 := (Entails.of_eq (pts_sWinK' d L (k0_off9 k) (k0_off9_inb k k0_h3) _ _ (by have := off9_0 k; omega) (by have := off9_0 k; omega) (fS Iv d L)).symm) $$ HW2
    ihave HW3 := (Entails.of_eq (pts_sWinK' d L (k0_off11 k) (k0_off11_inb k k0_h4) _ _ (by have := off11_0 k; omega) (by have := off11_0 k; omega) (fS Iv d L)).symm) $$ HW3
    ihave HW4 := (Entails.of_eq (pts_sWinK' d L (k0_off13 k) (k0_off13_inb k k0_h5) _ _ (by have := off13_0 k; omega) (by have := off13_0 k; omega) (fS Iv d L)).symm) $$ HW4
    sl_exec
    sl_step
    isplitr; · iexact Hmw
    isplitl [HG0]; · iapply (gIn_intro m Iv d L hpre bV1 c1 (k.val + 1) 0 _ _ (k0_off5_inb k k0_h1) (by have := off5_0 k; omega)); iexact HG0
    isplitl [HG1]; · iapply (gIn_intro m Iv d L hpre bV2 c2 (k.val + 1) 1 _ _ (k0_off7_inb k k0_h2) (by have := off7_0 k; omega)); iexact HG1
    isplitl [HG2]; · iapply (gIn_intro m Iv d L hpre bV3 c3 (k.val + 1) 2 _ _ (k0_off9_inb k k0_h3) (by have := off9_0 k; omega)); iexact HG2
    isplitl [HG3]; · iapply (gIn_intro m Iv d L hpre bV4 c4 (k.val + 1) 3 _ _ (k0_off11_inb k k0_h4) (by have := off11_0 k; omega)); iexact HG3
    isplitl [HG4]; · iapply (gIn_intro m Iv d L hpre bV5 c5 (k.val + 1) 4 _ _ (k0_off13_inb k k0_h5) (by have := off13_0 k; omega)); iexact HG4
    isplitl [HX0]; · iexact HX0
    isplitl [HX1]; · iexact HX1
    isplitl [HX2]; · iexact HX2
    isplitl [HX3]; · iexact HX3
    isplitl [HX4]; · iexact HX4
    isplitl [HSd HG0_dst_and HG1_dst_and HG2_dst_and HG3_dst_and HG4_dst_and]
    · iapply (Entails.of_eq (win_join d L k.val hk (640 * (k.val + 1)) (by omega) (fS Iv d L)))
      isplitl [HSd]; · iexact HSd
      isplitl [HG0_dst_and]; · iexact HG0_dst_and
      isplitl [HG1_dst_and]; · iexact HG1_dst_and
      isplitl [HG2_dst_and]; · iexact HG2_dst_and
      isplitl [HG3_dst_and]; · iexact HG3_dst_and
      iexact HG4_dst_and
    isplitl [HSt]; · iexact HSt
    isplitl [HGd HC0 HC1 HC2 HC3 HC4]
    · iapply (Entails.of_eq (band_join5 (rowsB d) (Gv m Iv d) (b := base L) (a := base L + 640 * k.val) (a5 := base L + 640 * (k.val + 1))
        (by omega) rfl rfl rfl rfl (by omega)))
      isplitl [HGd]; · iexact HGd
      isplitl [HC0]; · iapply (Entails.of_eq (chunk_trip m Iv d L hpre k 0 (by decide) bV1 c1 hc1 _ _ (by omega) (by omega) _ rfl)); iexact HC0
      isplitl [HC1]; · iapply (Entails.of_eq (chunk_trip m Iv d L hpre k 1 (by decide) bV2 c2 hc2 _ _ (by omega) (by omega) _ rfl)); iexact HC1
      isplitl [HC2]; · iapply (Entails.of_eq (chunk_trip m Iv d L hpre k 2 (by decide) bV3 c3 hc3 _ _ (by omega) (by omega) _ rfl)); iexact HC2
      isplitl [HC3]; · iapply (Entails.of_eq (chunk_trip m Iv d L hpre k 3 (by decide) bV4 c4 hc4 _ _ (by omega) (by omega) _ rfl)); iexact HC3
      iapply (Entails.of_eq (chunk_trip m Iv d L hpre k 4 (by decide) bV5 c5 hc5 _ _ (by omega) (by omega) _ rfl)); iexact HC4
    isplitl [HGt]; · iexact HGt
    isplitl [Hc5]; · iexact Hc5
    isplitl [Hc6]; · iexact Hc6
    isplitl [Hc7]; · iexact Hc7
    isplitl [Hc8]; · iexact Hc8
    isplitl [Hc9]; · iexact Hc9
    iexists _
    isplitl [HO]; · iexact HO
    ipureintro
    exact wins (wins (wins (wins (wins (wins (wins (wins (wins (wins hW' _) _) _) _) _) _) _) _) _) _
  · have k0_h1 : ¬ k0_cond1 k = 1#1 := fun h => hc ((cond1_iff k).mp h)
    have k0_h2 : ¬ k0_cond2 k = 1#1 := fun h => hc ((cond2_iff k).mp h)
    have k0_h3 : ¬ k0_cond3 k = 1#1 := fun h => hc ((cond3_iff k).mp h)
    have k0_h4 : ¬ k0_cond4 k = 1#1 := fun h => hc ((cond4_iff k).mp h)
    have k0_h5 : ¬ k0_cond5 k = 1#1 := fun h => hc ((cond5_iff k).mp h)
    have hk9 : k.val = 9 := by omega
    rw [if_neg hc]; unfold invB
    sl_exec
    sl_step
    isplitr; · iexact Hmw
    isplitl [Hc5]
    · iexists _
      iapply (Transfers.Flight_mono countersEmb (VT d L) (sep_mono_left (Entails.of_eq
        (chunk_trip m Iv d L hpre k 0 (by decide) bV1 c1 hc1 _ _ (by omega) (by omega) _ rfl))))
      iexact Hc5
    isplitl [Hc6]
    · iexists _
      iapply (Transfers.Flight_mono countersEmb (VT d L) (sep_mono_left (Entails.of_eq
        (chunk_trip m Iv d L hpre k 1 (by decide) bV2 c2 hc2 _ _ (by omega) (by omega) _ rfl))))
      iexact Hc6
    isplitl [Hc7]
    · iexists _
      iapply (Transfers.Flight_mono countersEmb (VT d L) (sep_mono_left (Entails.of_eq
        (chunk_trip m Iv d L hpre k 2 (by decide) bV3 c3 hc3 _ _ (by omega) (by omega) _ rfl))))
      iexact Hc7
    isplitl [Hc8]
    · iexists _
      iapply (Transfers.Flight_mono countersEmb (VT d L) (sep_mono_left (Entails.of_eq
        (chunk_trip m Iv d L hpre k 3 (by decide) bV4 c4 hc4 _ _ (by omega) (by omega) _ rfl))))
      iexact Hc8
    isplitl [Hc9]
    · iexists _
      iapply (Transfers.Flight_mono countersEmb (VT d L) (sep_mono_left (Entails.of_eq
        (chunk_trip m Iv d L hpre k 4 (by decide) bV5 c5 hc5 _ _ (by omega) (by omega) _ rfl))))
      iexact Hc9
    isplitl [HX0]; · iexact HX0
    isplitl [HX1]; · iexact HX1
    isplitl [HX2]; · iexact HX2
    isplitl [HX3]; · iexact HX3
    isplitl [HX4]; · iexact HX4
    isplitl [HSd HG0_dst_and HG1_dst_and HG2_dst_and HG3_dst_and HG4_dst_and]
    · iapply (Entails.of_eq (win_join d L k.val hk 6400 (by omega) (fS Iv d L)))
      isplitl [HSd]; · iexact HSd
      isplitl [HG0_dst_and]; · iexact HG0_dst_and
      isplitl [HG1_dst_and]; · iexact HG1_dst_and
      isplitl [HG2_dst_and]; · iexact HG2_dst_and
      isplitl [HG3_dst_and]; · iexact HG3_dst_and
      iexact HG4_dst_and
    isplitl [HGd]
    · iapply (Entails.of_eq (rows_congr d (Gv m Iv d) (lo := base L) (hi := base L + 640 * k.val) (lo' := base L) (hi' := base L + 5760) rfl (by omega)))
      iexact HGd
    isplitl [HG0]; · iexact HG0
    isplitl [HG1]; · iexact HG1
    isplitl [HG2]; · iexact HG2
    isplitl [HG3]; · iexact HG3
    isplitl [HG4]; · iexact HG4
    iexists _
    isplitl [HO]; · iexact HO
    ipureintro
    exact wins (wins (wins (wins (wins hW' _) _) _) _) _

end Tile

set_option maxHeartbeats 4000000 in
/-- The worker's task leaves its rows of the result holding the rows of `h` its index words name, and hands everything else back. -/
theorem tile_body (hF : (K (F := F)).Facts) (hpre : PreOK Iv) (d : Dev nD) (L : grid0.Coords)
    (O : CellTallies nD τ sig (HIx 1)) (W : Waits sig (HIx 1)) (hO : ∀ g, O g none = 0) :
    iprop(levAts (K (F := F)).L (K (F := F)).lev ∗ emp ∗ goW m Iv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_rows L (Memref.whole main_arg1_scv) (Memref.isWhole_whole _) (Memref.whole main_v8_scv) (Memref.isWhole_whole _)
            (Memref.whole main_v9_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tdW m Iv d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Hg⟩, ⟨⟨⟨%s0, HS⟩, ⟨%t1, HB1⟩, ⟨%t2, HB2⟩, ⟨%t3, HB3⟩, ⟨%t4, HB4⟩, ⟨%t5, HB5⟩⟩, Hbufs⟩,
    ⟨⟨Hc0, Hc1, Hc2, Hc3, Hc4, Hc5, Hc6, Hc7, Hc8, Hc9, Hc10⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HI := (Entails.of_eq (pts_iRowK (F := F) d L _).symm) $$ Hi
  ihave HS := (Entails.of_eq (pts_scr (F := F) d L cc0_scratch0 _).symm) $$ HS
  ihave HB1 := (Entails.of_eq (pts_scr (F := F) d L cc0_scratch1 _).symm) $$ HB1
  ihave HB2 := (Entails.of_eq (pts_scr (F := F) d L cc0_scratch2 _).symm) $$ HB2
  ihave HB3 := (Entails.of_eq (pts_scr (F := F) d L cc0_scratch3 _).symm) $$ HB3
  ihave HB4 := (Entails.of_eq (pts_scr (F := F) d L cc0_scratch4 _).symm) $$ HB4
  ihave HB5 := (Entails.of_eq (pts_scr (F := F) d L cc0_scratch5 _).symm) $$ HB5
  ihave Hx' := (hToks d (hq (wL L)) (m (hLoc d))).1 $$ Hx
  icases Hx' with ⟨Hxr, HX0, HX1, HX2, HX3, HX4⟩
  ihave HX0 := (Entails.of_eq (pts_hV (F := F) d L _ _).symm) $$ HX0
  ihave HX1 := (Entails.of_eq (pts_hV (F := F) d L _ _).symm) $$ HX1
  ihave HX2 := (Entails.of_eq (pts_hV (F := F) d L _ _).symm) $$ HX2
  ihave HX3 := (Entails.of_eq (pts_hV (F := F) d L _ _).symm) $$ HX3
  ihave HX4 := (Entails.of_eq (pts_hV (F := F) d L _ _).symm) $$ HX4
  ihave Hg := (Entails.of_eq (pts_gSet (F := F) d L _)) $$ Hg
  rw [cc0_gather_rows_eq_skeleton]; unfold cc0_gather_rows_skel
  rw [k0_part3_eq_skeleton]; unfold k0_part3_skel
  sl_exec
  unfold tile_body.sl.dma0
  have hidx := fun g off hk hs => idx_inb Iv d L hpre g (PAYI Iv d L) rfl off hk hs
  ihave HS := (Entails.of_eq (pts_sV_pos d L (fS Iv d L))) $$ HS
  ihave HS' := (Entails.of_eq (band_split5 (posB d L) (fS Iv d L) (a := 0) (hi := 6400) (a1 := 128) (a2 := 256) (a3 := 384) (a4 := 512) (a5 := 640)
    rfl rfl rfl rfl rfl (by omega))) $$ HS
  icases HS' with ⟨HW0, HW1, HW2, HW3, HW4, HSt⟩
  ihave HW0 := (Entails.of_eq (pts_sWinK' d L ![0] inb_S6400_S128_0 0 128 rfl rfl (fS Iv d L)).symm) $$ HW0
  ihave HW1 := (Entails.of_eq (pts_sWinK' d L ![128] inb_S6400_S128_128 128 256 rfl rfl (fS Iv d L)).symm) $$ HW1
  ihave HW2 := (Entails.of_eq (pts_sWinK' d L ![256] inb_S6400_S128_256 256 384 rfl rfl (fS Iv d L)).symm) $$ HW2
  ihave HW3 := (Entails.of_eq (pts_sWinK' d L ![384] inb_S6400_S128_384 384 512 rfl rfl (fS Iv d L)).symm) $$ HW3
  ihave HW4 := (Entails.of_eq (pts_sWinK' d L ![512] inb_S6400_S128_512 512 640 rfl rfl (fS Iv d L)).symm) $$ HW4
  sl_exec
  sl_rw [Prog.bind_assoc]
  sl_for (inv m Iv d L hpre O W) $$ [Hmw Hc0 Hc1 Hc2 Hc3 Hc4 HX0 HX1 HX2 HX3 HX4 HSt Hg Hc5 Hc6 Hc7 Hc8 Hc9 HO]
  case region =>
    intro k u
    exact tile_trip m Iv d L hpre O W _ k u
  · iapply (Entails.of_eq (inv_zero m Iv d L hpre O W _).symm)
    unfold invA
    isplitl [Hmw]; · iexact Hmw
    isplitl [Hc0]; · iapply (gIn_intro m Iv d L hpre _ _ 0 0 _ ![0] inb_S6400_S128_0 rfl); iexact Hc0
    isplitl [Hc1]; · iapply (gIn_intro m Iv d L hpre _ _ 0 1 _ ![128] inb_S6400_S128_128 rfl); iexact Hc1
    isplitl [Hc2]; · iapply (gIn_intro m Iv d L hpre _ _ 0 2 _ ![256] inb_S6400_S128_256 rfl); iexact Hc2
    isplitl [Hc3]; · iapply (gIn_intro m Iv d L hpre _ _ 0 3 _ ![384] inb_S6400_S128_384 rfl); iexact Hc3
    isplitl [Hc4]; · iapply (gIn_intro m Iv d L hpre _ _ 0 4 _ ![512] inb_S6400_S128_512 rfl); iexact Hc4
    isplitl [HX0]; · iexact HX0
    isplitl [HX1]; · iexact HX1
    isplitl [HX2]; · iexact HX2
    isplitl [HX3]; · iexact HX3
    isplitl [HX4]; · iexact HX4
    isplitr
    · iapply (Entails.of_eq (band_empty (posB d L) (fS Iv d L) (a := 0) (b := 640 * 0) (by omega)).symm); iempintro
    isplitl [HSt]; · iexact HSt
    isplitr
    · iapply (Entails.of_eq (band_empty (rowsB d) (Gv m Iv d) (a := base L) (b := base L + 640 * 0) (by omega)).symm); iempintro
    isplitl [Hg]
    · iapply (Entails.of_eq (rows_congr d (m (gLoc d)) (lo := base L) (hi := base L + 6400) (lo' := base L + 640 * 0) (hi' := base L + 6400) (by omega) rfl))
      iexact Hg
    isplitl [Hc5]; · iexact Hc5
    isplitl [Hc6]; · iexact Hc6
    isplitl [Hc7]; · iexact Hc7
    isplitl [Hc8]; · iexact Hc8
    isplitl [Hc9]; · iexact Hc9
    iexists _
    isplitl [HO]; · iexact HO
    ipureintro
    exact wins (fun p hp => .inl hp) _
  iintro %u HI'
  ihave HI' := (Entails.of_eq (inv_end m Iv d L hpre O W u)) $$ HI'
  unfold invB
  icases HI' with ⟨-, ⟨%c1, HF5⟩, ⟨%c2, HF6⟩, ⟨%c3, HF7⟩, ⟨%c4, HF8⟩, ⟨%c5, HF9⟩, HX0, HX1, HX2, HX3, HX4, HS, HGd,
    Hc0, Hc1, Hc2, Hc3, Hc4, %W', HO, %hW'⟩
  sl_exec
  sl_step
  unfold tdW
  isplitl [HI Hxr HX0 HX1 HX2 HX3 HX4 HGd HF5_dst HF6_dst HF7_dst HF8_dst HF9_dst]
  · isplitl [HI]; · iapply (Entails.of_eq (pts_iRowK (F := F) d L _)); iexact HI
    isplitl [Hxr HX0 HX1 HX2 HX3 HX4]
    · iapply (hToks d (hq (wL L)) (m (hLoc d))).2
      isplitl [Hxr]; · iexact Hxr
      isplitl [HX0]; · iexact HX0
      isplitl [HX1]; · iexact HX1
      isplitl [HX2]; · iexact HX2
      isplitl [HX3]; · iexact HX3
      iexact HX4
    · iapply (Entails.of_eq (pts_gSet (F := F) d L _).symm)
      iapply (Entails.of_eq (band_join5 (rowsB d) (Gv m Iv d) (b := base L) (a := base L + 5760) (a1 := base L + 5888) (a2 := base L + 6016) (a3 := base L + 6144)
        (a4 := base L + 6272) (a5 := base L + 6400) (by omega) (by omega) (by omega) (by omega) (by omega) (by omega)))
      isplitl [HGd]; · iexact HGd
      isplitl [HF5_dst]; · iexact HF5_dst
      isplitl [HF6_dst]; · iexact HF6_dst
      isplitl [HF7_dst]; · iexact HF7_dst
      isplitl [HF8_dst]; · iexact HF8_dst
      iexact HF9_dst
  isplitl [HS HF5_src HF6_src HF7_src HF8_src HF9_src Hbufs]
  · isplitl [HS HF5_src HF6_src HF7_src HF8_src HF9_src]
    · isplitl [HS]
      · iexists _; iapply (Entails.of_eq (pts_scr (F := F) d L cc0_scratch0 _)); iapply (Entails.of_eq (pts_sV_pos d L _).symm); iexact HS
      isplitl [HF5_src]; · iexists _; iapply (Entails.of_eq (pts_scr (F := F) d L cc0_scratch1 _)); iexact HF5_src
      isplitl [HF6_src]; · iexists _; iapply (Entails.of_eq (pts_scr (F := F) d L cc0_scratch2 _)); iexact HF6_src
      isplitl [HF7_src]; · iexists _; iapply (Entails.of_eq (pts_scr (F := F) d L cc0_scratch3 _)); iexact HF7_src
      isplitl [HF8_src]; · iexists _; iapply (Entails.of_eq (pts_scr (F := F) d L cc0_scratch4 _)); iexact HF8_src
      iexists _; iapply (Entails.of_eq (pts_scr (F := F) d L cc0_scratch5 _)); iexact HF9_src
    · iexact Hbufs
  isplitl [Hc0 Hc1 Hc2 Hc3 Hc4 HF5 HF6 HF7 HF8 HF9 Hc10 Hsems]
  · isplitl [Hc0 Hc1 Hc2 Hc3 Hc4 HF5 HF6 HF7 HF8 HF9 Hc10]
    · isplitl [Hc0]; · iexact Hc0
      isplitl [Hc1]; · iexact Hc1
      isplitl [Hc2]; · iexact Hc2
      isplitl [Hc3]; · iexact Hc3
      isplitl [Hc4]; · iexact Hc4
      isplitl [HF5]; · iexact HF5
      isplitl [HF6]; · iexact HF6
      isplitl [HF7]; · iexact HF7
      isplitl [HF8]; · iexact HF8
      isplitl [HF9]; · iexact HF9
      iexact Hc10
    · iexact Hsems
  iexists _
  isplitr [HO]
  rotate_left
  · iexact HO
  · ipureintro
    exact wins (wins (wins (wins (wins hW' _) _) _) _) _

end Cert.Proof.KI

end
-- ==== Proof.TileObl.lean ====
import proofs.«211965_g16441134809400_cont_sun_m_142_16_alg».proof.Proof.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
-- The worker's post-condition, weakened to the form the launch asks for.
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (Laws.pure_mono fun h p hp => (h p hp).imp_right Or.inl))))

-- A vector subcore's task is the gather kernel at the subcore's coordinates.
theorem tileObl (hF : (K (F := F)).Facts) (hpre : PreOK Iv) : (K (F := F)).TileObl (D (F := F)) 𝒱 (P m Iv) v₀ 0 := by
  intro d c i O W hO _ _
  simp only [show (P m Iv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀]; simp only [SparseCore.onTile, hci, and_self, ↓reduceDIte]
  exact (tile_body m Iv hF hpre d (coordsV ⟨_, hci.1⟩ ⟨_, hci.2⟩) O W hO).trans (wp_mono frame _ _ fun _ => obl_post)

end Cert.Proof.KI

end
-- ==== Proof.Run.lean ====
import proofs.«211965_g16441134809400_cont_sun_m_142_16_alg».proof.Proof.Main
import proofs.«211965_g16441134809400_cont_sun_m_142_16_alg».proof.Proof.TileObl

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ) (ρ : Dev nD → PrngReg)

def QC : PUnit × MemSt nD τ sig (Elt F) → Prop := fun r => ∀ c : Dev nD, ∀ b ∈ Pipeline.ucRefs τ sig, r.2.mem (c, b) = W4 m c b

-- Every weakly fair execution of the thirty-five threads ends, the TensorCore's buffers at the contents @main leaves.
theorem run_main [∀ e, Nonempty (Elt F e)] (hpre : PreOK (IvOf m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (IvOf m)) facts v₀
    (fun q hq => match q with | 0 => nomatch hq)
    (fun q _ => match q with | 0 => tileObl m (IvOf m) facts hpre)
    (fun q _ => match q with | 0 => SparseCore.Cfg.VecSplit.of_plain (vecSplit m (IvOf m)))
    m ρ main (fun d => GD (F := F) d) (FIN m) (u₀ (F := F)) (sep_elim_left.trans (hu₀ m (IvOf m))) (hmain m ρ) _
    (fun d s' => (pointsTo_read_all (Pipeline.ucRefs τ sig) (fun b => (d, b)) (W4 m d) s').trans sep_elim_left) (QC m) (fun _ h => h)

end Cert.Proof.KI

end
-- ==== Proof.HostValue.lean ====
import proofs.«211965_g16441134809400_cont_sun_m_142_16_alg».proof.Proof.HostOps
import Idealize.ShloMosaic.Lib.Pipeline.Value
import Idealize.ShloMosaic.Lib.ValueIdx
import Idealize.ShloMosaic.Lib.StableHlo.Predicate

noncomputable section

namespace Cert.Proof.KI

open Cert.KernelIdeal Cert.KernelIdeal.Gen
open Idealize.ShloMosaic

variable {F : FTy → Type} [FloatOps F]

def padProd : IVec S4800 32 :=
  muli (iotaInDim S4800 32 0) (broadcastInDim S4800 ![] bcast_S_S4800 (constantI S_ 32 17#32))
def padDiv : IVec S_ 32 :=
  select (cmpi .eq (constantI S_ 32 100000#32) (constantI S_ 32 0#32)) (constantI S_ 32 1#32) (constantI S_ 32 100000#32)
def padRem : IVec S4800 32 := Host.remsi padProd (broadcastInDim S4800 ![] bcast_S_S4800 padDiv)
def padWords : IVec S4800 32 :=
  select
    (andi
      (cmpi .ne (cmpi .slt padRem (broadcastInDim S4800 ![] bcast_S_S4800 (constantI S_ 32 0#32)))
        (broadcastInDim S4800 ![] bcast_S_S4800 (cmpi .slt padDiv (constantI S_ 32 0#32))))
      (cmpi .ne padRem (broadcastInDim S4800 ![] bcast_S_S4800 (constantI S_ 32 0#32))))
    (addi padRem (broadcastInDim S4800 ![] bcast_S_S4800 padDiv))
    padRem

-- The index list: column 0 of child_idx, column 1, the pad words.
def idxOf (ci : IVec S100000x2 32) : IVec S204800 32 :=
  concatenate S204800 0
    [⟨S100000, shapeCast S100000 (extractStridedSlice S100000x1 ![0, 0] ci slices_S100000x2_S100000x1_0_0) shapeCasts_S100000x1_S100000⟩,
     ⟨S100000, shapeCast S100000 (extractStridedSlice S100000x1 ![0, 1] ci slices_S100000x2_S100000x1_0_1) shapeCasts_S100000x1_S100000⟩,
     ⟨S4800, padWords⟩]
    concatenates_S100000_S100000_S4800_S204800_d0

open Idealize.ShloMosaic.ValueIdx Idealize.ShloMosaic.StableHlo.Predicate

theorem padDiv_apply (j : S_.Idx) : padDiv j = 100000#32 := rfl

-- A pad word's product is at most 4799 * 17 = 81583: it neither wraps nor reaches the divisor, and the sign correction leaves it.
theorem padProd_toNat (n : Fin 4800) : (padProd (ix1 n)).toNat = n.val * 17 := by
  show (IntOp.muli (BitVec.ofNat 32 n.val) 17#32).toNat = _
  simp only [IntOp.muli, BitVec.toNat_mul, BitVec.toNat_ofNat]
  omega

theorem padRem_toNat (n : Fin 4800) : (padRem (ix1 n)).toNat = n.val * 17 := by
  show (IntOp.remsi .host (padProd (ix1 n)) (padDiv _)).toNat = _
  rw [padDiv_apply, show (100000#32 : BitVec 32) = BitVec.ofNat 32 100000 from rfl,
    IntOp.toNat_remsi .host (by rw [padProd_toNat]; omega) 100000 (by omega) (by omega), padProd_toNat]
  omega

theorem padWords_lt (n : Fin 4800) : (padWords (ix1 n)).toNat < 100000 := by
  have hr := padRem_toNat n
  have h8 : IntOp.cmpi .slt (padRem (ix1 n)) 0#32 = 0#1 :=
    eq_zero_of_ne_one (by rw [slt_iff_toNat (by omega) (by decide)]; exact Nat.not_lt_zero _)
  have e : padWords (ix1 n) = padRem (ix1 n) := by
    simp only [padWords, select, andi, cmpi, addi, broadcastInDim, constantI, padDiv_apply]
    rw [h8, show IntOp.cmpi .slt (100000#32) 0#32 = 0#1 from by decide,
      show IntOp.cmpi .ne (0#1) (0#1) = 0#1 from by decide,
      show ∀ c : BitVec 1, IntOp.andi 0#1 c = 0#1 from by decide]
    exact select_zero _ _
  rw [e, hr]; omega

-- Column c of child_idx, flattened, read at n.
theorem col_apply (ci : IVec S100000x2 32) (c : Fin 2) (hs : S100000x2.Slices ![0, c.val] S100000x1) (n : Fin 100000) :
    shapeCast S100000 (extractStridedSlice S100000x1 ![0, c.val] ci hs) shapeCasts_S100000x1_S100000 (ix1 n) = ci (ix2 n c) :=
  (shapeCast_apply _ _ (ix1 n) (ix2 n (0 : Fin 1)) (by rw [Shape.rowMajor_val_two, Shape.rowMajor_val_one]; show n.val * 1 + 0 = n.val; omega)).trans
    (extractStridedSlice_apply _ _ _ _ (ix2 n c) fun a => by fin_cases a; exacts [(Nat.zero_add _).symm, rfl])

theorem idxOf_lo (ci : IVec S100000x2 32) (r : S204800.Idx) (n : Fin 100000) (h : 0 + n.val = (r 0).val) : idxOf ci r = ci (ix2 n 0) := by
  unfold idxOf
  exact (concatenate_apply_piece 0 _ _ r 0 (by show _ < 3; omega) S100000 _ rfl rfl 0 rfl (ix1 n) (fun _ h' => absurd (Subsingleton.elim _ _) h') (by exact h)).trans (col_apply ci 0 _ n)
theorem idxOf_mid (ci : IVec S100000x2 32) (r : S204800.Idx) (n : Fin 100000) (h : 100000 + n.val = (r 0).val) : idxOf ci r = ci (ix2 n 1) := by
  unfold idxOf
  exact (concatenate_apply_piece 0 _ _ r 1 (by show _ < 3; omega) S100000 _ rfl rfl 100000 rfl (ix1 n) (fun _ h' => absurd (Subsingleton.elim _ _) h') (by exact h)).trans (col_apply ci 1 _ n)
theorem idxOf_hi (ci : IVec S100000x2 32) (r : S204800.Idx) (n : Fin 4800) (h : 200000 + n.val = (r 0).val) : idxOf ci r = padWords (ix1 n) := by
  unfold idxOf
  exact concatenate_apply_piece 0 _ _ r 2 (by show _ < 3; omega) S4800 _ rfl rfl 200000 rfl (ix1 n) (fun _ h' => absurd (Subsingleton.elim _ _) h') (by exact h)

theorem idxOf_col0 (ci : IVec S100000x2 32) (n : Fin 100000) :
    idxOf ci (ix1 ⟨n.val, by omega⟩) = ci (ix2 n 0) :=
  idxOf_lo ci _ n (Nat.zero_add _)

theorem idxOf_col1 (ci : IVec S100000x2 32) (n : Fin 100000) :
    idxOf ci (ix1 ⟨100000 + n.val, by omega⟩) = ci (ix2 n 1) :=
  idxOf_mid ci _ n rfl

theorem idxOf_lt (ci : IVec S100000x2 32) (h : ∀ j, (ci j).toNat < 100000) : ∀ r, (idxOf ci r).toNat < 100000 := by
  intro r
  have hr : (r 0).val < 204800 := (r 0).isLt
  by_cases h1 : (r 0).val < 100000
  · rw [idxOf_lo ci r ⟨_, h1⟩ (Nat.zero_add _)]; exact h _
  · by_cases h2 : (r 0).val < 200000
    · rw [idxOf_mid ci r ⟨(r 0).val - 100000, by omega⟩ (by show 100000 + ((r 0).val - 100000) = _; omega)]; exact h _
    · rw [idxOf_hi ci r ⟨(r 0).val - 200000, by omega⟩ (by show 200000 + ((r 0).val - 200000) = _; omega)]; exact padWords_lt _

open Idealize.ShloMosaic.StableHlo

-- The first twenty-six operations leave the pad words in the call's result buffer and child_idx as it was; the last five lay its two columns and that buffer end to end.
theorem after_v8 (V : Valuation τ sig (Elt F)) :
    StableHlo.after opsA V (Proc.devRef .tc main_v8) = idxOf (V (Proc.devRef .tc main_arg2)) := by
  have e3 : after (opsA.take 26) V (Proc.devRef .tc main_v3) = padWords := by
    simp only [List.take]; after_results_simp; rfl
  have e2 : after (opsA.take 26) V (Proc.devRef .tc main_arg2) = V (Proc.devRef .tc main_arg2) := by
    simp only [List.take]; after_results_simp
  rw [← List.take_append_drop 26 opsA, after_append]
  simp only [List.drop, after_cons, after_nil]
  rw [nary_result]
  dsimp only [Matrix.cons_val]
  repeat (first
    | rw [reshape_result] | rw [unary_result]
    | (rw [reshape_result_ne]; rotate_left; decide)
    | (rw [unary_result_ne]; rotate_left; decide))
  rw [e3, e2]
  rfl

theorem after_v10 (V : Valuation τ sig (Elt F)) :
    StableHlo.after opsB V (Proc.devRef .tc main_v10)
      = fun i : S256x128.Idx => (V (Proc.devRef .tc main_arg3) : FVec F S384x128 .f32) (ix2 ⟨128 + (i 0).val, by have h : (i 0).val < 256 := (i 0).isLt; omega⟩ (i 1)) := by
  funext i
  after_results
  exact extractStridedSlice_apply _ _ _ i _ fun a => by fin_cases a <;> first | rfl | exact (Nat.zero_add _).symm

theorem after_v11 (V : Valuation τ sig (Elt F)) :
    StableHlo.after opsB V (Proc.devRef .tc main_v11)
      = fun i : S256x128.Idx => (V (Proc.devRef .tc main_arg4) : FVec F S384x256 .f32) (ix2 ⟨128 + (i 0).val, by have h : (i 0).val < 256 := (i 0).isLt; omega⟩ ⟨(i 1).val, by have h : (i 1).val < 128 := (i 1).isLt; omega⟩) := by
  funext i
  after_results
  exact extractStridedSlice_apply _ _ _ i _ fun a => by fin_cases a <;> first | rfl | exact (Nat.zero_add _).symm

theorem after_v12 (V : Valuation τ sig (Elt F)) :
    StableHlo.after opsB V (Proc.devRef .tc main_v12)
      = fun i : S256x128.Idx => (V (Proc.devRef .tc main_arg4) : FVec F S384x256 .f32) (ix2 ⟨128 + (i 0).val, by have h : (i 0).val < 256 := (i 0).isLt; omega⟩ ⟨128 + (i 1).val, by have h : (i 1).val < 128 := (i 1).isLt; omega⟩) := by
  funext i
  after_results
  exact extractStridedSlice_apply _ _ _ i _ fun a => by fin_cases a <;> first | rfl | exact (Nat.zero_add _).symm

theorem after_v13 (V : Valuation τ sig (Elt F)) :
    StableHlo.after opsB V (Proc.devRef .tc main_v13)
      = fun i : S1x256.Idx => (V (Proc.devRef .tc main_arg5) : FVec F S1x384 .f32) (ix2 (i 0) ⟨128 + (i 1).val, by have h : (i 1).val < 256 := (i 1).isLt; omega⟩) := by
  funext i
  after_results
  exact extractStridedSlice_apply _ _ _ i _ fun a => by fin_cases a <;> first | rfl | exact (Nat.zero_add _).symm

theorem after_v14 (V : Valuation τ sig (Elt F)) :
    StableHlo.after opsB V (Proc.devRef .tc main_v14)
      = fun i : S128x128.Idx => (V (Proc.devRef .tc main_arg6) : FVec F S128x256 .f32) (ix2 (i 0) ⟨(i 1).val, by have h : (i 1).val < 128 := (i 1).isLt; omega⟩) := by
  funext i
  after_results
  exact extractStridedSlice_apply _ _ _ i _ fun a => by fin_cases a <;> first | rfl | exact (Nat.zero_add _).symm

theorem after_v15 (V : Valuation τ sig (Elt F)) :
    StableHlo.after opsB V (Proc.devRef .tc main_v15)
      = fun i : S128x128.Idx => (V (Proc.devRef .tc main_arg6) : FVec F S128x256 .f32) (ix2 (i 0) ⟨128 + (i 1).val, by have h : (i 1).val < 128 := (i 1).isLt; omega⟩) := by
  funext i
  after_results
  exact extractStridedSlice_apply _ _ _ i _ fun a => by fin_cases a <;> first | rfl | exact (Nat.zero_add _).symm

end Cert.Proof.KI

end
-- ==== Proof.PreRange.lean ====
import proofs.«211965_g16441134809400_cont_sun_m_142_16_alg».proof.Pre_input_domain
import Idealize.ShloMosaic.Lib.ReduceAll
import Idealize.ShloMosaic.Lib.ValueIdx
import Idealize.ShloMosaic.Lib.StableHlo.Predicate

namespace Cert.Proof.KI

open Idealize.ShloMosaic Idealize.ShloMosaic.StableHlo.Predicate

instance : Subsingleton Cert.Pre_input_domain.S_.Idx := ⟨fun _ _ => funext fun d => d.elim0⟩

variable {F : FTy → Type} [FloatOps F] [Cert.Pre_input_domain.Facts]

-- An `and`-reduction that came out 1 met a 1 at every index; a word signed-at-least 0 and signed-at-most 99999 is below 100000.
theorem ok_of_pre (a0 a1 : FVec F Cert.Pre_input_domain.S100000x128 .f32) (a2 : IVec Cert.Pre_input_domain.S100000x2 32)
    (a3 : FVec F Cert.Pre_input_domain.S384x128 .f32) (a4 : FVec F Cert.Pre_input_domain.S384x256 .f32)
    (a5 : FVec F Cert.Pre_input_domain.S1x384 .f32) (a6 : FVec F Cert.Pre_input_domain.S128x256 .f32)
    (h : Cert.Pre_input_domain.fn (F := F) a0 a1 a2 a3 a4 a5 a6 = fun _ => 1#1) : ∀ j, (a2 j).toNat < 100000 := by
  intro j
  have e := congrFun h ValueIdx.ix0
  dsimp only [Cert.Pre_input_domain.fn, Cert.Pre_input_domain.fn_part1, Cert.Pre_input_domain.fn_part2] at e
  have e3 : IntOp.andi (IntOp.cmpi .sge (a2 j) 0#32) (IntOp.cmpi .sle (a2 j) 99999#32) = 1#1 :=
    Host.reduce_andi_all _ _ _ _ _ (IntOp.andi_eq_one.1 e).2 j
  simp only [IntOp.andi_eq_one, IntOp.cmpi, ofBool_eq_one_iff, BitVec.sle_eq_decide, decide_eq_true_eq,
    BitVec.toInt_eq_toNat_cond, BitVec.toNat_ofNat, Nat.reducePow, Nat.reduceMod] at e3
  omega

end Cert.Proof.KI
-- ==== Proof.Reads.lean ====
import proofs.«211965_g16441134809400_cont_sun_m_142_16_alg».proof.Proof.Run
import proofs.«211965_g16441134809400_cont_sun_m_142_16_alg».proof.Proof.HostValue
import proofs.«211965_g16441134809400_cont_sun_m_142_16_alg».proof.Proof.PreRange

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ)

-- A buffer that no host stretch and neither kernel writes holds at every boundary what it held at launch.
theorem W2_keep (d : Dev nD) (a : Ref sig .tc) (hA : a ∉ wrA) (hg : (Proc.devRef .tc a : DevRef τ sig) ≠ g') :
    W2 m d (Proc.devRef .tc a) = m ((SparseCore.T d).loc a) :=
  (Function.update_of_ne hg _ _).trans (opsA_keeps (W0 m d) hA)

theorem W3_keep (d : Dev nD) (a : Ref sig .tc) (hA : a ∉ wrA) (hB : a ∉ wrB) (hg : (Proc.devRef .tc a : DevRef τ sig) ≠ g') :
    W3 m d (Proc.devRef .tc a) = m ((SparseCore.T d).loc a) :=
  (opsB_keeps (W2 m d) hB).trans (W2_keep m d a hA hg)

theorem W4_keep (d : Dev nD) (a : Ref sig .tc) (hA : a ∉ wrA) (hB : a ∉ wrB) (hg : (Proc.devRef .tc a : DevRef τ sig) ≠ g')
    (ho : (Proc.devRef .tc a : DevRef τ sig) ≠ Proc.devRef .tc main_v16) :
    W4 m d (Proc.devRef .tc a) = m ((SparseCore.T d).loc a) :=
  (Function.update_of_ne ho _ _).trans (W3_keep m d a hA hB hg)

theorem W4_out (d : Dev nD) : W4 m d (Proc.devRef .tc main_v16) = finalD (VW (fun d => W3 m d)) d := Function.update_self _ _ _

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem IvOf_eq (d : Dev nD) : (IvOf m d : S204800.Idx → BitVec 32) = idxOf (m ((SparseCore.T d).loc main_arg2)) :=
  after_v8 (W0 m d)

-- The index list is in range because the child table is.
theorem preOK (hci : ∀ (d : Dev nD) (j : S100000x2.Idx), ((m ((SparseCore.T d).loc main_arg2) : S100000x2.Idx → BitVec 32) j).toNat < 100000) :
    PreOK (IvOf m) := fun d j => by
  rw [IvOf_eq]
  exact idxOf_lt _ (hci d) j

end Cert.Proof.KI

end
-- ==== Proof.SpecDense.lean ====
import proofs.«211965_g16441134809400_cont_sun_m_142_16_alg».proof.Proof.Spec

noncomputable section

namespace Cert.Proof.Spec

open Idealize.ShloMosaic Idealize.ShloMosaic.ValueIdx

abbrev S256x128 : Shape := ⟨2, ![256, 128]⟩
abbrev S1x256 : Shape := ⟨2, ![1, 256]⟩
abbrev S128x128 : Shape := ⟨2, ![128, 128]⟩

def preD (xr h0 h1 : Fin 128 → EReal) (w u0 u1 : Vec Ideal S256x128 .f32) (b : Vec Ideal S1x256 .f32) (ρ : Fin 256) : EReal :=
  ((dot xr (fun k => w (ix2 ρ k)) + dot h0 (fun k => u0 (ix2 ρ k))) + dot h1 (fun k => u1 (ix2 ρ k))) + b (ix2 (0 : Fin 1) ρ)

/-- The cell over the cut weight blocks: the form the dense kernel's body computes. -/
def cellD (xr h0 h1 : Fin 128 → EReal) (w u0 u1 : Vec Ideal S256x128 .f32) (b : Vec Ideal S1x256 .f32)
    (v0 v1 : Vec Ideal S128x128 .f32) (j : Fin 128) : EReal :=
  let u : EReal := Ideal.logistic (preD xr h0 h1 w u0 u1 b (colL j))
  let o : EReal := Ideal.tanh (preD xr h0 h1 w u0 u1 b (colR j))
  o * u + (1 - u) * (dot h0 (fun k => v0 (ix2 j k)) + dot h1 (fun k => v1 (ix2 j k)))

end Cert.Proof.Spec

end
-- ==== Proof.DenseValue.lean ====
import proofs.«211965_g16441134809400_cont_sun_m_142_16_alg».proof.Proof.DenseOut
import proofs.«211965_g16441134809400_cont_sun_m_142_16_alg».proof.Proof.SpecDense
import Idealize.ShloMosaic.Lib.ValueLayout
import Idealize.ShloMosaic.Lib.IdealHost

noncomputable section

namespace Cert.Proof.KI

open Cert.KernelIdeal Cert.KernelIdeal.Gen
open Idealize.ShloMosaic Idealize.ShloMosaic.ValueIdx

-- Into a zero accumulator, a product contracting the last axis of both operands pairs row `r` of the left with row `q` of the right.
theorem matmulT_apply {M K N : ℕ} (d : DotDims ⟨2, ![M, K]⟩ ⟨2, ![N, K]⟩ ⟨2, ![M, N]⟩) (hd : d = .transposedRhs M K N)
    (a : FVec Ideal ⟨2, ![M, K]⟩ .f32) (m : FVec Ideal ⟨2, ![N, K]⟩ .f32) (r : Fin M) (q : Fin N) :
    matmul d none a m (constant _ .f32 0x00000000#32) (ix2 r q) = ∑ k : Fin K, a (ix2 r k) * m (ix2 q k) := by
  subst hd
  refine (Ideal.matmul_constant_zero_apply _ none a m _).trans ?_
  rw [← Equiv.sum_comp (contrEquiv1 (.transposedRhs M K N) K rfl rfl).symm]
  refine Finset.sum_congr rfl fun c _ => ?_
  have hc := contrEquiv1_symm_val (.transposedRhs M K N) K rfl rfl c
  congr 2 <;> funext ax <;> apply Fin.ext <;>
    match ax with
    | ⟨0, _⟩ => simp [DotDims.lhsIdx, DotDims.rhsIdx, DotDims.transposedRhs]; rfl
    | ⟨1, _⟩ => simp [DotDims.lhsIdx, DotDims.rhsIdx, DotDims.transposedRhs]; exact hc

variable (x h0 h1 : Vec Ideal S4000x128 .f32) (w u0 u1 : Vec Ideal S256x128 .f32) (b : Vec Ideal S1x256 .f32)
  (v0 v1 : Vec Ideal S128x128 .f32) (r : Fin 4000) (j : Fin 128)

-- Column `o + j` of the 256 gate columns: the three products of row `r` against gate row `q = o + j`, and the bias there.
theorem pre_apply (o : ℕ) (hs : S4000x256.Slices ![0, o] S4000x128) (q : Fin 256) (hq : q.val = o + j.val) :
    extractStridedSlice S4000x128 ![0, o] (k1_pay4 (F := Ideal) h0 h1 x w u0 u1 b) hs (ix2 r j)
      = Spec.preD (fun k => x (ix2 r k)) (fun k => h0 (ix2 r k)) (fun k => h1 (ix2 r k)) w u0 u1 b q := by
  have g := matmulT_apply dot_S4000x128_S256x128_S4000x256_1_1_0_0_n_n rfl
  rw [slice2_axis1_apply o _ hs r j q hq]
  unfold k1_pay4 k1_pay2 k1_pay3
  simp only [shapeCast_self]
  rw [addf_apply, addf_apply, addf_apply, g, g, g, broadcastTo_1b_ab_apply]
  rfl

theorem outD_apply :
    outD (F := Ideal) x h0 h1 w u0 u1 b v0 v1 (ix2 r j)
      = Spec.cellD (fun k => x (ix2 r k)) (fun k => h0 (ix2 r k)) (fun k => h1 (ix2 r k)) w u0 u1 b v0 v1 j := by
  have g := matmulT_apply dot_S4000x128_S128x128_S4000x128_1_1_0_0_n_n rfl
  unfold outD k1_pay1 k1_pay6 k1_pay7 k1_pay5 k1_pay2 k1_pay3 tanh logistic
  simp only [shapeCast_self]
  rw [addf_apply, mulf_apply, mulf_apply, subf_apply, addf_apply, g, g, broadcast_apply,
    pre_apply x h0 h1 w u0 u1 b r j 0 _ (Spec.colL j) (Nat.zero_add _).symm, pre_apply x h0 h1 w u0 u1 b r j 128 _ (Spec.colR j) rfl,
    show (Scalar.ofBits .f32 0x3F800000#32 : Ideal .f32) = 1 from Ideal.ofBits_one_f32]
  rfl

end Cert.Proof.KI

end
-- ==== Proof.KernelValue.lean ====
import proofs.«211965_g16441134809400_cont_sun_m_142_16_alg».proof.Proof.DenseBody
import proofs.«211965_g16441134809400_cont_sun_m_142_16_alg».proof.Proof.DenseValue

noncomputable section

namespace Cert.Proof.KI

open Cert.KernelIdeal Cert.KernelIdeal.Gen
open Idealize.ShloMosaic Idealize.ShloMosaic.TcCoe Idealize.ShloMosaic.ValueIdx

-- The blocks cut from the weight arrays: the gate rows from row 128 on, the columns of `U` and `U2` halved by `c`.
def cutW (W : Vec Ideal S384x128 .f32) : Vec Ideal S256x128 .f32 := fun i => W (ix2 (Fin.natAdd 128 (i 0)) (i 1))
def cutU (c : Fin 128 → Fin 256) (U : Vec Ideal S384x256 .f32) : Vec Ideal S256x128 .f32 := fun i => U (ix2 (Fin.natAdd 128 (i 0)) (c (i 1)))
def cutB (b : Vec Ideal S1x384 .f32) : Vec Ideal S1x256 .f32 := fun i => b (ix2 (i 0) (Fin.natAdd 128 (i 1)))
def cutV (c : Fin 128 → Fin 256) (U2 : Vec Ideal S128x256 .f32) : Vec Ideal S128x128 .f32 := fun i => U2 (ix2 (i 0) (c (i 1)))

variable (xr h0 h1 : Fin 128 → EReal) (W : Vec Ideal S384x128 .f32) (U : Vec Ideal S384x256 .f32) (b : Vec Ideal S1x384 .f32)
  (U2 : Vec Ideal S128x256 .f32)

theorem preD_cut (ρ : Fin 256) (ρ' : Fin 384) (hρ : ρ' = Fin.natAdd 128 ρ) :
    Spec.preD xr h0 h1 (cutW W) (cutU Spec.colL U) (cutU Spec.colR U) (cutB b) ρ = Spec.pre xr h0 h1 W U b ρ' := by
  subst hρ
  rfl

-- Over the cut blocks the cell is `G` at node `n`: update rows `128 + j` are cut rows `j`, output rows `256 + j` cut rows `128 + j`.
theorem cellD_cut (x h : Vec Ideal S100000x128 .f32) (ci : Vec Ideal S100000x2 .i32) (n : Fin 100000) (j : Fin 128)
    (ex : ∀ k, xr k = x (ix2 n k)) (e0 : ∀ k, h0 k = h (ix2 (Spec.rowOf (ci (ix2 n 0))) k))
    (e1 : ∀ k, h1 k = h (ix2 (Spec.rowOf (ci (ix2 n 1))) k)) :
    Spec.cellD xr h0 h1 (cutW W) (cutU Spec.colL U) (cutU Spec.colR U) (cutB b) (cutV Spec.colL U2) (cutV Spec.colR U2) j
      = Spec.G x h ci W U b U2 (ix2 n j) := by
  obtain rfl := funext ex
  obtain rfl := funext e0
  obtain rfl := funext e1
  unfold Spec.cellD
  rw [preD_cut _ _ _ W U b (Spec.colL j) (Spec.rowU j) rfl,
    preD_cut _ _ _ W U b (Spec.colR j) (Spec.rowO j) (Fin.ext (by show 256 + j.val = 128 + (128 + j.val); omega))]
  rfl

-- Row `n` of the result is row `n % 4000` of block `n / 4000`, computed from rows `n` of `x` and `n`, `100000 + n` of the gathered array.
theorem finalD_eq_G (V : (c : Dev nD) → (b : Ref sig .tc) → Buf (Elt Ideal) ((c : Thread nD τ).loc b)) (c : Dev nD)
    (x h : Vec Ideal S100000x128 .f32) (ci : Vec Ideal S100000x2 .i32) (idx : S204800.Idx → BitVec 32)
    (hidx0 : ∀ n : Fin 100000, idx (ix1 ⟨n.val, by omega⟩) = ci (ix2 n 0))
    (hidx1 : ∀ n : Fin 100000, idx (ix1 ⟨100000 + n.val, by omega⟩) = ci (ix2 n 1))
    (hx : V c main_arg0 = x) (hg : V c main_v9 = fun j => h (ix2 (Spec.rowOf (idx (ix1 (j 0)))) (j 1)))
    (hw : V c main_v10 = cutW W) (hu0 : V c main_v11 = cutU Spec.colL U) (hu1 : V c main_v12 = cutU Spec.colR U)
    (hb : V c main_v13 = cutB b) (hv0 : V c main_v14 = cutV Spec.colL U2) (hv1 : V c main_v15 = cutV Spec.colR U2) :
    finalD (F := Ideal) V c = Spec.G x h ci W U b U2 := by
  funext i
  obtain ⟨n, j, rfl⟩ : ∃ (n : Fin 100000) (j : Fin 128), i = ix2 n j := ⟨i 0, i 1, eq_ix2 i⟩
  have hlt := n.isLt
  have hn := Nat.div_add_mod n.val 4000
  refine (outD_apply _ _ _ _ _ _ _ _ _ ⟨n.val % 4000, Nat.mod_lt _ (by omega)⟩ j).trans ?_
  rw [hw, hu0, hu1, hb, hv0, hv1]
  exact cellD_cut _ _ _ W U b U2 x h ci n j
    (fun k => (congrFun hx _).trans (congrArg (fun q : Fin 100000 => x (ix2 q k)) (Fin.ext hn)))
    (fun k => (congrFun hg _).trans (congrArg (fun v => h (ix2 (Spec.rowOf v) k))
      ((congrArg (fun q : Fin 204800 => idx (ix1 q)) (Fin.ext hn)).trans (hidx0 n))))
    (fun k => (congrFun hg _).trans (congrArg (fun v => h (ix2 (Spec.rowOf v) k))
      ((congrArg (fun q : Fin 204800 => idx (ix1 q))
        (Fin.ext (by show 100000 + 4000 * (n.val / 4000) + n.val % 4000 = 100000 + n.val; omega))).trans (hidx1 n))))

end Cert.Proof.KI

end
-- ==== Proof.ValueIdeal.lean ====
import proofs.«211965_g16441134809400_cont_sun_m_142_16_alg».proof.Proof.Reads
import proofs.«211965_g16441134809400_cont_sun_m_142_16_alg».proof.Proof.KernelValue

noncomputable section

namespace Cert.Proof.KI

open Cert.KernelIdeal Cert.KernelIdeal.Gen
open Idealize.ShloMosaic Idealize.ShloMosaic.TcCoe Idealize.ShloMosaic.ValueIdx

variable (m : (ℓ : Loc nD τ sig) → Buf (Elt Ideal) ℓ)

-- The result array is the cell's function of the arguments: the gathered rows are `h` at the child table's rows, the weight blocks the cuts.
theorem out_eq_G (d : Dev nD) :
    W4 m d (Proc.devRef .tc main_v16)
      = Spec.G (m ((SparseCore.T d).loc main_arg0)) (m ((SparseCore.T d).loc main_arg1)) (m ((SparseCore.T d).loc main_arg2))
          (m ((SparseCore.T d).loc main_arg3)) (m ((SparseCore.T d).loc main_arg4)) (m ((SparseCore.T d).loc main_arg5))
          (m ((SparseCore.T d).loc main_arg6)) := by
  rw [W4_out, ← W2_keep m d main_arg3 (by decide) (by decide), ← W2_keep m d main_arg4 (by decide) (by decide),
    ← W2_keep m d main_arg5 (by decide) (by decide), ← W2_keep m d main_arg6 (by decide) (by decide)]
  exact finalD_eq_G _ _ _ _ (VW fun d => W3 m d) d _ _ _ (IvOf m d)
    (fun n => (congrFun (IvOf_eq m d) _).trans (idxOf_col0 _ n)) (fun n => (congrFun (IvOf_eq m d) _).trans (idxOf_col1 _ n))
    (W3_keep m d main_arg0 (by decide) (by decide) (by decide)) ((opsB_v9 _).trans (W2_g m d))
    (after_v10 _) (after_v11 _) (after_v12 _) (after_v13 _) (after_v14 _) (after_v15 _)

end Cert.Proof.KI

end
-- ==== Proof.RefOps.lean ====
import proofs.«211965_g16441134809400_cont_sun_m_142_16_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

-- @main with its two calls opened is a straight line of fifty-nine operations; the list is read off the program.
def line : {l : List (HloOp τ sig (Elt F)) // ∀ c : Dev nD, main (F := F) c = seq l} :=
  ⟨[_, _, _, _, _, _, _, _, _, _, _, _, _, _, _, _, _, _, _, _, _, _, _, _, _, _, _, _, _, _, _, _, _, _, _, _, _, _, _, _, _, _, _, _, _, _, _, _, _, _, _, _, _, _, _, _, _, _, _],
    fun _ => by simp only [main, fn_take.body, fn_where.body, bind_assoc, pure_bind]; rfl⟩

abbrev ops : List (HloOp τ sig (Elt F)) := (line (F := F)).1

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) line.2
    (fun _ => by
      simp only [ops, line, List.Forall, nullary_bufs_sub, unary_bufs_sub, binary_bufs_sub, ternary_bufs_sub,
        reshape_bufs_sub, and_self])
    m ρ

end Cert.Proof.Ref

end
-- ==== Proof.RefTerm.lean ====
import proofs.«211965_g16441134809400_cont_sun_m_142_16_alg».proof.Proof.Gen.ReferenceIdeal

noncomputable section

namespace Cert.Proof.Ref

open Cert.ReferenceIdeal Cert.ReferenceIdeal.Gen Idealize.ShloMosaic

variable {F : FTy → Type} [FloatOps F]

-- A negative index word has the row count added.
def normIdx (ci : IVec S100000x2 32) : IVec S100000x2 32 :=
  select (cmpi .slt ci (broadcastInDim S100000x2 ![] bcast_S_S100000x2 (constantI S_ 32 0#32)))
    (addi ci (broadcastInDim S100000x2 ![] bcast_S_S100000x2 (constantI S_ 32 100000#32))) ci

def startIdx (ci : IVec S100000x2 32) : IVec S100000x2x1 32 :=
  broadcastInDim S100000x2x1 ![0, 1] bcast_S100000x2_S100000x2x1_0_1 (normIdx ci)

-- Where the start index names a row: 0 ≤ start ≤ 99999 as signed words.
def inRange (ci : IVec S100000x2 32) : IVec S100000x2 1 :=
  Host.reduce IntOp.andi
    (andi (cmpi .sge (startIdx ci) (broadcastInDim S100000x2x1 ![] bcast_S_S100000x2x1 (constantI S_ 32 0#32)))
      (cmpi .sle (startIdx ci)
        (broadcastInDim S100000x2x1 ![0, 1, 2] bcast_S1x1x1_S100000x2x1_0_1_2
          (broadcastInDim S1x1x1 ![2] bcast_S1_S1x1x1_2 (constantI S1 32 99999#32)))))
    (constantI S_ 1 1#1) reducesTo_S100000x2x1_S100000x2_d2 h_S_

-- The row of h each (node, child) index names, a NaN row where the index is out of range.
def childRows (h : FVec F S100000x128 .f32) (ci : IVec S100000x2 32) : FVec F S100000x2x128 .f32 :=
  select (broadcastInDim S100000x2x128 ![0, 1] bcast_S100000x2_S100000x2x128_0_1 (inRange ci))
    (Host.gather gather_S100000x128_S100000x2x1_S100000x2x128_2_0_n_n_0_2_1128 h (startIdx ci))
    (broadcastInDim S100000x2x128 ![] bcast_S_S100000x2x128 (constant S_ .f32 0x7FC00000#32))

def hcat (h : FVec F S100000x128 .f32) (ci : IVec S100000x2 32) : FVec F S100000x256 .f32 :=
  shapeCast S100000x256 (childRows h ci) shapeCasts_S100000x2x128_S100000x256

-- The 384 gate pre-activations of every node: (x·Wᵀ + hcat·Uᵀ) + b.
def gates (x : FVec F S100000x128 .f32) (hc : FVec F S100000x256 .f32) (W : FVec F S384x128 .f32)
    (Uw : FVec F S384x256 .f32) (b : FVec F S1x384 .f32) : FVec F S100000x384 .f32 :=
  addf
    (addf
      (Host.dotGeneral dot_S100000x128_S128x384_S100000x384_1_0_0_1_n_n none x
        (transpose S128x384 [1, 0] W transposes_S384x128_S128x384_1_0))
      (Host.dotGeneral dot_S100000x256_S256x384_S100000x384_1_0_0_1_n_n none hc
        (transpose S256x384 [1, 0] Uw transposes_S384x256_S256x384_1_0)))
    (broadcastInDim S100000x384 ![0, 1] bcast_S1x384_S100000x384_0_1 b)

def ones : FVec F S100000x128 .f32 :=
  broadcastInDim S100000x128 ![] bcast_S_S100000x128 (constant S_ .f32 0x3F800000#32)

-- The logistic, 1 / (1 + exp (−v)).
def sigm (v : FVec F S100000x128 .f32) : FVec F S100000x128 .f32 :=
  Host.divf ones (addf ones (Host.exp (Host.negf v)))

def gateU (g : FVec F S100000x384 .f32) : FVec F S100000x128 .f32 :=
  sigm (extractStridedSlice S100000x128 ![0, 128] g slices_S100000x384_S100000x128_0_128)

-- The new state o·u + (1 − u)·a: o the tanh of columns 256.., u the logistic of columns 128...
def combine (g : FVec F S100000x384 .f32) (a : FVec F S100000x128 .f32) : FVec F S100000x128 .f32 :=
  addf (mulf (Host.tanh (extractStridedSlice S100000x128 ![0, 256] g slices_S100000x384_S100000x128_0_256)) (gateU g))
    (mulf (subf ones (gateU g)) a)

def result (x h : FVec F S100000x128 .f32) (ci : IVec S100000x2 32) (W : FVec F S384x128 .f32)
    (Uw : FVec F S384x256 .f32) (b : FVec F S1x384 .f32) (U2 : FVec F S128x256 .f32) : FVec F S100000x128 .f32 :=
  combine (gates x (hcat h ci) W Uw b)
    (Host.dotGeneral dot_S100000x256_S256x128_S100000x128_1_0_0_1_n_n none (hcat h ci)
      (transpose S256x128 [1, 0] U2 transposes_S128x256_S256x128_1_0))

end Cert.Proof.Ref

end
-- ==== Proof.RefFold.lean ====
import proofs.«211965_g16441134809400_cont_sun_m_142_16_alg».proof.Proof.RefOps
import proofs.«211965_g16441134809400_cont_sun_m_142_16_alg».proof.Proof.RefTerm

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
-- Each operation's result at its own buffer is its function of its operands' contents; `result` composes them in the same order.
theorem after_result (V : Valuation τ sig (Elt F)) :
    after ops V (main_v31 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  dsimp only [ops, line]
  after_results_simp
  rfl

end Cert.Proof.Ref

end
-- ==== Proof.RefValue.lean ====
import proofs.«211965_g16441134809400_cont_sun_m_142_16_alg».proof.Proof.RefTerm
import proofs.«211965_g16441134809400_cont_sun_m_142_16_alg».proof.Proof.Spec
import Idealize.ShloMosaic.Lib.StackMember
import Idealize.ShloMosaic.Lib.Pipeline.Value
import Idealize.ShloMosaic.Lib.ValueLayout
import Idealize.ShloMosaic.Lib.DynamicIndex
import Idealize.ShloMosaic.Lib.ReduceAll
import Idealize.ShloMosaic.Lib.StableHlo.Predicate

noncomputable section

namespace Cert.Proof.Ref

open Cert.ReferenceIdeal Cert.ReferenceIdeal.Gen Idealize.ShloMosaic Idealize.ShloMosaic.ValueIdx
open Idealize.ShloMosaic.StableHlo.Predicate
open scoped BigOperators

def IdxOK (ci : Vec Ideal Cert.Proof.Spec.SNx2 .i32) : Prop := ∀ j, (ci j).toNat < 100000

theorem one_f32 : Ideal.ofBits .f32 0x3F800000#32 = 1 := by
  simp [Ideal.ofBits, Ideal.ieee, -EReal.coe_mul]; norm_num

-- A product against a transposed weight matrix is a sum over the matrix's columns.
theorem dotT_apply {m k r : Nat} (D : DotDims ⟨2, ![m, k]⟩ ⟨2, ![k, r]⟩ ⟨2, ![m, r]⟩) (hD : D = DotDims.plain m k r)
    (A : FVec Ideal ⟨2, ![m, k]⟩ .f32) (M : FVec Ideal ⟨2, ![r, k]⟩ .f32)
    (hT : (⟨2, ![r, k]⟩ : Shape).Transposes [1, 0] ⟨2, ![k, r]⟩) (a : Fin m) (ρ : Fin r) :
    Host.dotGeneral D none A (transpose ⟨2, ![k, r]⟩ [1, 0] M hT) (ix2 a ρ) = ∑ c : Fin k, A (ix2 a c) * M (ix2 ρ c) := by
  subst hD
  rw [StackMember.dotGeneral_plain_apply]
  exact Finset.sum_congr rfl fun c _ => by rw [transpose_ix2_apply]

theorem sum_256 (f : Fin 256 → EReal) :
    ∑ c : Fin 256, f c = ∑ k : Fin 128, f (Spec.colL k) + ∑ k : Fin 128, f (Spec.colR k) :=
  Fin.sum_univ_add (a := 128) (b := 128) f

theorem bias_apply (b : FVec Ideal S1x384 .f32) (n : Fin 100000) (ρ : Fin 384) :
    broadcastInDim S100000x384 ![0, 1] bcast_S1x384_S100000x384_0_1 b (ix2 n ρ) = b (ix2 (0 : Fin 1) ρ) :=
  broadcastInDim_apply _ _ _ _ _ fun a => match a with | ⟨0, _⟩ => rfl | ⟨1, _⟩ => rfl

theorem sigm_apply (v : FVec Ideal S100000x128 .f32) (i : S100000x128.Idx) : sigm v i = Ideal.logistic (v i) := by
  show Ideal.div (Ideal.ofBits .f32 0x3F800000#32) (Ideal.ofBits .f32 0x3F800000#32 + Ideal.exp (-(v i))) = _
  rw [one_f32]; rfl

theorem combine_apply (g : FVec Ideal S100000x384 .f32) (a : FVec Ideal S100000x128 .f32) (n : Fin 100000) (j : Fin 128) :
    combine g a (ix2 n j)
      = Ideal.tanh (g (ix2 n (Spec.rowO j))) * Ideal.logistic (g (ix2 n (Spec.rowU j)))
        + (1 - Ideal.logistic (g (ix2 n (Spec.rowU j)))) * a (ix2 n j) := by
  unfold combine gateU
  rw [addf_apply, mulf_apply, mulf_apply, subf_apply, sigm_apply, slice2_axis1_apply 128 g _ n j (Spec.rowU j) rfl]
  show Ideal.tanh (extractStridedSlice S100000x128 ![0, 256] g _ (ix2 n j)) * _ + (Ideal.ofBits .f32 0x3F800000#32 - _) * _ = _
  rw [slice2_axis1_apply 256 g _ n j (Spec.rowO j) rfl, one_f32]

theorem word_toInt {v : BitVec 32} (hv : v.toNat < 100000) : v.toInt = (v.toNat : Int) :=
  toInt_eq_toNat_of_lt (by omega)

-- An in-range word is not negative, so the start index of (n, c) is the word itself.
theorem startIdx_apply (ci : IVec S100000x2 32) (hok : IdxOK ci) (i : S100000x2x1.Idx) :
    startIdx ci i = ci (ix2 (i 0) (i 1)) := by
  unfold startIdx
  refine (broadcastInDim_apply _ _ _ _ (ix2 (i 0) (i 1)) fun a => ?_).trans ?_
  · match a with
    | ⟨0, _⟩ => rfl
    | ⟨1, _⟩ => rfl
  · exact select_slt_zero_of_nonneg ci _ ci _ (le_of_le_of_eq (Int.natCast_nonneg _) (word_toInt (hok _)).symm)

theorem inRange_apply (ci : IVec S100000x2 32) (hok : IdxOK ci) (j : S100000x2.Idx) : inRange ci j = 1#1 := by
  unfold inRange
  rw [Host.reduce_eq_foldl]
  refine List.foldl_fixed' (fun i => ?_) _
  have hv := hok (ix2 (i 0) (i 1))
  have hge : IntOp.cmpi .sge (ci (ix2 (i 0) (i 1))) 0#32 = 1#1 := (sge_iff_toNat (by omega) (by decide)).2 (Nat.zero_le _)
  have hle : IntOp.cmpi .sle (ci (ix2 (i 0) (i 1))) 99999#32 = 1#1 :=
    (sle_iff_toNat (by omega) (by decide)).2 (by show _ ≤ 99999; omega)
  show IntOp.andi 1#1 (IntOp.andi (IntOp.cmpi .sge (startIdx ci i) 0#32) (IntOp.cmpi .sle (startIdx ci i) 99999#32)) = 1#1
  rw [startIdx_apply ci hok, hge, hle]; rfl

theorem gather_row (h : FVec Ideal S100000x128 .f32) (idx : IVec S100000x2x1 32) (n : Fin 100000) (c : Fin 2) (k : Fin 128) :
    Host.gather gather_S100000x128_S100000x2x1_S100000x2x128_2_0_n_n_0_2_1128 h idx (ix3 n c k)
      = h (ix2 ⟨min (idx (ix3 n c (0 : Fin 1))).toInt.toNat 99999, by omega⟩ k) := by
  unfold Host.gather
  congr 1
  funext a
  apply Fin.ext
  match a with
  | ⟨0, _⟩ =>
    show GatherDims.start _ (ix3 n c k) idx 0 + GatherDims.batchCoord _ (ix3 n c k) 0 + GatherDims.offCoord _ (ix3 n c k) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S100000x128_S100000x2x1_S100000x2x128_2_0_n_n_0_2_1128.startIndexMap from
      List.mem_singleton.mpr rfl)]
    have hsi : gather_S100000x128_S100000x2x1_S100000x2x128_2_0_n_n_0_2_1128.siIdx (ix3 n c k)
        ⟨List.idxOf (0 : Fin 2) gather_S100000x128_S100000x2x1_S100000x2x128_2_0_n_n_0_2_1128.startIndexMap,
          List.idxOf_lt_length_iff.2 (List.mem_singleton.mpr rfl)⟩ = ix3 n c (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 n c k) idx 1 + GatherDims.batchCoord _ (ix3 n c k) 1 + GatherDims.offCoord _ (ix3 n c k) 1 = k.val
    rw [GatherDims.batchCoord_eq_zero _ _ _ List.not_mem_nil]
    unfold GatherDims.start
    rw [dif_neg (show (1 : Fin 2) ∉ gather_S100000x128_S100000x2x1_S100000x2x128_2_0_n_n_0_2_1128.startIndexMap from by decide)]
    simp only [Nat.add_zero, Nat.zero_add]
    rfl

-- Under in-range words the range mask is set and the clamp is idle: the row read is the row the word names.
theorem childRows_apply (h : FVec Ideal S100000x128 .f32) (ci : IVec S100000x2 32) (hok : IdxOK ci)
    (n : Fin 100000) (c : Fin 2) (k : Fin 128) :
    childRows h ci (ix3 n c k) = h (ix2 (Spec.rowOf (ci (ix2 n c))) k) := by
  have hv := hok (ix2 n c)
  have hs : startIdx ci (ix3 n c (0 : Fin 1)) = ci (ix2 n c) := startIdx_apply ci hok _
  unfold childRows
  rw [select_apply, broadcastInDim_apply _ _ _ (ix3 n c k) (ix2 n c) fun a => by
      match a with
      | ⟨0, _⟩ => rfl
      | ⟨1, _⟩ => rfl,
    inRange_apply ci hok, select_one, gather_row]
  refine congrArg (fun r => h (ix2 r k)) (Fin.ext ?_)
  show min (startIdx ci (ix3 n c (0 : Fin 1))).toInt.toNat 99999 = (Spec.rowOf (ci (ix2 n c))).val
  rw [hs, Spec.rowOf_val hv, word_toInt hv, Int.toNat_natCast]
  omega

-- The reshape puts child c's row in columns 128·c .. 128·c + 127.
theorem hcat_apply (h : FVec Ideal S100000x128 .f32) (ci : IVec S100000x2 32) (hok : IdxOK ci) (n : Fin 100000) (c : Fin 2)
    (k : Fin 128) (col : Fin 256) (hcol : col.val = 128 * c.val + k.val) :
    hcat h ci (ix2 n col) = h (ix2 (Spec.rowOf (ci (ix2 n c))) k) := by
  unfold hcat
  refine (shapeCast_apply _ _ _ (ix3 n c k) ?_).trans (childRows_apply h ci hok n c k)
  rw [Shape.rowMajor_val_three, Shape.rowMajor_val_two]
  show (n.val * 2 + c.val) * 128 + k.val = n.val * 256 + col.val
  omega

-- The two children's rows against a transposed 256-column weight matrix: each child's row against its half of the columns.
theorem hcat_dot (h : FVec Ideal S100000x128 .f32) (ci : IVec S100000x2 32) (hok : IdxOK ci) {r : Nat}
    (D : DotDims ⟨2, ![100000, 256]⟩ ⟨2, ![256, r]⟩ ⟨2, ![100000, r]⟩) (hD : D = DotDims.plain 100000 256 r)
    (M : FVec Ideal ⟨2, ![r, 256]⟩ .f32) (hT : (⟨2, ![r, 256]⟩ : Shape).Transposes [1, 0] ⟨2, ![256, r]⟩)
    (n : Fin 100000) (ρ : Fin r) :
    Host.dotGeneral D none (hcat h ci) (transpose ⟨2, ![256, r]⟩ [1, 0] M hT) (ix2 n ρ)
      = Spec.dot (fun k => h (ix2 (Spec.rowOf (ci (ix2 n (0 : Fin 2)))) k)) (fun k => M (ix2 ρ (Spec.colL k)))
        + Spec.dot (fun k => h (ix2 (Spec.rowOf (ci (ix2 n (1 : Fin 2)))) k)) (fun k => M (ix2 ρ (Spec.colR k))) := by
  rw [dotT_apply D hD, sum_256]
  exact congrArg₂ (· + ·)
    (Finset.sum_congr rfl fun k _ => by
      rw [hcat_apply h ci hok n 0 k (Spec.colL k) (by show k.val = 128 * 0 + k.val; omega)])
    (Finset.sum_congr rfl fun k _ => by
      rw [hcat_apply h ci hok n 1 k (Spec.colR k) (by show 128 + k.val = 128 * 1 + k.val; omega)])

theorem result_eq_G (x h : FVec Ideal S100000x128 .f32) (ci : IVec S100000x2 32) (W : FVec Ideal S384x128 .f32)
    (Uw : FVec Ideal S384x256 .f32) (b : FVec Ideal S1x384 .f32) (U2 : FVec Ideal S128x256 .f32) (hok : IdxOK ci) :
    result x h ci W Uw b U2 = Spec.G x h ci W Uw b U2 := by
  funext i
  obtain ⟨n, j, rfl⟩ : ∃ (n : Fin 100000) (j : Fin 128), i = ix2 n j := ⟨i 0, i 1, eq_ix2 i⟩
  have hpre : ∀ ρ : Fin 384, gates x (hcat h ci) W Uw b (ix2 n ρ)
      = Spec.pre (fun k => x (ix2 n k)) (fun k => h (ix2 (Spec.rowOf (ci (ix2 n (0 : Fin 2)))) k))
          (fun k => h (ix2 (Spec.rowOf (ci (ix2 n (1 : Fin 2)))) k)) W Uw b ρ := fun ρ => by
    unfold gates
    rw [addf_apply, addf_apply, bias_apply, hcat_dot h ci hok, dotT_apply, ← add_assoc] <;> rfl
  unfold result
  rw [combine_apply, hpre, hpre, hcat_dot h ci hok] <;> rfl

end Cert.Proof.Ref

end
-- ==== Proof.RefRun.lean ====
import proofs.«211965_g16441134809400_cont_sun_m_142_16_alg».proof.Proof.RefFold
import proofs.«211965_g16441134809400_cont_sun_m_142_16_alg».proof.Proof.RefValue

noncomputable section

namespace Cert.Proof.Ref

open Cert.ReferenceIdeal Cert.ReferenceIdeal.Gen Idealize.ShloMosaic Idealize.ShloMosaic.TcCoe Idealize.SL.Sem Idealize.ShloMosaic.StableHlo

-- The result buffer ends at the specified function of the arguments; no operation writes an argument buffer.
theorem run (m : (ℓ : Loc Cert.ReferenceIdeal.nD Cert.ReferenceIdeal.τ Cert.ReferenceIdeal.sig) → Buf (Elt Ideal) ℓ)
    (ρ : Dev Cert.ReferenceIdeal.nD → PrngReg)
    (hok : ∀ c : Dev Cert.ReferenceIdeal.nD,
      IdxOK (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v31)
            = Cert.Proof.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono
    (fun _ h c => by
      refine ⟨(h c main_v31).trans ((after_result _).trans (result_eq_G _ _ _ _ _ _ _ (hok c))), ?_, ?_, ?_, ?_, ?_, ?_, ?_⟩ <;>
        (rw [h c]; dsimp only [ops, line]; after_results_simp))
    (run_after m ρ)

end Cert.Proof.Ref

end
-- ==== Proof.ClaimsIdeal.lean ====
import proofs.«211965_g16441134809400_cont_sun_m_142_16_alg».proof.Defs
import proofs.«211965_g16441134809400_cont_sun_m_142_16_alg».proof.Proof.ValueIdeal
import proofs.«211965_g16441134809400_cont_sun_m_142_16_alg».proof.Proof.Run
import proofs.«211965_g16441134809400_cont_sun_m_142_16_alg».proof.Proof.RefRun
import proofs.«211965_g16441134809400_cont_sun_m_142_16_alg».proof.Proof.PreRange
import proofs.«211965_g16441134809400_cont_sun_m_142_16_alg».proof.Proof.Gen.ReferenceIdeal
import proofs.«211965_g16441134809400_cont_sun_m_142_16_alg».proof.Proof.Gen.Pre_input_domain

noncomputable section

namespace Cert.Proof.Claims

open Idealize.ShloMosaic Idealize.ShloMosaic.TcCoe Idealize.SL.Sem
open Cert.Proof Cert.KernelIdeal

variable (m : (ℓ : Loc nD τ sig) → Buf (Elt Ideal) ℓ)

-- An argument's buffer ends as launched: no host stretch and neither kernel writes it.
theorem kept {r} (h : KI.QC m r) (c : Dev nD) (a : Ref sig .tc)
    (ha : ¬(Proc.devRef .tc a : DevRef τ sig).isScoped ∧ a ∉ KI.wrA ∧ a ∉ KI.wrB
      ∧ (Proc.devRef .tc a : DevRef τ sig) ≠ KI.g' ∧ (Proc.devRef .tc a : DevRef τ sig) ≠ Proc.devRef .tc main_v16) :
    r.2.mem ((c.tc : Thread nD τ).loc a) = m ((c.tc : Thread nD τ).loc a) :=
  (h c _ (KI.mem_uc a ha.1)).trans (KI.W4_keep m c a ha.2.1 ha.2.2.1 ha.2.2.2.1 ha.2.2.2.2)

theorem frame_ki : Cert.frame_KernelIdeal := fun m g hpre =>
  (θ_run (defs (F := Ideal)) _ _).mono (fun r h c => have k := kept m h c
      ⟨k main_arg0 (by decide), k main_arg1 (by decide), k main_arg2 (by decide), k main_arg3 (by decide),
        k main_arg4 (by decide), k main_arg5 (by decide), k main_arg6 (by decide)⟩)
    (KI.run_main (F := Ideal) m g (KI.preOK m fun d => KI.ok_of_pre _ _ _ _ _ _ _ (hpre d)))

theorem frame_ri : Cert.frame_ReferenceIdeal := fun m g hpre =>
  (θ_run (Cert.ReferenceIdeal.defs (F := Ideal)) _ _).mono (fun _ h c => (h c).2)
    (Ref.run m g fun c => KI.ok_of_pre _ _ _ _ _ _ _ (hpre c))

-- Both results are the cell's function of the arguments, and the arguments agree.
theorem algebraic : Cert.algebraic_KernelIdeal_ReferenceIdeal := fun m g m' g' hpre hagree =>
  have hci := fun d => KI.ok_of_pre _ _ _ _ _ _ _ (hpre d)
  ⟨fun c => KI.W4 m c (Proc.devRef .tc main_v16),
    (θ_run (defs (F := Ideal)) _ _).mono (fun r h c => have k := kept m h c
        ⟨h c _ (KI.mem_uc main_v16 (by decide)), k main_arg0 (by decide), k main_arg1 (by decide), k main_arg2 (by decide),
          k main_arg3 (by decide), k main_arg4 (by decide), k main_arg5 (by decide), k main_arg6 (by decide)⟩)
      (KI.run_main (F := Ideal) m g (KI.preOK m hci)),
    (θ_run (Cert.ReferenceIdeal.defs (F := Ideal)) _ _).mono
      (fun r h c => ⟨(h c).1.trans (Eq.trans (by simp only [hagree c]) (KI.out_eq_G m c).symm), (h c).2⟩)
      (Ref.run m' g' fun c => (hagree c).2.2.1 ▸ hci c)⟩

end Cert.Proof.Claims

end
-- ==== Proof.B.Setup.lean ====
import proofs.«211965_g16441134809400_cont_sun_m_142_16_alg».proof.Kernel
import proofs.«211965_g16441134809400_cont_sun_m_142_16_alg».proof.Proof.Gen.Kernel
import proofs.«211965_g16441134809400_cont_sun_m_142_16_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

abbrev hLoc (d : Dev nD) : Loc nD τ sig := (SparseCore.T d).loc main_arg1
abbrev iLoc (d : Dev nD) : Loc nD τ sig := (SparseCore.T d).loc main_v8
abbrev gLoc (d : Dev nD) : Loc nD τ sig := (SparseCore.T d).loc main_v9

def wid (c : Fin 2) (s : Fin 16) : Fin 32 := ⟨2 * s.val + c.val, by omega⟩

end Cert.Proof.KB

end
-- ==== Proof.B.HostOps.lean ====
import proofs.«211965_g16441134809400_cont_sun_m_142_16_alg».proof.Proof.B.Setup
import Idealize.ShloMosaic.Lib.StableHlo.Run
import Idealize.ShloMosaic.Lib.Pipeline.Frame

noncomputable section

namespace Cert.Proof.KB

open Cert.Kernel Cert.Kernel.Gen
open Idealize.ShloMosaic Idealize.SL.Sem
open Idealize.ShloMosaic.StableHlo (TRef)

variable {F : FTy → Type} [FloatOps F]

abbrev opsA : List (HloOp τ sig (Elt F)) :=
  [ StableHlo.nullary main_v0 (iotaInDim S4800 32 0),
    StableHlo.nullary main_c (constantI S_ 32 17#32),
    StableHlo.unary main_c main_v1 (broadcastInDim S4800 ![] bcast_S_S4800 : (⟨S_, .i32⟩ : BufTy).Contents (Elt F) → (⟨S4800, .i32⟩ : BufTy).Contents (Elt F)),
    StableHlo.binary main_v0 main_v1 main_v2 (muli : (⟨S4800, .i32⟩ : BufTy).Contents (Elt F) → (⟨S4800, .i32⟩ : BufTy).Contents (Elt F) → (⟨S4800, .i32⟩ : BufTy).Contents (Elt F)),
    StableHlo.nullary main_c_0 (constantI S_ 32 100000#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4800 ![] bcast_S_S4800),
    TRef.binary (.of main_v2) main_call0.v3 main_call0.v4 Host.remsi,
    TRef.nullary main_call0.c_1 (constantI S_ 32 0#32),
    TRef.unary main_call0.c_1 main_call0.v5 (broadcastInDim S4800 ![] bcast_S_S4800),
    TRef.binary main_call0.v4 main_call0.v5 main_call0.v6 (cmpi .ne),
    TRef.nullary main_call0.c_2 (constantI S_ 32 0#32),
    TRef.unary main_call0.c_2 main_call0.v7 (broadcastInDim S4800 ![] bcast_S_S4800),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4800 ![] bcast_S_S4800),
    TRef.binary main_call0.v8 main_call0.v10 main_call0.v11 (cmpi .ne),
    TRef.binary main_call0.v11 main_call0.v6 main_call0.v12 andi,
    TRef.unary main_call0.call0.v0 main_call0.v13 (broadcastInDim S4800 ![] bcast_S_S4800),
    TRef.binary main_call0.v4 main_call0.v13 main_call0.v14 addi,
    TRef.ternary main_call0.v12 main_call0.v14 main_call0.v4 main_call0.v15 select,
    StableHlo.unary main_arg2 main_v4 ((extractStridedSlice S100000x1 ![0, 0] · slices_S100000x2_S100000x1_0_0) : (⟨S100000x2, .i32⟩ : BufTy).Contents (Elt F) → (⟨S100000x1, .i32⟩ : BufTy).Contents (Elt F)),
    StableHlo.reshape main_v4 main_v5 rfl shapeCasts_S100000x1_S100000,
    StableHlo.unary main_arg2 main_v6 ((extractStridedSlice S100000x1 ![0, 1] · slices_S100000x2_S100000x1_0_1) : (⟨S100000x2, .i32⟩ : BufTy).Contents (Elt F) → (⟨S100000x1, .i32⟩ : BufTy).Contents (Elt F)),
    StableHlo.reshape main_v6 main_v7 rfl shapeCasts_S100000x1_S100000,
    StableHlo.nary ![main_v5, main_v7, main_v3] main_v8 (fun u => concatenate S204800 0 [⟨S100000, u 0⟩, ⟨S100000, u 1⟩, ⟨S4800, u 2⟩] concatenates_S100000_S100000_S4800_S204800_d0) ]

abbrev opsB : List (HloOp τ sig (Elt F)) :=
  [ StableHlo.unary main_arg3 main_v10 ((extractStridedSlice S256x128 ![128, 0] · slices_S384x128_S256x128_128_0) : (⟨S384x128, .f32⟩ : BufTy).Contents (Elt F) → (⟨S256x128, .f32⟩ : BufTy).Contents (Elt F)),
    StableHlo.unary main_arg4 main_v11 ((extractStridedSlice S256x128 ![128, 0] · slices_S384x256_S256x128_128_0) : (⟨S384x256, .f32⟩ : BufTy).Contents (Elt F) → (⟨S256x128, .f32⟩ : BufTy).Contents (Elt F)),
    StableHlo.unary main_arg4 main_v12 ((extractStridedSlice S256x128 ![128, 128] · slices_S384x256_S256x128_128_128) : (⟨S384x256, .f32⟩ : BufTy).Contents (Elt F) → (⟨S256x128, .f32⟩ : BufTy).Contents (Elt F)),
    StableHlo.unary main_arg5 main_v13 ((extractStridedSlice S1x256 ![0, 128] · slices_S1x384_S1x256_0_128) : (⟨S1x384, .f32⟩ : BufTy).Contents (Elt F) → (⟨S1x256, .f32⟩ : BufTy).Contents (Elt F)),
    StableHlo.unary main_arg6 main_v14 ((extractStridedSlice S128x128 ![0, 0] · slices_S128x256_S128x128_0_0) : (⟨S128x256, .f32⟩ : BufTy).Contents (Elt F) → (⟨S128x128, .f32⟩ : BufTy).Contents (Elt F)),
    StableHlo.unary main_arg6 main_v15 ((extractStridedSlice S128x128 ![0, 128] · slices_S128x256_S128x128_0_128) : (⟨S128x256, .f32⟩ : BufTy).Contents (Elt F) → (⟨S128x128, .f32⟩ : BufTy).Contents (Elt F)) ]

theorem main_eq (d : Dev nD) :
    main (F := F) d
      = (StableHlo.seq opsA >>= fun _ => sc.run d 0 >>= fun _ => StableHlo.seq opsB >>= fun _ =>
          Prog.lift (.customCall (SparseCore.inner (Pipeline.entry 0)) ()) >>= fun _ => pure ⟨⟩) := by
  simp only [main, fn_remainder.body, fn_where.body, StableHlo.seq, bind_assoc, pure_bind]

theorem ops_tc : (opsA ++ opsB : List (HloOp τ sig (Elt F))).Forall fun op => op.bufs ⊆ StableHlo.tcRefs τ sig := by
  simp only [List.cons_append, List.nil_append, List.Forall, StableHlo.nullary_bufs_sub, StableHlo.unary_bufs_sub, StableHlo.binary_bufs_sub,
    StableHlo.ternary_bufs_sub, StableHlo.reshape_bufs_sub, StableHlo.nary_bufs_sub, and_self]
theorem opsA_sub : ∀ op ∈ (opsA : List (HloOp τ sig (Elt F))), op.bufs ⊆ Pipeline.ucRefs τ sig :=
  fun op h => Pipeline.sub_ucRefs op (List.forall_iff_forall_mem.mp ops_tc op (List.mem_append_left _ h))
theorem opsB_sub : ∀ op ∈ (opsB : List (HloOp τ sig (Elt F))), op.bufs ⊆ Pipeline.ucRefs τ sig :=
  fun op h => Pipeline.sub_ucRefs op (List.forall_iff_forall_mem.mp ops_tc op (List.mem_append_right _ h))

theorem opsA_fresh : ∀ op ∈ (opsA : List (HloOp τ sig (Elt F))), op.fresh = ∅ :=
  List.forall_iff_forall_mem.mp (by simp only [List.Forall]; repeat' constructor)
theorem opsB_fresh : ∀ op ∈ (opsB : List (HloOp τ sig (Elt F))), op.fresh = ∅ :=
  List.forall_iff_forall_mem.mp (by simp only [List.Forall]; repeat' constructor)

abbrev wrA : List (Ref sig .tc) :=
  [main_v0, main_c, main_v1, main_v2, main_c_0, main_call0_v0, main_call0_c, main_call0_v1,
    main_call0_c_0, main_call0_v2, main_call0_v3, main_call0_v4, main_call0_c_1, main_call0_v5, main_call0_v6, main_call0_c_2,
    main_call0_v7, main_call0_v8, main_call0_c_3, main_call0_v9, main_call0_v10, main_call0_v11, main_call0_v12, main_call0_v13,
    main_call0_v14, main_v3, main_v4, main_v5, main_v6, main_v7, main_v8]
abbrev wrB : List (Ref sig .tc) := [main_v10, main_v11, main_v12, main_v13, main_v14, main_v15]

-- Each operation writes its own result only, so a buffer that is no result of a line holds after it what it held before.
theorem opsA_keeps (V : Valuation τ sig (Elt F)) {r : Ref sig .tc} (hr : r ∉ wrA) :
    StableHlo.after opsA V (Proc.devRef .tc r) = V (Proc.devRef .tc r) :=
  StableHlo.after_of_writes_sub opsA V (by
    repeat' apply And.intro
    all_goals exact Finset.singleton_subset_iff.mpr (List.mem_toFinset.mpr (List.mem_map_of_mem (by decide)))) hr
theorem opsB_keeps (V : Valuation τ sig (Elt F)) {r : Ref sig .tc} (hr : r ∉ wrB) :
    StableHlo.after opsB V (Proc.devRef .tc r) = V (Proc.devRef .tc r) :=
  StableHlo.after_of_writes_sub opsB V (by
    repeat' apply And.intro
    all_goals exact Finset.singleton_subset_iff.mpr (List.mem_toFinset.mpr (List.mem_map_of_mem (by decide)))) hr

theorem opsB_v9 (V : Valuation τ sig (Elt F)) : StableHlo.after opsB V (Proc.devRef .tc main_v9) = V (Proc.devRef .tc main_v9) := opsB_keeps V (by decide)

end Cert.Proof.KB

end
-- ==== Proof.B.Pay.lean ====
import proofs.«211965_g16441134809400_cont_sun_m_142_16_alg».proof.Proof.B.Setup
import proofs.«211965_g16441134809400_cont_sun_m_142_16_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (Iv : (d : Dev nD) → Buf (Elt F) (iLoc d))

theorem idiv : 32 ∣ S204800.size 0 := ⟨6400, rfl⟩
theorem gdiv : 32 ∣ S204800x128.size 0 := ⟨6400, rfl⟩
abbrev irow (w : Fin 32) : Rect S204800 := Rect.part (s := S204800) (a₀ := 0) idiv w
abbrev grow (w : Fin 32) : Rect S204800x128 := Rect.part (s := S204800x128) (a₀ := 0) gdiv w
abbrev iSet (w : Fin 32) : Finset S204800.Idx := ((Memref.whole main_v8_scv : Memref sig .scVector .hbm S204800 .i32).view.slice (irow w)).set
abbrev gSet (w : Fin 32) : Finset S204800x128.Idx := ((Memref.whole main_v9_scv : Memref sig .scVector .hbm S204800x128 .f32).view.slice (grow w)).set

abbrev hq (w : Fin 32) : PosShare TreeShare := Transfers.shareTok fullShare 32 w

def Gv (d : Dev nD) : Buf (Elt F) (gLoc d) := fun j =>
  (m (hLoc d) : S100000x128.Idx → Elt F .f32) (ValueIdx.ix2 (Spec.rowOf ((Iv d : S204800.Idx → BitVec 32) (ValueIdx.ix1 (j 0)))) (j 1))

def PreOK : Prop := ∀ (d : Dev nD) (j : S204800.Idx), ((Iv d : S204800.Idx → BitVec 32) j).toNat < 100000

abbrev iPart (d : Dev nD) (w : Fin 32) : sProp 𝕄 := iLoc d ↦[iSet w]{fullShare} Iv d
abbrev hPart (d : Dev nD) (w : Fin 32) : sProp 𝕄 := hLoc d ↦{hq w} m (hLoc d)
abbrev gPart (d : Dev nD) (w : Fin 32) (f : Buf (Elt F) (gLoc d)) : sProp 𝕄 := gLoc d ↦[gSet w]{fullShare} f

abbrev goW (d : Dev nD) (w : Fin 32) : sProp 𝕄 := iprop(iPart Iv d w ∗ hPart m d w ∗ gPart d w (m (gLoc d)))
abbrev tdW (d : Dev nD) (w : Fin 32) : sProp 𝕄 := iprop(iPart Iv d w ∗ hPart m d w ∗ gPart d w (Gv m Iv d))

def P : (K (F := F)).Pay (nD := nD) (Val := Elt F) (Name := ℕ) (U := UU) where
  st := fun q d c => match q with
    | 0 => bigSep Finset.univ fun i : Fin ((K (F := F)).nSub 0) => goW m Iv d (wid (Fin.cast nCore_zero c) (Fin.cast nSub_zero i))
  dn := fun q d c => match q with
    | 0 => bigSep Finset.univ fun i : Fin ((K (F := F)).nSub 0) => tdW m Iv d (wid (Fin.cast nCore_zero c) (Fin.cast nSub_zero i))
  go := fun q d c i => match q with | 0 => goW m Iv d (wid (Fin.cast nCore_zero c) (Fin.cast nSub_zero i))
  td := fun q d c i => match q with | 0 => tdW m Iv d (wid (Fin.cast nCore_zero c) (Fin.cast nSub_zero i))
  x := fun _ _ => iprop(emp)

instance P_storable : (P (F := F) m Iv).IsStorable where
  st q d c := match q with | 0 => by unfold P; infer_instance
  dn q d c := match q with | 0 => by unfold P; infer_instance
  go q d c i := match q with | 0 => by unfold P; infer_instance
  td q d c i := match q with | 0 => by unfold P; infer_instance

/-- A SparseCore's operands are its workers' operands together: nothing to split, nothing to gather. -/
theorem vecSplit : (K (F := F)).VecSplit' (P m Iv) 0 := by
  intro d c
  dsimp only [P]
  iintro H; imodintro
  isplitl [H]; · iexact H
  iintro H; iexact H

end Cert.Proof.KB

end
-- ==== Proof.B.Vals.lean ====
import proofs.«211965_g16441134809400_cont_sun_m_142_16_alg».proof.Proof.B.HostOps
import proofs.«211965_g16441134809400_cont_sun_m_142_16_alg».proof.Proof.B.Pay

noncomputable section

namespace Cert.Proof.KB

open Cert.Kernel Cert.Kernel.Gen

open Idealize.ShloMosaic
open Idealize.ShloMosaic.SparseCore (T)
open Idealize.ShloMosaic.SparseCore.Cfg (HIx)
open Idealize.SL Idealize.SL.RA Idealize.SL.BI Idealize.SL.BI.BIBase Idealize.SL.Sem
open scoped Idealize.SL.BI
open Idealize.ShloMosaic.StableHlo (held)

variable {F : FTy → Type} [FloatOps F]

local notation "𝕄" => MT nD τ sig (HIx 1) (Elt F) ℕ UU ℕ

variable (m : (ℓ : Loc nD τ sig) → Buf (Elt F) ℓ)

abbrev W0 (d : Dev nD) : Valuation τ sig (Elt F) := fun b => m (d, b)
abbrev W1 (d : Dev nD) : Valuation τ sig (Elt F) := StableHlo.after opsA (W0 m d)

abbrev h' : DevRef τ sig := Proc.devRef .tc (main_arg1 : Ref sig .tc)
abbrev i' : DevRef τ sig := Proc.devRef .tc (main_v8 : Ref sig .tc)
abbrev g' : DevRef τ sig := Proc.devRef .tc (main_v9 : Ref sig .tc)

def IvOf (d : Dev nD) : Buf (Elt F) (iLoc d) := W1 m d i'

def W2 (d : Dev nD) : Valuation τ sig (Elt F) := Function.update (W1 m d) g' (Gv m (IvOf m) d)
abbrev W3 (d : Dev nD) : Valuation τ sig (Elt F) := StableHlo.after opsB (W2 m d)

abbrev T3 : Finset (DevRef τ sig) := {h', i', g'}

omit [FloatOps F] in
theorem held_T3 (d : Dev nD) (X : Valuation τ sig (Elt F)) :
    (held (T d) T3 X : sProp 𝕄) = iprop((hLoc d ↦{fullShare} X h') ∗ (iLoc d ↦{fullShare} X i') ∗ gLoc d ↦{fullShare} X g') := by
  unfold held T3
  rw [SparseCore.bigSep_insert' (by decide), SparseCore.bigSep_insert' (by decide), bigSep_singleton]

theorem T3_sub : (T3 : Finset (DevRef τ sig)) ⊆ Pipeline.ucRefs τ sig := by decide

theorem W1_h (d : Dev nD) : W1 m d h' = m (hLoc d) := opsA_keeps (W0 m d) (r := main_arg1) (by decide)
theorem W1_g (d : Dev nD) : W1 m d g' = m (gLoc d) := opsA_keeps (W0 m d) (r := main_v9) (by decide)
theorem W2_h (d : Dev nD) : W2 m d h' = m (hLoc d) := (Function.update_of_ne (show h' ≠ g' by decide) _ _).trans (W1_h m d)
theorem W2_i (d : Dev nD) : W2 m d i' = IvOf m d := Function.update_of_ne (show i' ≠ g' by decide) _ _
theorem W2_g (d : Dev nD) : W2 m d g' = Gv m (IvOf m) d := Function.update_self _ _ _

theorem held_rest_W2 (d : Dev nD) :
    (held (T d) (Pipeline.ucRefs τ sig \ T3) (W2 m d) : sProp 𝕄) = held (T d) (Pipeline.ucRefs τ sig \ T3) (W1 m d) :=
  StableHlo.held_congr (T d) fun b hb => Function.update_of_ne (fun e => (Finset.mem_sdiff.mp hb).2 (by subst e; decide)) _ _

omit [FloatOps F] in
theorem unscoped_held (d : Dev nD) :
    (unscopedBufs d (fun b => m ((SparseCore.T d).loc b)) : sProp 𝕄) = held (T d) (Pipeline.ucRefs τ sig) (W0 m d) :=
  Pipeline.unscopedBufs_held d (W0 m d)

end Cert.Proof.KB

end
-- ==== Proof.B.Split.lean ====
import proofs.«211965_g16441134809400_cont_sun_m_142_16_alg».proof.Proof.B.Pay

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode

variable {F : FTy → Type}

local notation "𝕄" => MT nD τ sig (HIx 1) (Elt F) ℕ UU ℕ

variable (m : (ℓ : Loc nD τ sig) → Buf (Elt F) ℓ) (Iv : (d : Dev nD) → Buf (Elt F) (iLoc d))

-- Core `c`'s subcore `s` is worker `2·s + c`: a sum over the call's cores and subcores is a sum over the thirty-two numbers.
theorem bigSep_workers (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i)))
      = bigSep Finset.univ Φ := by
  rw [bigSep_univ_equiv ((Equiv.prodComm _ _).trans (finProdFinEquiv : Fin 16 × Fin 2 ≃ Fin 32)) Φ, bigSep_univ_prod]
  exact bigSep_congr fun c _ => bigSep_congr fun s _ => congrArg Φ (Fin.ext (Nat.add_comm _ _))

-- The index list and the result array, whole, are their thirty-two blocks of rows.
theorem iWhole_eq (d : Dev nD) (f : Buf (Elt F) (iLoc d)) :
    (iLoc d ↦{fullShare} f : sProp 𝕄) = bigSep Finset.univ fun w : Fin 32 => iLoc d ↦[iSet w]{fullShare} f := by
  rw [show iSet = fun w => (irow w).set from funext fun w => View.set_slice_whole main_v8_scv (irow w),
    ← pointsTo_biUnion Finset.univ (ℓ := iLoc d) (fun w => (irow w).set) fun _ _ _ _ => Rect.part_disjoint idiv, Rect.biUnion_part idiv]
theorem gWhole_eq (d : Dev nD) (f : Buf (Elt F) (gLoc d)) :
    (gLoc d ↦{fullShare} f : sProp 𝕄) = bigSep Finset.univ fun w : Fin 32 => gLoc d ↦[gSet w]{fullShare} f := by
  rw [show gSet = fun w => (grow w).set from funext fun w => View.set_slice_whole main_v9_scv (grow w),
    ← pointsTo_biUnion Finset.univ (ℓ := gLoc d) (fun w => (grow w).set) fun _ _ _ _ => Rect.part_disjoint gdiv, Rect.biUnion_part gdiv]

-- The three arrays whole, the result array at `f`, are the workers' operands and the rest of `h`'s share: `h` goes out as thirty-two read shares.
theorem split_iff (d : Dev nD) (f : Buf (Elt F) (gLoc d)) :
    (iprop((hLoc d ↦{fullShare} m (hLoc d)) ∗ (iLoc d ↦{fullShare} Iv d) ∗ (gLoc d ↦{fullShare} f)) : sProp 𝕄)
      ⊣⊢ iprop((hLoc d ↦{Transfers.shareDrop fullShare 32} m (hLoc d))
        ∗ bigSep Finset.univ fun c : Fin ((K (F := F)).nCore 0) => bigSep Finset.univ fun i : Fin ((K (F := F)).nSub 0) =>
          (fun w => iprop(iPart Iv d w ∗ hPart m d w ∗ gPart d w f)) (wid (Fin.cast nCore_zero c) (Fin.cast nSub_zero i))) := by
  rw [bigSep_workers (F := F) fun w => iprop(iPart Iv d w ∗ hPart m d w ∗ gPart d w f), bigSep_sep', bigSep_sep', ← iWhole_eq, ← gWhole_eq]
  exact (sep_congr_left (Transfers.pointsTo_toks fullShare 32)).trans (sep_assoc.trans (sep_congr_right sep_left_comm))

theorem st_split (d : Dev nD) :
    iprop((hLoc d ↦{fullShare} m (hLoc d)) ∗ (iLoc d ↦{fullShare} Iv d) ∗ (gLoc d ↦{fullShare} m (gLoc d)))
      ⊢ (iprop((hLoc d ↦{Transfers.shareDrop fullShare 32} m (hLoc d))
          ∗ bigSep Finset.univ fun c : Fin ((K (F := F)).nCore 0) => (P m Iv).st 0 d c) : sProp 𝕄) :=
  (split_iff m Iv d _).1

theorem dn_join (d : Dev nD) :
    iprop((hLoc d ↦{Transfers.shareDrop fullShare 32} m (hLoc d))
        ∗ bigSep Finset.univ fun c : Fin ((K (F := F)).nCore 0) => (P m Iv).dn 0 d c)
      ⊢ (iprop((hLoc d ↦{fullShare} m (hLoc d)) ∗ (iLoc d ↦{fullShare} Iv d) ∗ (gLoc d ↦{fullShare} Gv m Iv d)) : sProp 𝕄) :=
  (split_iff m Iv d _).2

end Cert.Proof.KB

end
-- ==== Proof.B.LaunchElem.lean ====
import proofs.«211965_g16441134809400_cont_sun_m_142_16_alg».proof.Proof.B.Pay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

def u₀ : UU :=
  (initOf (K (F := F)).hsCells (K (F := F)).hsToks, (initOf (Pipeline.cells cfgs cellOf_inj) (Pipeline.launchToks cfgs cellOf_inj), 1))

-- What the launch leaves device `d`'s TensorCore for the dense region.
abbrev GD (d : Dev nD) : sProp 𝕄 :=
  iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => GD (F := F) d)
        ∗ bigSep Finset.univ fun thr : Thread nD τ => bigSep Finset.univ fun q : Fin 1 => (P m Iv).x q thr) := by
  have h := Pipeline.fund_ghost cfgs (EP (F := F)) cellOf_inj
  simp only [bigSep_univ_of_subsingleton (0 : Fin 1), GD] at h ⊢
  rw [show (bigSep Finset.univ fun thr : Thread nD τ => (P (F := F) m Iv).x 0 thr) = iprop(emp) from bigSep_emp_const _]
  unfold u₀
  iintro Hu
  ihave ⟨HH, HR⟩ := (ownU_pair _ _) $$ Hu
  ihave ⟨HP, -⟩ := (own_pair_emb embR _ _) $$ HR
  imod h $$ HP with ⟨Hg, Ht⟩
  imodintro
  iframe

end Cert.Proof.KB

end
-- ==== Proof.B.CallStep.lean ====
import proofs.«211965_g16441134809400_cont_sun_m_142_16_alg».proof.Proof.B.Vals
import proofs.«211965_g16441134809400_cont_sun_m_142_16_alg».proof.Proof.B.Split
import proofs.«211965_g16441134809400_cont_sun_m_142_16_alg».proof.Proof.B.LaunchElem

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)

-- The call takes `h`, the index list and the result array out of the held buffers and puts them back, the result array at the gathered rows.
theorem call_step (κ : GSem nD τ sig → ℕ) (d : Dev nD) (Q : PUnit → sProp 𝕄) :
    iprop((K (F := F)).ctx EH (P m (IvOf m)) κ ∗ (K (F := F)).tcSt EH d 0 ∗ held (T d) (Pipeline.ucRefs τ sig) (W1 m d)
        ∗ ((iprop((K (F := F)).tcSt EH d 1 ∗ held (T d) (Pipeline.ucRefs τ sig) (W2 m d))) -∗ Q ⟨⟩))
      ⊢ wp frame (wpE ((K (F := F)).defs (D (F := F))) 𝒱 (SparseCore.T d) none) Set.univ ((K (F := F)).run d 0) Q := by
  rw [StableHlo.held_sub_split (T d) T3_sub (W1 m d), StableHlo.held_sub_split (T d) T3_sub (W2 m d), held_T3, held_T3, held_rest_W2,
    W1_h, W1_g, W2_h, W2_i, W2_g, show W1 m d i' = IvOf m d from rfl]
  iintro ⟨#Hctx, Hst, ⟨H3, Hrest⟩, HQ⟩
  ihave ⟨Hdrop, Hsts⟩ := (st_split m (IvOf m) d) $$ H3
  iapply ((K (F := F)).wp_run (D (F := F)) 𝒱 (EH := EH) (P := P m (IvOf m)) κ d 0)
  iframe Hctx Hsts
  isplitl [Hst]; · iexact Hst
  iintro ⟨Hst, Hdn⟩
  iapply HQ
  isplitl [Hst]; · iexact Hst
  iframe Hrest
  iapply (dn_join m (IvOf m) d)
  iframe

end Cert.Proof.KB

end
-- ==== Proof.B.DenseOut.lean ====
import proofs.«211965_g16441134809400_cont_sun_m_142_16_alg».proof.Proof.Gen.Kernel.Skeleton

noncomputable section

namespace Cert.Proof.KB

open Cert.Kernel Cert.Kernel.Gen
open Idealize.ShloMosaic

variable {F : FTy → Type} [FloatOps F]

/-- The block the body stores, as a function of the nine blocks it loads. -/
def outD (x h0 h1 : Vec F S4000x128 .f32) (w u0 u1 : Vec F S256x128 .f32) (b : Vec F S1x256 .f32) (v0 v1 : Vec F S128x128 .f32) :
    Vec F S4000x128 .f32 :=
  k1_pay1 (k1_pay6 h0 h1 x w u0 u1 b) (k1_pay7 h0 h1 x w u0 u1 b v0 v1)

end Cert.Proof.KB

end
-- ==== Proof.B.DenseKernel.lean ====
import proofs.«211965_g16441134809400_cont_sun_m_142_16_alg».proof.Proof.B.Setup
import proofs.«211965_g16441134809400_cont_sun_m_142_16_alg».proof.Proof.B.DenseOut
import proofs.«211965_g16441134809400_cont_sun_m_142_16_alg».proof.Proof.Gen.Kernel.Points
import Idealize.ShloMosaic.Lib.Pipeline.FrameBody
import Idealize.ShloMosaic.Lib.Pipeline.Value
import Idealize.ShloMosaic.Lib.Tactic

noncomputable section

namespace Cert.Proof.KB

open Cert.Kernel Cert.Kernel.Gen Idealize.ShloMosaic
open TcCoe Tactic
open SparseCore.Cfg (HIx)
open Idealize.SL Idealize.SL.RA Idealize.SL.BI Idealize.SL.BI.BIBase Idealize.SL.ProofMode Idealize.SL.Sem
open scoped Idealize.SL.BI

variable {F : FTy → Type} [FloatOps F]

local notation "𝕄" => MT nD τ sig (HIx 1) (Elt F) ℕ UU ℕ

theorem zeroOff : (![0, 0] : Fin 2 → Nat) = fun _ => 0 := funext fun a => by fin_cases a <;> rfl

abbrev rRows : Rect S4000x128 := Rect.unit (s := S4000x128) ![0, 0] S4000x128.size inb_S4000x128_S4000x128_0_0
abbrev rGate : Rect S256x128 := Rect.unit (s := S256x128) ![0, 0] S256x128.size inb_S256x128_S256x128_0_0
abbrev rBias : Rect S1x256 := Rect.unit (s := S1x256) ![0, 0] S1x256.size inb_S1x256_S1x256_0_0
abbrev rAgg : Rect S128x128 := Rect.unit (s := S128x128) ![0, 0] S128x128.size inb_S128x128_S128x128_0_0

/-- A load of a whole block reads the block, and one store of a whole block leaves what it stored. -/
theorem canon_outD (x h0 h1 : Vec F S4000x128 .f32) (w u0 u1 : Vec F S256x128 .f32) (b : Vec F S1x256 .f32) (v0 v1 : Vec F S128x128 .f32) :
    (View.canon [⟨rRows, outD (View.ld x rRows) (View.ld h0 rRows) (View.ld h1 rRows) (View.ld w rGate) (View.ld u0 rGate)
      (View.ld u1 rGate) (View.ld b rBias) (View.ld v0 rAgg) (View.ld v1 rAgg)⟩] : Vec F S4000x128 .f32) = outD x h0 h1 w u0 u1 b v0 v1 := by
  rw [View.canon_unit_zero zeroOff]
  simp only [View.ld_unit_zero (S := S4000x128) zeroOff, View.ld_unit_zero (S := S256x128) zeroOff,
    View.ld_unit_zero (S := S1x256) zeroOff, View.ld_unit_zero (S := S128x128) zeroOff]

/-- At a point the body loads its nine input blocks whole and stores one whole block, `outD` of them. -/
theorem sound_kernel1 (c : Dev nD) (t : Fin cfg1.N)
    (x h0 h1 : Vec F S4000x128 .f32) (w u0 u1 : Vec F S256x128 .f32) (b : Vec F S1x256 .f32) (v0 v1 : Vec F S128x128 .f32)
    (K : PUnit → sProp 𝕄) :
    iprop(owns c.tc (st1_0 t) fullShare x ∗ owns c.tc (st1_1 t) fullShare h0 ∗ owns c.tc (st1_2 t) fullShare h1 ∗ owns c.tc (st1_3 t) fullShare w ∗ owns c.tc (st1_4 t) fullShare u0 ∗ owns c.tc (st1_5 t) fullShare u1 ∗ owns c.tc (st1_6 t) fullShare b ∗ owns c.tc (st1_7 t) fullShare v0 ∗ owns c.tc (st1_8 t) fullShare v1 ∗ (∃ d, owns c.tc (st1_9 t) fullShare d)
        ∗ (iprop(owns c.tc (st1_0 t) fullShare x ∗ owns c.tc (st1_1 t) fullShare h0 ∗ owns c.tc (st1_2 t) fullShare h1 ∗ owns c.tc (st1_3 t) fullShare w ∗ owns c.tc (st1_4 t) fullShare u0 ∗ owns c.tc (st1_5 t) fullShare u1 ∗ owns c.tc (st1_6 t) fullShare b ∗ owns c.tc (st1_7 t) fullShare v0 ∗ owns c.tc (st1_8 t) fullShare v1 ∗ owns c.tc (st1_9 t) fullShare (outD x h0 h1 w u0 u1 b v0 v1)) -∗ K ⟨⟩))
      ⊢ wp frame (wpE (defs₀ (F := F)) Variants.none c none) Set.univ (bodyAt1 t) K := by
  rw [← canon_outD]
  unfold bodyAt1
  simp only [cc1__dense_body_eq_skeleton]; unfold cc1__dense_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr; swap; · iexact H10
  ipureintro
  exact View.read_writes_eq_canon _ _ _ fun y =>
    ⟨_, List.mem_singleton_self _, View.mem_set_unit_zero zeroOff inb_S4000x128_S4000x128_0_0 y⟩

end Cert.Proof.KB

end
-- ==== Proof.B.DenseBlocks.lean ====
import proofs.«211965_g16441134809400_cont_sun_m_142_16_alg».proof.Proof.B.Setup
import proofs.«211965_g16441134809400_cont_sun_m_142_16_alg».proof.Proof.Gen.Kernel.Points
import Idealize.ShloMosaic.Lib.Pipeline.FrameBody
import Idealize.ShloMosaic.Lib.Pipeline.Frame

noncomputable section

namespace Cert.Proof.KB

open Cert.Kernel Cert.Kernel.Gen Idealize.ShloMosaic
open SparseCore.Cfg (HIx)
open Pipeline (Dat Window)

variable {F : FTy → Type} [FloatOps F]

theorem idx_rows : ∀ t : Fin cfg1.N, win1_0.index t 0 = t.val ∧ win1_1.index t 0 = t.val
    ∧ win1_2.index t 0 = t.val + 25 ∧ win1_9.index t 0 = t.val := by
  decide +kernel

/-- The points visit row blocks 0..49 of the gathered array's 52, so no block is cut. -/
theorem clip_none : ∀ (w : Fin cfg1.W) (t : Fin cfg1.N) a, (cfg1.win w).clip (cfg1.grid.coords t) a = none := by
  decide +kernel

/-- For `before1`: an input window handed back at the array's block, none of its blocks cut. -/
theorem before_eq_after {c : Dev nD} (dat : Dat τ (Elt F) (HIx 1) ℕ UU ℕ cfg1 c) (w : Fin cfg1.W)
    (hw : (cfg1.win w).isOut = false)
    (hkeep : ∀ t, (cfg1.win w).cut (cfg1.grid.coords t) (dat.after w t) = dat.blockOf w t) (t : Fin cfg1.N) (d) :
    dat.before w t d = dat.after w t := by
  rw [dat.before_in_eq_fetched w hw (fun _ => rfl)
    (fun t t' _ => funext fun a => (clip_none w t a).trans (clip_none w t' a).symm) hkeep t d]
  unfold Dat.fetched
  rw [← hkeep t, Pipeline.fill_of_clip_none w _ (clip_none w t) d (dat.after w t), Window.fill_cut]

end Cert.Proof.KB

end
-- ==== Proof.B.DenseFinal.lean ====
import proofs.«211965_g16441134809400_cont_sun_m_142_16_alg».proof.Proof.B.DenseBlocks
import Idealize.ShloMosaic.Lib.Pipeline.Value
import Idealize.ShloMosaic.Lib.ValueIdx

noncomputable section

namespace Cert.Proof.KB

open Cert.Kernel Cert.Kernel.Gen Idealize.ShloMosaic
open TcCoe
open SparseCore.Cfg (HIx)
open Pipeline (Dat)

variable {F : FTy → Type} [FloatOps F]

theorem lt_N {k : Nat} (h : k < 25) : k < cfg1.N := lt_of_lt_of_eq h N_1.symm

/-- 25 blocks of 4000 rows, one under the other. -/
def tiledRows (c : Dev nD) (G : Fin cfg1.N → Vec F S4000x128 .f32) : Buf (Elt F) ((c : Thread nD τ).loc main_v16) := fun i =>
  G ⟨(i 0).val / 4000, lt_N (by have := ValueIdx.idx2_lt0 i; omega)⟩
    (ValueIdx.ix2 ⟨(i 0).val % 4000, Nat.mod_lt _ (by omega)⟩ (i 1))

/-- `n = 4000·(n / 4000) + n mod 4000`, and `n / 4000 < 25`. -/
theorem cover9 (i : S100000x128.Idx) : ∃ t : Fin cfg1.N, (cfg1.win 9).flush t = true ∧ i ∈ ((cfg1.win 9).blk t).view.set := by
  have := ValueIdx.idx2_lt0 i
  have := ValueIdx.idx2_lt1 i
  obtain ⟨T, hT⟩ : ∃ T : Fin cfg1.N, T.val = (i 0).val / 4000 := ⟨⟨_, lt_N (by omega)⟩, rfl⟩
  refine ⟨T, flush1_9 T, ?_⟩
  show i ∈ ((View.whole main_v16).slice (win1_9.rect T)).set
  rw [View.set_slice_whole, Rect.mem_set_unit]
  have e0 := (idx_rows T).2.2.2
  intro a
  match a with
  | ⟨0, _⟩ => show win1_9.index T 0 * 4000 ≤ (i 0).val ∧ (i 0).val < win1_9.index T 0 * 4000 + 4000; rw [e0, hT]; omega
  | ⟨1, _⟩ => show 0 * 128 ≤ (i 1).val ∧ (i 1).val < 0 * 128 + 128; omega

/-- Row `4000·t + r` of the tiling is row `r` of block `t`. -/
theorem final_of {c : Dev nD} (dat : Dat τ (Elt F) (HIx 1) ℕ UU ℕ cfg1 c) (G : Fin cfg1.N → Vec F S4000x128 .f32)
    (hafter : ∀ t, dat.after 9 t = G t) : dat.arrAt 9 cfg1.N = tiledRows c G :=
  dat.arrAt_eq_of_cover 9 _ (fun t _ => by
    show (cfg1.win 9).cut (grid1.coords t) (dat.after 9 t) = _
    rw [hafter]
    funext y
    have := ValueIdx.idx2_lt0 y
    have h0 : ((((cfg1.win 9).blk t).view.emb y) 0).val = win1_9.index t 0 * 4000 + 1 * (y 0).val := rfl
    rw [(idx_rows t).2.2.2] at h0
    show G t y = tiledRows c G (((cfg1.win 9).blk t).view.emb y)
    unfold tiledRows
    exact (congrArg₂ G (Fin.ext (by show _ / 4000 = _; omega)) ((congrArg₂ ValueIdx.ix2 (Fin.ext (by show _ % 4000 = _; omega))
      (Fin.ext (by show 0 * 128 + 1 * (y 1).val = _; omega))).trans (ValueIdx.eq_ix2 y).symm)).symm) cover9

end Cert.Proof.KB

end
-- ==== Proof.B.DenseBody.lean ====
import proofs.«211965_g16441134809400_cont_sun_m_142_16_alg».proof.Proof.B.DenseKernel
import proofs.«211965_g16441134809400_cont_sun_m_142_16_alg».proof.Proof.B.DenseBlocks
import proofs.«211965_g16441134809400_cont_sun_m_142_16_alg».proof.Proof.B.DenseFinal
import Idealize.ShloMosaic.Lib.ValueIdx

noncomputable section

namespace Cert.Proof.KB

open Cert.Kernel Cert.Kernel.Gen Idealize.ShloMosaic
open TcCoe
open SparseCore.Cfg (HIx)
open Idealize.SL Idealize.SL.RA Idealize.SL.BI Idealize.SL.ProofMode Idealize.SL.Sem
open scoped Idealize.SL.BI
open Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-- Block `t` of `x`: 4000 rows from row `4000·t`. -/
def xBlk (c : Dev nD) (t : Fin 25) : Vec F S4000x128 .f32 := fun y =>
  (V c main_arg0 : S100000x128.Idx → Elt F .f32) (ValueIdx.ix2 ⟨4000 * t.val + (y 0).val, by have := ValueIdx.idx2_lt0 y; omega⟩ (y 1))
/-- Block `t` of the gathered array: the first children's rows. -/
def h0Blk (c : Dev nD) (t : Fin 25) : Vec F S4000x128 .f32 := fun y =>
  (V c main_v9 : S204800x128.Idx → Elt F .f32) (ValueIdx.ix2 ⟨4000 * t.val + (y 0).val, by have := ValueIdx.idx2_lt0 y; omega⟩ (y 1))
/-- Block `25 + t` of the gathered array: the second children's rows. -/
def h1Blk (c : Dev nD) (t : Fin 25) : Vec F S4000x128 .f32 := fun y =>
  (V c main_v9 : S204800x128.Idx → Elt F .f32) (ValueIdx.ix2 ⟨100000 + 4000 * t.val + (y 0).val, by have := ValueIdx.idx2_lt0 y; omega⟩ (y 1))

def outBlk (c : Dev nD) (t : Fin 25) : Vec F S4000x128 .f32 :=
  outD (xBlk V c t) (h0Blk V c t) (h1Blk V c t) (V c main_v10) (V c main_v11) (V c main_v12) (V c main_v13) (V c main_v14) (V c main_v15)

/-- The result after the last point: the 25 stored blocks, one under the other. -/
def finalD (c : Dev nD) : Buf (Elt F) ((c : Thread nD τ).loc main_v16) := tiledRows c (outBlk V c)

def ΦD (c : Dev nD) : sProp 𝕄 :=
  Pipeline.scopedRest (Ix := HIx 1) (Name := ℕ) (U := UU) (Lvl := ℕ) (Val := Elt F) spec1 c

def dat1 (c : Dev nD) : Dat τ (Elt F) (HIx 1) ℕ UU ℕ cfg1 c where
  A w := V c (Pipeline.arrRef spec1 w)
  after w t := match w with
    | ⟨0, _⟩ => xBlk V c t
    | ⟨1, _⟩ => h0Blk V c t
    | ⟨2, _⟩ => h1Blk V c t
    | ⟨3, _⟩ => V c main_v10
    | ⟨4, _⟩ => V c main_v11
    | ⟨5, _⟩ => V c main_v12
    | ⟨6, _⟩ => V c main_v13
    | ⟨7, _⟩ => V c main_v14
    | ⟨8, _⟩ => V c main_v15
    | ⟨9, _⟩ => outBlk V c t
  Φ _ := ΦD c
  q w := if w = 1 then fullShare.left else if w = 2 then fullShare.right else fullShare
  owed _ := 0
  recorded _ := {p : SemLoc sig × HIx 1 | (K (F := F)).lev ((c : Thread nD τ), p.1) p.2 ≤ 8}

theorem A_eq1 (c : Dev nD) (w : Fin cfg1.W) : (dat1 V c).A w = V c (Pipeline.arrRef spec1 w) := rfl
theorem Φ_eq1 (c : Dev nD) (t : Fin (cfg1.N + 1)) : (dat1 V c).Φ t = ΦD (F := F) c := rfl
theorem owed_eq1 (c : Dev nD) (t : Fin (cfg1.N + 1)) : (dat1 V c).owed t = 0 := rfl
theorem rec_eq1 (c : Dev nD) (t : Fin (cfg1.N + 1)) :
    (dat1 V c).recorded t = {p : SemLoc sig × HIx 1 | (K (F := F)).lev ((c : Thread nD τ), p.1) p.2 ≤ 8} := rfl
theorem q_eq1 (c : Dev nD) : (dat1 V c).q 1 = fullShare.left ∧ (dat1 V c).q 2 = fullShare.right
      ∧ ∀ w : Fin cfg1.W, w ≠ 1 → w ≠ 2 → (dat1 V c).q w = fullShare :=
  ⟨rfl, rfl, fun _ h1 h2 => (if_neg h1).trans (if_neg h2)⟩

theorem rowIx {i k r : ℕ} (e : i = k) (h : r = 4000 * k) (v : ℕ) : r + v = i * 4000 + 1 * v := by omega
theorem sameIx (s v : ℕ) : v = 0 * s + 1 * v := by omega

/-- Element `y` of block `k` lies in the array at `k`·size + `y` on each axis. -/
theorem before1 (c : Dev nD) (w : Fin cfg1.W) (hw : (cfg1.win w).isOut = false) (t : Fin cfg1.N) (d) :
    (dat1 V c).before w t d = (dat1 V c).after w t := by
  refine before_eq_after _ w hw (fun t => funext fun y => ?_) t d
  obtain ⟨e0, e1, e2, -⟩ := idx_rows t
  match w with
  | ⟨0, _⟩ => exact congrArg (V c _) (Shape.idx_ext₂ (rowIx e0 rfl _) (sameIx _ _))
  | ⟨1, _⟩ => exact congrArg (V c _) (Shape.idx_ext₂ (rowIx e1 rfl _) (sameIx _ _))
  | ⟨2, _⟩ => exact congrArg (V c _) (Shape.idx_ext₂ (rowIx e2 (by omega) _) (sameIx _ _))
  | ⟨3, _⟩ | ⟨4, _⟩ | ⟨5, _⟩ | ⟨6, _⟩ | ⟨7, _⟩ | ⟨8, _⟩ => exact congrArg (V c _) (Shape.idx_ext₂ (sameIx _ _) (sameIx _ _))
  | ⟨9, _⟩ => cases hw

/-- The body's triple at each point, the invariant and the dues framed. -/
theorem body_obligation1 (c : Dev nD) :
    BodyObligation (dat1 (F := F) V c) (defs₀ (F := F)) Variants.none (none : HIx 1) Set.univ := fun t => by
  rw [bigSep_W1, bigSep_W1]
  simp (disch := exact rfl) only [before1 V c, Φ_eq1]
  rw [show (dat1 V c).owesAt (none : HIx 1) t.succ = (dat1 V c).owesAt (none : HIx 1) t.castSucc from rfl]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%d, H9⟩⟩
  iapply (sound_kernel1 c t ((dat1 V c).after 0 t) ((dat1 V c).after 1 t) ((dat1 V c).after 2 t) ((dat1 V c).after 3 t)
    ((dat1 V c).after 4 t) ((dat1 V c).after 5 t) ((dat1 V c).after 6 t) ((dat1 V c).after 7 t) ((dat1 V c).after 8 t) _)
  iframe H0 H1 H2 H3 H4 H5 H6 H7 H8
  isplitl [H9]; · iexists _; iexact H9
  iintro ⟨H0, H1, H2, H3, H4, H5, H6, H7, H8, H9⟩
  iframe
  iexact H9

theorem final9 (c : Dev nD) : (dat1 V c).arrAt 9 cfg1.N = finalD V c :=
  final_of (dat1 V c) (outBlk V c) fun _ => rfl

end Cert.Proof.KB

end
-- ==== Proof.B.Region.lean ====
import proofs.«211965_g16441134809400_cont_sun_m_142_16_alg».proof.Proof.B.DenseBody
import Idealize.ShloMosaic.Lib.Pipeline.Regions
import Idealize.ShloMosaic.Lib.StableHlo.Run

noncomputable section

namespace Cert.Proof.KB

open Cert.Kernel Cert.Kernel.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

abbrev VW (W : Dev nD → Valuation τ sig (Elt F)) (c : Dev nD) (b : Ref sig .tc) : Buf (Elt F) ((c : Thread nD τ).loc b) :=
  W c (Proc.devRef .tc b)

abbrev adm : (p : Fin 1) → (pcfgs (F := F) p).Adm := fun p => (cfgs p).toPCfg_adm

def pdats (W : Dev nD → Valuation τ sig (Elt F)) :
    (p : Fin 1) → (c : Dev nD) → Dat τ (Elt F) (HIx 1) ℕ UU ℕ (Pipeline.pin (pcfgs (F := F)) adm p) c
  | ⟨0, _⟩ => fun c => dat1 (VW W) c

-- The buffers when the region is left: the result array at what the points wrote, the others as entered.
def Wout (W : Dev nD → Valuation τ sig (Elt F)) (c : Dev nD) : Valuation τ sig (Elt F) :=
  Function.update (W c) (Proc.devRef .tc main_v16) (finalD (VW W) c)

abbrev tcOwes (c : Dev nD) : sProp 𝕄 :=
  iprop(∃ Wt, ⌜(K (F := F)).WBelow (T c) Wt 8⌝ ∗ owes (T c) (0 : CellTallies nD τ sig (HIx 1)) Wt)

-- The thread state around the region, at the buffers' contents `W`.
abbrev regPre (W : Dev nD → Valuation τ sig (Elt F)) (c : Dev nD) : sProp 𝕄 :=
  iprop(StableHlo.held (T c) (Pipeline.ucRefs τ sig) (W c) ∗ tcOwes (F := F) c)

variable (W : Dev nD → Valuation τ sig (Elt F)) (V : (c : Dev nD) → (b : Ref sig .tc) → Buf (Elt F) ((c : Thread nD τ).loc b)) (c : Dev nD)

-- The buffers behind the windows are the windows' arrays: the full share of the array two windows read is its two halves.
theorem arrays_iff (V' : (b : Ref sig .tc) → Buf (Elt F) ((c : Thread nD τ).loc b)) :
    (Pipeline.arrBufs (Ix := HIx 1) (Name := ℕ) (U := UU) (Lvl := ℕ) spec1 c V' : sProp 𝕄)
      ⊣⊢ (dat1 V c).arrays fun w => V' (Pipeline.arrRef spec1 w) := by
  obtain ⟨h1, h2, hq⟩ := q_eq1 V c
  unfold Pipeline.arrBufs Pipeline.Dat.arrays
  rw [show Finset.univ.image (Pipeline.arrRef spec1) = insert main_v9 ((Finset.univ \ {1, 2}).image (Pipeline.arrRef spec1)) by decide,
    SparseCore.bigSep_insert' (by decide), bigSep_image_of_injOn (by decide), bigSep_sdiff_split (Finset.subset_univ {1, 2}),
    SparseCore.bigSep_insert' (by decide), bigSep_singleton, (arr_whole1 1).set_eq_univ,
    show (dat1 V c).share 1 = fullShare.left from h1, show (dat1 V c).share 2 = fullShare.right from h2]
  refine sep_congr (pointsTo_share (PosShare.mem_left_op_right fullShare)) (.of_eq (bigSep_congr fun w hw => ?_))
  have hn : w ≠ 1 ∧ w ≠ 2 := by constructor <;> rintro rfl <;> exact absurd hw (by decide)
  rw [(arr_whole1 w).set_eq_univ, show (dat1 V c).share w = fullShare from ite_eq_left_iff.2 fun _ => hq w hn.1 hn.2]

theorem VW_Wout (b : Ref sig .tc) (hb : b ≠ main_v16) : VW (Wout W) c b = VW W c b := by
  unfold Wout; exact Function.update_of_ne (StableHlo.devRef_ne_of_ne hb) _ _

-- When the region is left every input's array is as entered and the result array holds what the points wrote.
theorem arrAt_last : ((dat1 (VW W) c).arrAt · cfg1.N) = fun w => VW (Wout W) c (Pipeline.arrRef spec1 w) := by
  have hin : ∀ w : Fin 10, w ≠ 9 → (cfg1.win w).isOut = false ∧ Pipeline.arrRef spec1 w ≠ main_v16 := by decide
  funext w
  by_cases hw : w = 9
  · subst hw; rw [final9]; symm; exact Function.update_self _ _ _
  · rw [(dat1 (VW W) c).arrAt_in w (hin w hw).1, A_eq1, VW_Wout W c _ (hin w hw).2]

theorem unscopedRest_Wout :
    (Pipeline.unscopedRest (Ix := HIx 1) (Name := ℕ) (U := UU) (Lvl := ℕ) spec1 c (VW (Wout W) c) : sProp 𝕄)
      = Pipeline.unscopedRest spec1 c (VW W c) :=
  bigSep_congr fun b hb => by
    rw [VW_Wout W c b fun e => (Finset.mem_sdiff.mp hb).2 (Finset.mem_image.mpr ⟨9, Finset.mem_univ _, e.symm⟩)]

-- The TensorCore's buffers at contents `X`: the windows' arrays at `X`, and the buffers no window reads.
theorem held_iff (X : Dev nD → Valuation τ sig (Elt F)) :
    (StableHlo.held (T c) (Pipeline.ucRefs τ sig) (X c) : sProp 𝕄)
      ⊣⊢ iprop((dat1 V c).arrays (fun w => VW X c (Pipeline.arrRef spec1 w)) ∗ Pipeline.unscopedRest spec1 c (VW X c)) := by
  rw [← Pipeline.unscopedBufs_held (Ix := HIx 1) (Name := ℕ) (U := UU) (Lvl := ℕ) c (X c),
    Pipeline.unscopedBufs_split₀ cfgs 0 winFacts₀1.arr_unscoped c _]
  exact sep_congr_left (arrays_iff V c _)

-- Around the region the TensorCore owes nothing, which is all that any point of the region asks of it.
theorem owes_iff (t : Fin (cfg1.N + 1)) : (tcOwes (F := F) c : sProp 𝕄) ⊣⊢ (dat1 V c).owesAt (none : HIx 1) t := by
  unfold Pipeline.Dat.owesAt Pipeline.owesWithin Pipeline.Dat.bound
  rw [owed_eq1, rec_eq1]
  exact exists_congr fun Wt => sep_congr_left (pure_congr
    ⟨fun h p hp => .inl (h p hp), fun h p hp => (h hp).elim id fun ⟨w, s, e⟩ => by subst e; exact Nat.zero_le _⟩)

set_option backward.isDefEq.respectTransparency.types false in
def regD : Pipeline.RegionSeg (pcfgs (F := F)) adm (pdats W) (none : HIx 1) defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation1 (VW W) c).loose
  hwaits := Pipeline.hwaits_of_owed_zero _ _ _ _ (K (F := F)).L (K (F := F)).lev 0 fun _ _ => rfl
  pre := regPre W
  post := regPre (Wout W)
  X _ := BI.emp
  Y _ := BI.emp
  Z c := Pipeline.unscopedRest (Ix := HIx 1) (Name := ℕ) (U := UU) (Lvl := ℕ) spec1 c (VW W c)
  hentry c := by
    show iprop(regPre W c ∗ _) ⊢ |={Set.univ}=> iprop((dat1 (VW W) c).arrays ((dat1 (VW W) c).arrAt · 0) ∗ BI.emp ∗ (dat1 (VW W) c).owesAt (none : HIx 1) 0 ∗ _ ∗ _)
    rw [show ((dat1 (VW W) c).arrAt · 0) = fun w => VW W c (Pipeline.arrRef spec1 w) from funext (A_eq1 (VW W) c)]
    iintro ⟨⟨Hub, HO⟩, -⟩
    ihave ⟨Ha, Hr⟩ := (held_iff (VW W) c W).1 $$ Hub
    ihave HO := (owes_iff (VW W) c 0).1 $$ HO
    imodintro
    iframe
    isplitr <;> iempintro
  hin c := by
    show _ ⊢ ΦD (F := F) c
    unfold ΦD
    iintro ⟨-, -, Hr⟩
    iexact Hr
  hout c := by
    show ΦD (F := F) c ⊢ _
    unfold ΦD
    rw [Pipeline.ownSems0_none]
    iintro Hr
    iframe
    isplitr <;> iempintro
  hexit c := by
    show iprop((dat1 (VW W) c).arrays ((dat1 (VW W) c).arrAt · cfg1.N) ∗ (dat1 (VW W) c).owesAt (none : HIx 1) (Fin.last cfg1.N) ∗ _ ∗ _) ⊢ |={Set.univ}=> iprop(StableHlo.held _ _ (Wout W c) ∗ tcOwes c)
    rw [arrAt_last, ← unscopedRest_Wout]
    iintro ⟨Ha, HO, -, Hr⟩
    ihave HO := (owes_iff (VW W) c _).2 $$ HO
    imodintro
    iframe
    iapply (held_iff (VW W) c (Wout W)).2
    iframe

end Cert.Proof.KB

end
-- ==== Proof.B.RegionStep.lean ====
import proofs.«211965_g16441134809400_cont_sun_m_142_16_alg».proof.Proof.B.Region
import proofs.«211965_g16441134809400_cont_sun_m_142_16_alg».proof.Proof.B.LaunchElem

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

abbrev regionCall : Prog (TpuEff nD τ sig (Elt F) (ΛP (F := F)) .tc) PUnit :=
  .op (.customCall (Pipeline.entry (0 : Fin 1)) ()) fun _ => .ret ⟨⟩

-- The region's call, as @main spells it, runs from the thread state around the region at `W` to the one at `Wout W`.
theorem region_step [∀ e, Nonempty (Elt F e)] (W : Dev nD → Valuation τ sig (Elt F)) (d : Dev nD) (Q : PUnit → sProp 𝕄) :
    iprop(boundary (T d) ∗ regPre W d ∗ levAts (K (F := F)).L (K (F := F)).lev ∗ GD (F := F) d ∗ (regPre (Wout W) d -∗ Q ⟨⟩))
      ⊢ wp frame (wpE ((K (F := F)).defs (D (F := F))) 𝒱 (SparseCore.T d) none) Set.univ
          (Prog.lift (.customCall (SparseCore.inner (Pipeline.entry (0 : Fin 1))) ()) >>= fun _ => pure ⟨⟩) Q := by
  refine .trans ?_ ((K (F := F)).wp_liftProg (D (F := F)) 𝒱 (T d) Set.univ none (regionCall (F := F)) Q)
  set_option backward.isDefEq.respectTransparency.types false in
  have key := Pipeline.RegionSeg.wp (pcfgs (F := F)) adm (pdats W) (none : HIx 1) cellOf_inj (EP (F := F)) defs₀ 𝒱₀
    (K (F := F)).L (K (F := F)).lev (regD W) d none (fun u hu => by cases hu) (fun _ => .ret ⟨⟩) Q
  set_option backward.isDefEq.respectTransparency.types false in
  refine .trans ?_ key
  show _ ⊢ iprop((iprop(_ ∗ regPre (Wout W) d) -∗ _) ∗ _ ∗ regPre W d ∗ _)
  iintro ⟨Hb, Hpre, #Hlev, ⟨Hg, Ht⟩, HQ⟩
  iframe Hb Hpre Hlev Hg Ht
  iintro ⟨-, Hpost⟩
  rw [wp_ret]
  imodintro
  iapply HQ; iexact Hpost

end Cert.Proof.KB

end
-- ==== Proof.B.Main.lean ====
import proofs.«211965_g16441134809400_cont_sun_m_142_16_alg».proof.Proof.B.Vals
import proofs.«211965_g16441134809400_cont_sun_m_142_16_alg».proof.Proof.B.CallStep
import proofs.«211965_g16441134809400_cont_sun_m_142_16_alg».proof.Proof.B.RegionStep

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

abbrev W4 (d : Dev nD) : Valuation τ sig (Elt F) := Wout (fun d => W3 m d) d

-- What @main leaves: the TensorCore's buffers at the contents the dense region leaves.
abbrev FIN (d : Dev nD) : sProp 𝕄 := held (T d) (Pipeline.ucRefs τ sig) (W4 m d)

-- @main on the TensorCore: a host stretch, the SparseCore call, a host stretch, the dense region.
theorem hmain [∀ e, Nonempty (Elt F e)] (κ : GSem nD τ sig → ℕ) (d : Dev nD) :
    iprop((K (F := F)).ctx EH (P m (IvOf m)) κ ∗ (K (F := F)).tcSt EH d 0 ∗ (K (F := F)).tcRes m ρ d ∗ GD (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  iapply (StableHlo.wp_seq 𝒱 none Set.univ d (Pipeline.ucRefs τ sig) _ opsA opsA_sub opsA_fresh (W0 m d)) $$ [Hb Hheld]
  · iframe
  iintro ⟨Hb, Hheld⟩
  rw [wp_bind]
  iapply (call_step m κ d _)
  iframe Hctx Hst Hheld
  iintro ⟨Hst, Hheld⟩
  iapply (StableHlo.wp_seq 𝒱 none Set.univ d (Pipeline.ucRefs τ sig) _ opsB opsB_sub opsB_fresh (W2 m d)) $$ [Hb Hheld]
  · iframe
  iintro ⟨Hb, Hheld⟩
  unfold SparseCore.Cfg.tcSt
  rw [(K (F := F)).Otc_end d le_rfl]
  icases Hst with ⟨HO, Hhs⟩
  ihave Hlev := (SparseCore.Cfg.ctx_levAts κ) $$ Hctx
  iapply (region_step (fun d => W3 m d) d _)
  iframe Hb Hlev HG
  isplitl [Hheld HO]
  · isplitl [Hheld] <;> iassumption
  iintro ⟨Hheld, HO⟩
  iframe Hheld
  isplitl [HO] <;> iassumption

end Cert.Proof.KB

end
-- ==== Proof.B.TileBody.lean ====
import proofs.«211965_g16441134809400_cont_sun_m_142_16_alg».proof.Proof.B.Pay
import proofs.«211965_g16441134809400_cont_sun_m_142_16_alg».proof.Proof.Gen.Kernel.Skeleton
import Idealize.ShloMosaic.Lib.SparseCore.Ops
import Idealize.ShloMosaic.Lib.SparseCore.Stream
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev InW (off : Fin 1 → Nat) : Prop := ∀ a, off a + S128.size a ≤ S6400.size a
abbrev InC (off : Fin 2 → Nat) : Prop := ∀ a, off a + S128x128.size a ≤ S204800x128.size a

/-- The indices whose key lies in `lo … hi`. -/
def band {ι : Type} [Fintype ι] (key : ι → Nat) (lo hi : Nat) : Finset ι := Finset.univ.filter fun j => lo ≤ key j ∧ key j < hi

theorem mem_band {ι : Type} [Fintype ι] {key : ι → Nat} {lo hi : Nat} {j : ι} : j ∈ band key lo hi ↔ lo ≤ key j ∧ key j < hi := by
  simp [band]

/-- A family of index sets that behaves as the intervals of a line do. -/
structure IsBand {ι : Type} [DecidableEq ι] (I : Nat → Nat → Finset ι) : Prop where
  union : ∀ {lo mid hi : Nat}, lo ≤ mid → mid ≤ hi → I lo hi = I lo mid ∪ I mid hi
  disj : ∀ {lo mid hi : Nat}, Disjoint (I lo mid) (I mid hi)
  nil : ∀ {a b : Nat}, b ≤ a → I a b = ∅

theorem band_isBand {ι : Type} [Fintype ι] [DecidableEq ι] (key : ι → Nat) : IsBand (band key) where
  union h1 h2 := by ext j; simp only [Finset.mem_union, mem_band]; omega
  disj := by intro lo mid hi; rw [Finset.disjoint_left]; intro j a b; rw [mem_band] at a b; omega
  nil h := by ext j; simp only [mem_band, Finset.notMem_empty, iff_false]; omega

section Band

variable {ℓ : Loc nD τ sig} {I : Nat → Nat → Finset (Idx ℓ)} (hI : IsBand I) (f : Buf (Elt F) ℓ)
include hI

/-- A band held whole is its two halves held apart. -/
theorem band_split {lo mid hi : Nat} (h1 : lo ≤ mid) (h2 : mid ≤ hi) :
    (ℓ ↦[I lo hi]{fullShare} f : sProp 𝕄) = iprop((ℓ ↦[I lo mid]{fullShare} f) ∗ (ℓ ↦[I mid hi]{fullShare} f)) := by
  have h : (ℓ ↦[_]{fullShare} f : sProp 𝕄) ⊣⊢ _ := pointsTo_union (hI.disj (lo := lo) (mid := mid) (hi := hi))
  rw [hI.union h1 h2]; exact BI.equiv_iff.mp ⟨h.1, h.2⟩

theorem band_empty {a b : Nat} (h : b ≤ a) : (ℓ ↦[I a b]{fullShare} f : sProp 𝕄) = iprop(emp) := by
  rw [hI.nil h, pointsTo_empty]

/-- Five consecutive stretches of 128 off the front of a band. -/
theorem band_split5 {a hi a1 a2 a3 a4 a5 : Nat} (h1 : a + 128 = a1) (h2 : a + 256 = a2) (h3 : a + 384 = a3) (h4 : a + 512 = a4)
    (h5 : a + 640 = a5) (h : a5 ≤ hi) :
    (ℓ ↦[I a hi]{fullShare} f : sProp 𝕄)
      = iprop((ℓ ↦[I a a1]{fullShare} f) ∗ (ℓ ↦[I a1 a2]{fullShare} f) ∗ (ℓ ↦[I a2 a3]{fullShare} f)
          ∗ (ℓ ↦[I a3 a4]{fullShare} f) ∗ (ℓ ↦[I a4 a5]{fullShare} f) ∗ (ℓ ↦[I a5 hi]{fullShare} f)) := by
  subst h1 h2 h3 h4 h5
  rw [band_split hI f (mid := a + 128) (by omega) (by omega), band_split hI f (lo := a + 128) (mid := a + 256) (by omega) (by omega),
    band_split hI f (lo := a + 256) (mid := a + 384) (by omega) (by omega), band_split hI f (lo := a + 384) (mid := a + 512) (by omega) (by omega),
    band_split hI f (lo := a + 512) (mid := a + 640) (by omega) h]

/-- Five consecutive stretches of 128 onto the back of a band. -/
theorem band_join5 {b a a1 a2 a3 a4 a5 : Nat} (hb : b ≤ a) (h1 : a + 128 = a1) (h2 : a + 256 = a2) (h3 : a + 384 = a3) (h4 : a + 512 = a4)
    (h5 : a + 640 = a5) :
    (iprop((ℓ ↦[I b a]{fullShare} f) ∗ (ℓ ↦[I a a1]{fullShare} f) ∗ (ℓ ↦[I a1 a2]{fullShare} f)
          ∗ (ℓ ↦[I a2 a3]{fullShare} f) ∗ (ℓ ↦[I a3 a4]{fullShare} f) ∗ (ℓ ↦[I a4 a5]{fullShare} f)) : sProp 𝕄)
      = (ℓ ↦[I b a5]{fullShare} f) := by
  subst h1 h2 h3 h4 h5
  rw [band_split hI f (lo := b) (mid := a) (hi := a + 640) hb (by omega), band_split hI f (lo := a) (mid := a + 128) (hi := a + 640) (by omega) (by omega),
    band_split hI f (lo := a + 128) (mid := a + 256) (hi := a + 640) (by omega) (by omega), band_split hI f (lo := a + 256) (mid := a + 384) (hi := a + 640) (by omega) (by omega),
    band_split hI f (lo := a + 384) (mid := a + 512) (hi := a + 640) (by omega) (by omega)]

/-- The same, the five stretches given as sets equal to them. -/
theorem band_join5' {b a a5 : Nat} {s0 s1 s2 s3 s4 : Finset (Idx ℓ)} (hb : b ≤ a) (h5 : a + 640 = a5) (e0 : s0 = I a (a + 128))
    (e1 : s1 = I (a + 128) (a + 256)) (e2 : s2 = I (a + 256) (a + 384)) (e3 : s3 = I (a + 384) (a + 512)) (e4 : s4 = I (a + 512) a5) :
    (iprop((ℓ ↦[I b a]{fullShare} f) ∗ (ℓ ↦[s0]{fullShare} f) ∗ (ℓ ↦[s1]{fullShare} f) ∗ (ℓ ↦[s2]{fullShare} f) ∗ (ℓ ↦[s3]{fullShare} f)
      ∗ (ℓ ↦[s4]{fullShare} f)) : sProp 𝕄) = (ℓ ↦[I b a5]{fullShare} f) := by
  subst e0 e1 e2 e3 e4; exact band_join5 hI f hb rfl rfl rfl rfl h5

end Band

section Tile

variable (d : Dev nD) (L : grid0.Coords)

abbrev VT (d : Dev nD) (L : grid0.Coords) : Thread nD τ := V d (cV L) (jV L)

local notation "hV" => (Memref.whole main_arg1_scv : Memref sig Kind.scVector Space.hbm S100000x128 EltTy.f32)
local notation "iV" => (Memref.whole main_v8_scv : Memref sig Kind.scVector Space.hbm S204800 EltTy.i32)
local notation "gV" => (Memref.whole main_v9_scv : Memref sig Kind.scVector Space.hbm S204800x128 EltTy.f32)
local notation "sV" => (Memref.whole cc0_scratch0 : Memref sig Kind.scVector Space.vmem S6400 EltTy.i32)
local notation "bV1" => (Memref.whole cc0_scratch1 : Memref sig Kind.scVector Space.vmem S128x128 EltTy.f32)
local notation "bV2" => (Memref.whole cc0_scratch2 : Memref sig Kind.scVector Space.vmem S128x128 EltTy.f32)
local notation "bV3" => (Memref.whole cc0_scratch3 : Memref sig Kind.scVector Space.vmem S128x128 EltTy.f32)
local notation "bV4" => (Memref.whole cc0_scratch4 : Memref sig Kind.scVector Space.vmem S128x128 EltTy.f32)
local notation "bV5" => (Memref.whole cc0_scratch5 : Memref sig Kind.scVector Space.vmem S128x128 EltTy.f32)

abbrev sLoc : Loc nD τ sig := (sV).view.loc (VT d L)
abbrev irowK (L : grid0.Coords) : Rect S204800 := Rect.unit (s := S204800) (k0_off1 L) S6400.size (k0_off1_inb L)
abbrev iRowK (L : grid0.Coords) : Memref sig .scVector .hbm S6400 .i32 := (iV).slice (irowK L) (fun _ => rfl)

theorem irowK_eq : irowK L = irow (wL L) := by
  unfold irowK irow Rect.part Rect.block
  congr 1 <;> funext a
  · rw [k0_off1_eq]
    obtain rfl : a = 0 := Subsingleton.elim _ _
    show 12800 * (L 1).val + 6400 * (L 0).val = (2 * (L 1).val + (L 0).val) * (204800 / 32)
    omega
  · obtain rfl : a = 0 := Subsingleton.elim _ _
    simp [Shape.partSize]

theorem set_iRowK : (iRowK L).view.set = iSet (wL L) := by
  show ((iV).view.slice (irowK L)).set = ((iV).view.slice (irow (wL L))).set
  exact irowK_eq L ▸ rfl

theorem pts_iRowK (f : Buf (Elt F) (iLoc d)) :
    ((iRowK L).view.loc (VT d L) ↦[(iRowK L).view.set]{fullShare} f : sProp 𝕄) = iLoc d ↦[iSet (wL L)]{fullShare} f := by
  rw [set_iRowK]
theorem pts_hV (q : PosShare TreeShare) (f : Buf (Elt F) (hLoc d)) :
    ((hV).view.loc (VT d L) ↦{q} f : sProp 𝕄) = hLoc d ↦{q} f := rfl
theorem pts_scr (r : Ref sig .scVector) (f : Buf (Elt F) ((VT d L).loc r)) :
    ((Memref.whole r).view.loc (VT d L) ↦[(Memref.whole r).view.set]{fullShare} f : sProp 𝕄) = (VT d L).loc r ↦{fullShare} f := by
  rw [View.set_whole]

abbrev csem (k : Nat) (hk : k < 25 := by decide) : DmaSem sig := ⟨k, hk⟩
abbrev dcell (d : Dev nD) (c : Fin τ.nSC) (i : Fin τ.nSub) (k : Fin 11) : GSem nD τ sig :=
  (V d c i, .dma (csem k.val (Nat.lt_trans k.isLt (by decide))))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 11)) = {0, 1, 2, 3, 4, 5, 6, 7, 8, 9, 10} by decide]
  repeat rw [SparseCore.bigSep_insert' (by decide)]
  rw [bigSep_singleton]
  rfl

def scr : Fin 6 → Ref sig .scVector
  | 0 => cc0_scratch0 | 1 => cc0_scratch1 | 2 => cc0_scratch2 | 3 => cc0_scratch3 | 4 => cc0_scratch4 | 5 => cc0_scratch5
theorem scr_injective : Function.Injective scr := by decide

theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f))
          ∗ bigSep ((ownRefs (τ := τ) (.scVector (cV L) (jV L))) \ Finset.univ.image fun k => (Proc.scVector (cV L) (jV L)).devRef (scr k))
              fun b => iprop(∃ f, ((d, b) : Loc nD τ sig) ↦{fullShare} f)) := by
  unfold SparseCore.Cfg.ownBufs
  rw [SparseCore.bigSep_sdiff_split' (t := Finset.univ.image fun k => (Proc.scVector (cV L) (jV L)).devRef (scr k))
      (Finset.image_subset_iff.mpr fun k _ => by
        fin_cases k <;> exact SparseCore.Cfg.mem_ownRefs_of_owner (p := Proc.scVector (cV L) (jV L)) rfl),
    SparseCore.bigSep_image_of_injOn (fun a _ b _ h => scr_injective (Proc.devRef_injective _ h))]
  rw [show (Finset.univ : Finset (Fin 6)) = {0, 1, 2, 3, 4, 5} by decide]
  repeat rw [SparseCore.bigSep_insert' (by decide)]
  rw [bigSep_singleton]
  rfl

theorem hToks (q : PosShare TreeShare) (f : Buf (Elt F) (hLoc d)) :
    (hLoc d ↦{q} f : sProp 𝕄) ⊣⊢ iprop((hLoc d ↦{Transfers.shareDrop q 5} f) ∗ (hLoc d ↦{Transfers.shareTokN q 0} f) ∗ (hLoc d ↦{Transfers.shareTokN q 1} f)
      ∗ (hLoc d ↦{Transfers.shareTokN q 2} f) ∗ (hLoc d ↦{Transfers.shareTokN q 3} f) ∗ (hLoc d ↦{Transfers.shareTokN q 4} f)) := by
  have h : (hLoc d ↦{q} f : sProp 𝕄) ⊣⊢ iprop((hLoc d ↦{Transfers.shareDrop q 5} f) ∗ bigSep (Finset.range 5) fun i => hLoc d ↦{Transfers.shareTokN q i} f) :=
    Transfers.pointsTo_toks_range (ℓ := hLoc d) (S := Finset.univ) (f := f) q 5
  rw [show Finset.range 5 = {0, 1, 2, 3, 4} by decide] at h
  repeat rw [SparseCore.bigSep_insert' (by decide)] at h
  rwa [bigSep_singleton] at h

abbrev PAYI : S6400.Idx → Elt F .i32 := ReadAs.same.apply ((iRowK L).view.read (Elt F) (Iv d))

theorem PAYI_apply (x : S6400.Idx) : PAYI Iv d L x = Iv d ((iRowK L).view.emb x) :=
  (View.read_apply _ _).trans (cast_eq _ _)

/-- A word of a window of the index buffer, once a whole payload has been written over it, is the payload's word there. -/
theorem read_win (g0 : Buf (Elt F) (sLoc d L)) (pay : S6400.Idx → Elt F .i32)
    (off : Fin 1 → Nat) (hk : InW off) (hs : ∀ a, (Rect.unit (s := S6400) off S128.size hk).stride a = 1) (x) :
    View.read (Elt F) ((sV).slice (Rect.unit (s := S6400) off S128.size hk) hs).view
      ((sV).view.writes (Elt F) g0 [⟨Rect.whole cc0_scratch0.ty.shape, pay⟩]) x = pay ((Rect.unit (s := S6400) off S128.size hk).emb x) := by
  refine Eq.trans (b := View.read (Elt F) (sV).view ((sV).view.writes (Elt F) g0 [⟨Rect.whole cc0_scratch0.ty.shape, pay⟩])
    ((Rect.unit (s := S6400) off S128.size hk).emb x)) (by rw [View.read_apply, View.read_apply]; rfl) ?_
  rw [View.read_writes_whole]

theorem idx_inb (hpre : PreOK Iv) (g0 : Buf (Elt F) (sLoc d L)) (pay : S6400.Idx → Elt F .i32) (hpay : pay = PAYI Iv d L)
    (off : Fin 1 → Nat) (hk : InW off) (hs : ∀ a, (Rect.unit (s := S6400) off S128.size hk).stride a = 1) :
    ∀ x, (View.read (Elt F) ((sV).slice (Rect.unit (s := S6400) off S128.size hk) hs).view
      ((sV).view.writes (Elt F) g0 [⟨Rect.whole cc0_scratch0.ty.shape, pay⟩]) x).toNat < 100000 := by
  subst hpay; intro x
  rw [read_win, PAYI_apply]
  exact hpre d _

abbrev rowsSet (lo hi : Nat) : Finset S204800x128.Idx := band (fun j => (j 0).val) lo hi
abbrev posSet (lo hi : Nat) : Finset S6400.Idx := band (fun x => (x 0).val) lo hi
theorem rowsB : IsBand (ι := Idx (gLoc d)) rowsSet := band_isBand _
theorem posB : IsBand (ι := Idx (sLoc d L)) posSet := band_isBand _

theorem rows_congr {lo hi lo' hi' : Nat} (f : Buf (Elt F) (gLoc d)) (h1 : lo = lo') (h2 : hi = hi') :
    (gLoc d ↦[rowsSet lo hi]{fullShare} f : sProp 𝕄) = (gLoc d ↦[rowsSet lo' hi']{fullShare} f) := by subst h1 h2; rfl
theorem mem_rowsSet {lo hi : Nat} {j : S204800x128.Idx} : j ∈ rowsSet lo hi ↔ lo ≤ (j 0).val ∧ (j 0).val < hi := mem_band
theorem mem_posSet {lo hi : Nat} {x : S6400.Idx} : x ∈ posSet lo hi ↔ lo ≤ (x 0).val ∧ (x 0).val < hi := mem_band

abbrev hSl : Memref sig .scVector .hbm S100000x128 .f32 :=
  (hV).slice (Rect.unit (s := S100000x128) ![0, 0] S100000x128.size inb_S100000x128_S100000x128_0_0) (fun _ => rfl)
abbrev sWin (off : Fin 1 → Nat) (hk : InW off) : Memref sig .scVector .vmem S128 .i32 :=
  (sV).slice (Rect.unit (s := S6400) off S128.size hk) (fun _ => rfl)
abbrev gCh (off : Fin 2 → Nat) (hk : InC off) : Memref sig .scVector .hbm S128x128 .f32 :=
  (gV).slice (Rect.unit (s := S204800x128) off S128x128.size hk) (fun _ => rfl)
abbrev fS : Buf (Elt F) (sLoc d L) :=
  (sV).view.writes (Elt F) (sV).view.junk [⟨Rect.whole cc0_scratch0.ty.shape, PAYI Iv d L⟩]

abbrev gPay (hpre : PreOK Iv) (off : Fin 1 → Nat) (hk : InW off) : S128x128.Idx → Elt F .f32 :=
  SparseCore.gatherPayload gathers_S100000x128_S128x128 ((hSl).view.read (Elt F) (m (hLoc d)))
    (SparseCore.rows ((sWin off hk).view.read (Elt F) (fS Iv d L)) rfl
      (idx_inb Iv d L hpre _ _ rfl off hk (fun _ => rfl)))

abbrev gFl (c : Nat) (hc : c < 25) (bV : Memref sig .scVector .vmem S128x128 .f32) (cont : Buf (Elt F) (bV.view.loc (VT d L)))
    (off : Fin 1 → Nat) (hk : InW off) : sProp 𝕄 :=
  Transfers.Flight countersEmb (VT d L) (SemLoc.dma (csem c hc)) (default : HIx 1) 524288
    iprop(((bV.view.loc (VT d L) ↦[bV.view.set]{fullShare} cont)
        ∗ (sLoc d L ↦[(sWin off hk).view.set]{fullShare} fS Iv d L))
      ∗ ((hV).view.loc (VT d L) ↦[(hSl).view.set]{Transfers.shareTokN (hq (wL L)) c} m (hLoc d)))

abbrev cFl (c : Nat) (hc : c < 25) (bV : Memref sig .scVector .vmem S128x128 .f32) (cont : Buf (Elt F) (bV.view.loc (VT d L))) (lo hi : Nat) : sProp 𝕄 :=
  Transfers.Flight countersEmb (VT d L) (SemLoc.dma (csem c hc)) (default : HIx 1) 524288
    iprop((gLoc d ↦[rowsSet lo hi]{fullShare} Gv m Iv d) ∗ (bV.view.loc (VT d L) ↦[bV.view.set]{fullShare} cont))

theorem winInb (k b : Nat) (hb : b < 5) : InW ![640 * (k % 10) + 128 * b] := by
  intro a; obtain rfl : a = 0 := Subsingleton.elim _ _
  show 640 * (k % 10) + 128 * b + 128 ≤ 6400
  omega

theorem vec1_eq (off : Fin 1 → Nat) (n : Nat) (h : off 0 = n) : off = ![n] := by
  funext a; obtain rfl : a = 0 := Subsingleton.elim _ _; exact h

/-- Chunk `5k + r` is being gathered into the row buffer `bV`: the rows of `h` its index words name. -/
abbrev gIn (hpre : PreOK Iv) (bV : Memref sig .scVector .vmem S128x128 .f32) (k r : Nat) (hr : r < 5) : sProp 𝕄 :=
  iprop(∃ c, gFl m Iv d L r (by omega) bV c ![640 * (k % 10) + 128 * r] (winInb k r hr)
    ∗ ⌜bV.view.read (Elt F) c = gPay m Iv d L hpre ![640 * (k % 10) + 128 * r] (winInb k r hr)⌝)

theorem gIn_intro (hpre : PreOK Iv) (bV : Memref sig .scVector .vmem S128x128 .f32) (g0 : Buf (Elt F) (bV.view.loc (VT d L))) (k r : Nat) (hr : r < 5)
    (off : Fin 1 → Nat) (hk : InW off) (ho : off 0 = 640 * (k % 10) + 128 * r) :
    gFl m Iv d L r (by omega) bV (bV.view.writes (Elt F) g0 [⟨Rect.whole S128x128, gPay m Iv d L hpre off hk⟩]) off hk
      ⊢ gIn m Iv d L hpre bV k r hr := by
  obtain rfl := vec1_eq off _ ho
  iintro H; iexists _; isplitl [H]; · iexact H
  ipureintro; exact View.read_writes_whole _ _ _

theorem rect_rows (off : Fin 2 → Nat) (hk : InC off) (h1 : off 1 = 0) :
    (Rect.unit (s := S204800x128) off S128x128.size hk).set = rowsSet (off 0) (off 0 + 128) := by
  ext j
  rw [Rect.mem_set_unit, mem_rowsSet]
  have hj1 : (j 1).val < 128 := (j 1).isLt
  constructor
  · intro h; exact h 0
  · intro h a
    match a with
    | 0 => exact h
    | 1 => exact ⟨by rw [h1]; exact Nat.zero_le _, by rw [h1]; show (j 1).val < 0 + 128; omega⟩
theorem set_gCh (off : Fin 2 → Nat) (hk : InC off) (h1 : off 1 = 0) :
    (gCh off hk).view.set = rowsSet (off 0) (off 0 + 128) := by
  show ((View.whole (main_v9_scv : Ref sig .scVector)).slice (Rect.unit (s := S204800x128) off S128x128.size hk)).set = _
  rw [View.set_slice_whole]; exact rect_rows off hk h1
theorem pts_gCh (off : Fin 2 → Nat) (hk : InC off) (h1 : off 1 = 0) (f : Buf (Elt F) (gLoc d)) :
    ((gCh off hk).view.loc (VT d L) ↦[(gCh off hk).view.set]{fullShare} f : sProp 𝕄) = gLoc d ↦[rowsSet (off 0) (off 0 + 128)]{fullShare} f := by
  rw [set_gCh off hk h1]
theorem pts_gCh' (off : Fin 2 → Nat) (hk : InC off) (h1 : off 1 = 0) (lo hi : Nat)
    (hlo : off 0 = lo) (hhi : off 0 + 128 = hi) (f : Buf (Elt F) (gLoc d)) :
    ((gCh off hk).view.loc (VT d L) ↦[(gCh off hk).view.set]{fullShare} f : sProp 𝕄) = gLoc d ↦[rowsSet lo hi]{fullShare} f := by
  subst hlo hhi; exact pts_gCh d L off hk h1 f
theorem rect_pos (off : Fin 1 → Nat) (hk : InW off) :
    (Rect.unit (s := S6400) off S128.size hk).set = posSet (off 0) (off 0 + 128) := by
  ext x
  rw [Rect.mem_set_unit, mem_posSet]
  constructor
  · intro h; exact h 0
  · intro h a; obtain rfl : a = 0 := Subsingleton.elim _ _; exact h
theorem set_sWin (off : Fin 1 → Nat) (hk : InW off) : (sWin off hk).view.set = posSet (off 0) (off 0 + 128) := by
  show ((View.whole (cc0_scratch0 : Ref sig .scVector)).slice (Rect.unit (s := S6400) off S128.size hk)).set = _
  rw [View.set_slice_whole]; exact rect_pos off hk
theorem pts_sWin' (off : Fin 1 → Nat) (hk : InW off) (lo hi : Nat) (hlo : off 0 = lo) (hhi : off 0 + 128 = hi)
    (f : Buf (Elt F) (sLoc d L)) :
    (sLoc d L ↦[(sWin off hk).view.set]{fullShare} f : sProp 𝕄) = (sLoc d L ↦[posSet lo hi]{fullShare} f) := by
  subst hlo hhi; rw [set_sWin off hk]
theorem pts_sWinK' (off : Fin 1 → Nat) (hk : InW off) (lo hi : Nat) (hlo : off 0 = lo) (hhi : off 0 + 128 = hi)
    (f : Buf (Elt F) (sLoc d L)) :
    ((sWin off hk).view.loc (VT d L) ↦[(sWin off hk).view.set]{fullShare} f : sProp 𝕄) = (sLoc d L ↦[posSet lo hi]{fullShare} f) :=
  pts_sWin' d L off hk lo hi hlo hhi f
theorem pts_sV_pos (f : Buf (Elt F) (sLoc d L)) :
    (sLoc d L ↦[(sV).view.set]{fullShare} f : sProp 𝕄) = (sLoc d L ↦[posSet 0 6400]{fullShare} f) := by
  have h : (posSet 0 6400 : Finset S6400.Idx) = Finset.univ := by
    ext x
    have hx : (x 0).val < 6400 := (x 0).isLt
    simp only [mem_posSet, Finset.mem_univ, iff_true]; exact ⟨Nat.zero_le _, hx⟩
  rw [View.set_whole, h]
theorem part_rows (w : Fin 32) : (grow w).set = rowsSet (6400 * w.val) (6400 * w.val + 6400) := by
  ext j
  rw [Rect.mem_set_unit, mem_rowsSet]
  have hj1 : (j 1).val < 128 := (j 1).isLt
  constructor
  · intro h
    have h0 : w.val * (204800 / 32) ≤ (j 0).val ∧ (j 0).val < w.val * (204800 / 32) + 204800 / 32 := h 0
    omega
  · intro h a
    match a with
    | 0 => show w.val * (204800 / 32) ≤ (j 0).val ∧ (j 0).val < w.val * (204800 / 32) + 204800 / 32; omega
    | 1 => show 0 * 128 ≤ (j 1).val ∧ (j 1).val < 0 * 128 + 128; omega
theorem gSet_rows (w : Fin 32) : gSet w = rowsSet (6400 * w.val) (6400 * w.val + 6400) := by
  show ((View.whole (main_v9_scv : Ref sig .scVector)).slice (grow w)).set = _
  rw [View.set_slice_whole]; exact part_rows w

theorem win_word (off : Fin 1 → Nat) (hk : InW off) (y : S128.Idx) :
    (sWin off hk).view.read (Elt F) (fS Iv d L) y = Iv d ((iRowK L).view.emb ((Rect.unit (s := S6400) off S128.size hk).emb y)) :=
  (read_win d L _ _ off hk _ y).trans (PAYI_apply Iv d L _)

theorem word_ix (off1 : Fin 1 → Nat) (hk1 : InW off1) (y : S128.Idx) (q : Fin 204800)
    (hq : q.val = 6400 * (wL L).val + off1 0 + (y 0).val) :
    ((iRowK L).view.emb ((Rect.unit (s := S6400) off1 S128.size hk1).emb y) : S204800.Idx) = ValueIdx.ix1 q := by
  funext a
  obtain ⟨a, ha⟩ := a
  have ha' : a < 1 := ha
  obtain rfl : a = 0 := by omega
  apply Fin.ext
  show (k0_off1 L) 0 + 1 * (off1 0 + 1 * (y 0).val) = q.val
  rw [hq, k0_off1_eq]
  show 12800 * (L 1).val + 6400 * (L 0).val + 1 * (off1 0 + 1 * (y 0).val) = 6400 * (2 * (L 1).val + (L 0).val) + off1 0 + (y 0).val
  omega

theorem src_ix (z : S100000x128.Idx) (r : Fin 100000) (c : Fin 128) (h0 : (z 0).val = r.val) (h1 : (z 1).val = c.val) :
    ((hSl).view.emb z : S100000x128.Idx) = ValueIdx.ix2 r c := by
  funext a
  obtain ⟨a, ha⟩ := a
  have ha' : a < 2 := ha
  rcases (by omega : a = 0 ∨ a = 1) with rfl | rfl
  · apply Fin.ext; show 0 + 1 * (z 0).val = r.val; omega
  · apply Fin.ext; show 0 + 1 * (z 1).val = c.val; omega

theorem rows_val {si : Shape} {o z : ℕ} (idx : si.Idx → Elt F .i32) (hn : si.numel = o) (h : ∀ x, (idx x).toNat < z) (kk : Fin o) :
    (SparseCore.rows idx hn h kk).val = (idx (si.rowMajor.symm (kk.cast hn.symm))).toNat := rfl

theorem gPay_eq_Gv_aux (hpre : PreOK Iv) (off1 : Fin 1 → Nat) (hk1 : InW off1)
    (off2 : Fin 2 → Nat) (hk2 : InC off2)
    (h1 : off2 1 = 0) (h0 : off2 0 = 6400 * (wL L).val + off1 0) (x : S128x128.Idx)
    (R : Fin (S128x128.size gathers_S100000x128_S128x128.axis') → Fin (S100000x128.size gathers_S100000x128_S128x128.axis))
    (hR : ∀ kk, (R kk).val = ((sWin off1 hk1).view.read (Elt F) (fS Iv d L) (S128.rowMajor.symm (kk.cast rfl))).toNat) :
    SparseCore.gatherPayload gathers_S100000x128_S128x128 ((hSl).view.read (Elt F) (m (hLoc d))) R x
      = Gv m Iv d ((gCh off2 hk2).view.emb x) := by
  have hy : ((S128.rowMajor.symm ((x gathers_S100000x128_S128x128.axis').cast rfl)) 0).val = (x 0).val := by
    have h := Shape.rowMajor_val_one (S128.rowMajor.symm ((x gathers_S100000x128_S128x128.axis').cast rfl))
    rw [Equiv.apply_symm_apply] at h
    exact h.symm
  have hj0 : (((gCh off2 hk2).view.emb x) 0).val = off2 0 + (x 0).val := by
    show off2 0 + 1 * (x 0).val = _; omega
  have hj1 : (((gCh off2 hk2).view.emb x) 1).val = (x 1).val := by
    show off2 1 + 1 * (x 1).val = _; rw [h1]; omega
  have hw : (sWin off1 hk1).view.read (Elt F) (fS Iv d L) (S128.rowMajor.symm ((x gathers_S100000x128_S128x128.axis').cast rfl))
      = (Iv d : S204800.Idx → BitVec 32) (ValueIdx.ix1 (((gCh off2 hk2).view.emb x) 0)) := by
    rw [win_word]
    exact congrArg (Iv d : S204800.Idx → BitVec 32) (word_ix L off1 hk1 _ (((gCh off2 hk2).view.emb x) 0) (by rw [hj0, hy, h0]))
  have hlt := hpre d (ValueIdx.ix1 (((gCh off2 hk2).view.emb x) 0))
  have e0 : ((gathers_S100000x128_S128x128.idx R x) 0).val = (R (x gathers_S100000x128_S128x128.axis')).val :=
    congrArg Fin.val (Shape.Gathers.idx_axis gathers_S100000x128_S128x128 R x)
  have e1 : ((gathers_S100000x128_S128x128.idx R x) 1).val = (x 1).val :=
    Shape.Gathers.idx_of_ne gathers_S100000x128_S128x128 R x 1 (by decide)
  show (hSl).view.read (Elt F) (m (hLoc d)) (gathers_S100000x128_S128x128.idx R x)
    = (m (hLoc d) : S100000x128.Idx → Elt F .f32) (ValueIdx.ix2 (Spec.rowOf ((Iv d : S204800.Idx → BitVec 32) (ValueIdx.ix1 (((gCh off2 hk2).view.emb x) 0)))) (((gCh off2 hk2).view.emb x) 1))
  rw [View.read_apply]
  refine (cast_eq _ _).trans (congrArg (m (hLoc d) : S100000x128.Idx → Elt F .f32) ?_)
  refine src_ix _ _ _ (e0.trans ((hR _).trans ?_)) (e1.trans hj1.symm)
  rw [hw, Spec.rowOf_val hlt]

theorem gPay_eq_Gv (hpre : PreOK Iv) (off1 : Fin 1 → Nat) (hk1 : InW off1)
    (off2 : Fin 2 → Nat) (hk2 : InC off2)
    (h1 : off2 1 = 0) (h0 : off2 0 = 6400 * (wL L).val + off1 0) (x : S128x128.Idx) :
    gPay m Iv d L hpre off1 hk1 x = Gv m Iv d ((gCh off2 hk2).view.emb x) :=
  gPay_eq_Gv_aux m Iv d L hpre off1 hk1 off2 hk2 h1 h0 x
    (SparseCore.rows ((sWin off1 hk1).view.read (Elt F) (fS Iv d L)) rfl (idx_inb Iv d L hpre _ _ rfl off1 hk1 (fun _ => rfl)))
    (fun kk => rows_val _ _ _ kk)

theorem chunk_value (hpre : PreOK Iv) (bV : Memref sig .scVector .vmem S128x128 .f32) (c : Buf (Elt F) (bV.view.loc (VT d L)))
    (off1 : Fin 1 → Nat) (hk1 : InW off1)
    (hc : bV.view.read (Elt F) c = gPay m Iv d L hpre off1 hk1)
    (off2 : Fin 2 → Nat) (hk2 : InC off2)
    (h1 : off2 1 = 0) (h0 : off2 0 = 6400 * (wL L).val + off1 0) (lo hi : Nat) (hlo : off2 0 = lo) (hhi : off2 0 + 128 = hi)
    (g0 : Buf (Elt F) (gLoc d)) (pay : S128x128.Idx → Elt F .f32)
    (hpay : pay = ReadAs.same.apply (bV.view.read (Elt F) c)) :
    ((gCh off2 hk2).view.loc (VT d L) ↦[(gCh off2 hk2).view.set]{fullShare}
        (gCh off2 hk2).view.writes (Elt F) g0 [⟨Rect.whole S128x128, pay⟩] : sProp 𝕄)
      = gLoc d ↦[rowsSet lo hi]{fullShare} Gv m Iv d := by
  subst hlo hhi
  rw [← pts_gCh d L off2 hk2 h1]
  refine pointsTo_congr fun i hi => ?_
  obtain ⟨x, -, rfl⟩ := Finset.mem_map.mp hi
  have e := congrFun (View.read_writes_whole (gCh off2 hk2).view g0 pay) x
  rw [View.read_apply] at e
  refine ((cast_eq _ _).symm.trans e).trans ?_
  subst hpay
  show bV.view.read (Elt F) c x = _
  rw [hc]
  exact gPay_eq_Gv m Iv d L hpre off1 hk1 off2 hk2 h1 h0 x

abbrev base (L : grid0.Coords) : Nat := 6400 * (wL L).val

theorem off3_0 (k : Fin k0_t1_loop.trips) (r : Nat) (hr : r < 5) : (k0_off3 L k (BitVec.ofNat 32 r)) 0 = base L + 640 * k.val + 128 * r := by
  rw [show (k0_off3 L k (BitVec.ofNat 32 r)) = _ from k0_off3_eq L k ⟨r, hr⟩]
  show 12800 * (L 1).val + 6400 * (L 0).val + 640 * k.val + 128 * r = 6400 * (2 * (L 1).val + (L 0).val) + 640 * k.val + 128 * r
  omega
theorem off3_1 (k : Fin k0_t1_loop.trips) (r : Nat) (hr : r < 5) : (k0_off3 L k (BitVec.ofNat 32 r)) 1 = 0 := by
  rw [show (k0_off3 L k (BitVec.ofNat 32 r)) = _ from k0_off3_eq L k ⟨r, hr⟩]
  rfl

theorem trips_le (k : Fin k0_t1_loop.trips) : k.val < 10 := Nat.lt_of_lt_of_le k.isLt k0_t1_abs.2.1
theorem cond1_iff : ∀ k : Fin k0_t1_loop.trips, k0_cond1 k = 1#1 ↔ k.val + 1 < 10 := by decide +kernel
theorem cond2_iff : ∀ k : Fin k0_t1_loop.trips, k0_cond2 k = 1#1 ↔ k.val + 1 < 10 := by decide +kernel
theorem cond3_iff : ∀ k : Fin k0_t1_loop.trips, k0_cond3 k = 1#1 ↔ k.val + 1 < 10 := by decide +kernel
theorem cond4_iff : ∀ k : Fin k0_t1_loop.trips, k0_cond4 k = 1#1 ↔ k.val + 1 < 10 := by decide +kernel
theorem cond5_iff : ∀ k : Fin k0_t1_loop.trips, k0_cond5 k = 1#1 ↔ k.val + 1 < 10 := by decide +kernel
theorem off5_0 (k : Fin k0_t1_loop.trips) : (k0_off5 k) 0 = 640 * k.val + 640 := by rw [k0_off5_eq]; rfl
theorem off7_0 (k : Fin k0_t1_loop.trips) : (k0_off7 k) 0 = 640 * k.val + 768 := by rw [k0_off7_eq]; rfl
theorem off9_0 (k : Fin k0_t1_loop.trips) : (k0_off9 k) 0 = 640 * k.val + 896 := by rw [k0_off9_eq]; rfl
theorem off11_0 (k : Fin k0_t1_loop.trips) : (k0_off11 k) 0 = 640 * k.val + 1024 := by rw [k0_off11_eq]; rfl
theorem off13_0 (k : Fin k0_t1_loop.trips) : (k0_off13 k) 0 = 640 * k.val + 1152 := by rw [k0_off13_eq]; rfl

theorem wins {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

/-- Chunk `5k + r` of the worker's slice of the result, as the task addresses it. -/
abbrev gChK (k : Fin k0_t1_loop.trips) (r : Nat) (hr : r < 5) : Memref sig .scVector .hbm S128x128 .f32 :=
  gCh (k0_off3 L k (BitVec.ofNat 32 r)) (k0_off3_inb L k ⟨r, hr⟩)

theorem pts_gChK (k : Fin k0_t1_loop.trips) (r : Nat) (hr : r < 5) (lo hi : Nat) (hlo : base L + 640 * k.val + 128 * r = lo) (hhi : lo + 128 = hi)
    (f : Buf (Elt F) (gLoc d)) :
    ((gChK L k r hr).view.loc (VT d L) ↦[(gChK L k r hr).view.set]{fullShare} f : sProp 𝕄) = gLoc d ↦[rowsSet lo hi]{fullShare} f := by
  have h0 := off3_0 L k r hr
  exact pts_gCh' d L _ _ (off3_1 L k r hr) lo hi (by omega) (by omega) f

/-- Chunk `5k + r` written with a copy of a row buffer that holds the rows gathered for it holds the result's rows. -/
theorem chunk_trip (hpre : PreOK Iv) (k : Fin k0_t1_loop.trips) (r : Nat) (hr : r < 5) (bV : Memref sig .scVector .vmem S128x128 .f32)
    (c : Buf (Elt F) (bV.view.loc (VT d L))) (hc : bV.view.read (Elt F) c = gPay m Iv d L hpre ![640 * (k.val % 10) + 128 * r] (winInb k.val r hr))
    (lo hi : Nat) (hlo : base L + 640 * k.val + 128 * r = lo) (hhi : lo + 128 = hi) (pay : S128x128.Idx → Elt F .f32)
    (hpay : pay = ReadAs.same.apply (bV.view.read (Elt F) c)) :
    ((gChK L k r hr).view.loc (VT d L) ↦[(gChK L k r hr).view.set]{fullShare}
        (gChK L k r hr).view.writes (Elt F) (m (gLoc d)) [⟨Rect.whole S128x128, pay⟩] : sProp 𝕄)
      = gLoc d ↦[rowsSet lo hi]{fullShare} Gv m Iv d := by
  have hb : base L = 6400 * (wL L).val := rfl
  have h0 := off3_0 L k r hr
  have hk := trips_le k
  exact chunk_value m Iv d L hpre bV c _ (winInb k.val r hr) hc (k0_off3 L k (BitVec.ofNat 32 r)) (k0_off3_inb L k ⟨r, hr⟩) (off3_1 L k r hr)
    (by show _ = 6400 * (wL L).val + (640 * (k.val % 10) + 128 * r); omega) lo hi (by omega) (by omega) _ pay hpay

abbrev winSet (k r : Nat) (hr : r < 5) : Finset S6400.Idx := (sWin ![640 * (k % 10) + 128 * r] (winInb k r hr)).view.set

theorem winSet_eq (k : Nat) (hk : k < 10) (r : Nat) (hr : r < 5) (lo hi : Nat) (h1 : 640 * k + 128 * r = lo) (h2 : lo + 128 = hi) :
    winSet k r hr = posSet lo hi := by
  subst h1 h2; unfold winSet; rw [set_sWin, Nat.mod_eq_of_lt hk]; rfl

/-- The five windows of trip `k` join the words of the index buffer before them. -/
theorem win_join (k : Nat) (hk : k < 10) (hi : Nat) (hhi : 640 * k + 640 = hi) (f : Buf (Elt F) (sLoc d L)) :
    (iprop((sLoc d L ↦[posSet 0 (640 * k)]{fullShare} f)
        ∗ (sLoc d L ↦[winSet k 0 (by decide)]{fullShare} f)
        ∗ (sLoc d L ↦[winSet k 1 (by decide)]{fullShare} f)
        ∗ (sLoc d L ↦[winSet k 2 (by decide)]{fullShare} f)
        ∗ (sLoc d L ↦[winSet k 3 (by decide)]{fullShare} f)
        ∗ (sLoc d L ↦[winSet k 4 (by decide)]{fullShare} f)) : sProp 𝕄)
      = (sLoc d L ↦[posSet 0 hi]{fullShare} f) :=
  band_join5' (posB d L) f (Nat.zero_le _) hhi (winSet_eq k hk 0 _ _ _ (by omega) (by omega)) (winSet_eq k hk 1 _ _ _ (by omega) (by omega)) (winSet_eq k hk 2 _ _ _ (by omega) (by omega)) (winSet_eq k hk 3 _ _ _ (by omega) (by omega)) (winSet_eq k hk 4 _ _ _ (by omega) (by omega))

/-- Before trip `k < 10`: chunks `5k … 5k + 4` are being gathered, earlier chunks' rows hold the gathered rows, later rows are as at the launch. -/
def invA (hpre : PreOK Iv) (O : CellTallies nD τ sig (HIx 1)) (W : Waits sig (HIx 1)) (k : Nat) : sProp 𝕄 :=
  iprop(Transfers.MayWaits (VT d L) (default : HIx 1) O
    ∗ gIn m Iv d L hpre bV1 k 0 (by decide)
    ∗ gIn m Iv d L hpre bV2 k 1 (by decide)
    ∗ gIn m Iv d L hpre bV3 k 2 (by decide)
    ∗ gIn m Iv d L hpre bV4 k 3 (by decide)
    ∗ gIn m Iv d L hpre bV5 k 4 (by decide)
    ∗ ((hV).view.loc (VT d L) ↦[Finset.univ \ (hSl).view.set]{Transfers.shareTokN (hq (wL L)) 0} m (hLoc d))
    ∗ ((hV).view.loc (VT d L) ↦[Finset.univ \ (hSl).view.set]{Transfers.shareTokN (hq (wL L)) 1} m (hLoc d))
    ∗ ((hV).view.loc (VT d L) ↦[Finset.univ \ (hSl).view.set]{Transfers.shareTokN (hq (wL L)) 2} m (hLoc d))
    ∗ ((hV).view.loc (VT d L) ↦[Finset.univ \ (hSl).view.set]{Transfers.shareTokN (hq (wL L)) 3} m (hLoc d))
    ∗ ((hV).view.loc (VT d L) ↦[Finset.univ \ (hSl).view.set]{Transfers.shareTokN (hq (wL L)) 4} m (hLoc d))
    ∗ (sLoc d L ↦[posSet 0 (640 * k)]{fullShare} fS Iv d L)
    ∗ (sLoc d L ↦[posSet (640 * k + 640) 6400]{fullShare} fS Iv d L)
    ∗ (gLoc d ↦[rowsSet (base L) (base L + 640 * k)]{fullShare} Gv m Iv d)
    ∗ (gLoc d ↦[rowsSet (base L + 640 * k) (base L + 6400)]{fullShare} m (gLoc d))
    ∗ semVal (VT d L, SemLoc.dma (csem 5)) 0 ∗ semVal (VT d L, SemLoc.dma (csem 6)) 0 ∗ semVal (VT d L, SemLoc.dma (csem 7)) 0
    ∗ semVal (VT d L, SemLoc.dma (csem 8)) 0 ∗ semVal (VT d L, SemLoc.dma (csem 9)) 0
    ∗ ∃ W', owes (VT d L) O W' ∗ ⌜∀ p ∈ W', p ∈ W ∨ p.2 = none⌝)

/-- After the last trip: chunks `45 … 49` are being copied out, everything else is back whole. -/
def invB (O : CellTallies nD τ sig (HIx 1)) (W : Waits sig (HIx 1)) : sProp 𝕄 :=
  iprop(Transfers.MayWaits (VT d L) (default : HIx 1) O
    ∗ (∃ c, cFl m Iv d L 5 (by decide) bV1 c (base L + 5760) (base L + 5888))
    ∗ (∃ c, cFl m Iv d L 6 (by decide) bV2 c (base L + 5888) (base L + 6016))
    ∗ (∃ c, cFl m Iv d L 7 (by decide) bV3 c (base L + 6016) (base L + 6144))
    ∗ (∃ c, cFl m Iv d L 8 (by decide) bV4 c (base L + 6144) (base L + 6272))
    ∗ (∃ c, cFl m Iv d L 9 (by decide) bV5 c (base L + 6272) (base L + 6400))
    ∗ ((hV).view.loc (VT d L) ↦{Transfers.shareTokN (hq (wL L)) 0} m (hLoc d))
    ∗ ((hV).view.loc (VT d L) ↦{Transfers.shareTokN (hq (wL L)) 1} m (hLoc d))
    ∗ ((hV).view.loc (VT d L) ↦{Transfers.shareTokN (hq (wL L)) 2} m (hLoc d))
    ∗ ((hV).view.loc (VT d L) ↦{Transfers.shareTokN (hq (wL L)) 3} m (hLoc d))
    ∗ ((hV).view.loc (VT d L) ↦{Transfers.shareTokN (hq (wL L)) 4} m (hLoc d))
    ∗ (sLoc d L ↦[posSet 0 6400]{fullShare} fS Iv d L)
    ∗ (gLoc d ↦[rowsSet (base L) (base L + 5760)]{fullShare} Gv m Iv d)
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0
    ∗ ∃ W', owes (VT d L) O W' ∗ ⌜∀ p ∈ W', p ∈ W ∨ p.2 = none⌝)

def inv (hpre : PreOK Iv) (O : CellTallies nD τ sig (HIx 1)) (W : Waits sig (HIx 1)) (k : Nat) (_ : Unit) : sProp 𝕄 :=
  if k < 10 then invA m Iv d L hpre O W k else invB m Iv d L O W

theorem trips_eq : k0_t1_loop.trips = 10 := by decide +kernel

theorem inv_zero (hpre : PreOK Iv) (O : CellTallies nD τ sig (HIx 1)) (W : Waits sig (HIx 1)) (u : Unit) :
    inv m Iv d L hpre O W 0 u = invA m Iv d L hpre O W 0 := by
  unfold inv; rw [if_pos (by decide)]
theorem inv_end (hpre : PreOK Iv) (O : CellTallies nD τ sig (HIx 1)) (W : Waits sig (HIx 1)) (u : Unit) :
    inv m Iv d L hpre O W k0_t1_loop.trips u = invB m Iv d L O W := by
  unfold inv; rw [if_neg (by rw [trips_eq]; decide)]

theorem pts_gSet (f : Buf (Elt F) (gLoc d)) :
    (gLoc d ↦[gSet (wL L)]{fullShare} f : sProp 𝕄) = gLoc d ↦[rowsSet (base L) (base L + 6400)]{fullShare} f := by
  rw [gSet_rows]

set_option maxHeartbeats 4000000 in
/-- One trip carries the invariant from `k` to `k + 1`. -/
theorem tile_trip (hpre : PreOK Iv) (O : CellTallies nD τ sig (HIx 1)) (W : Waits sig (HIx 1)) (v2 : BitVec 32)
    (k : Fin k0_t1_loop.trips) (u : Unit) :
    inv m Iv d L hpre O W k.val u
      ⊢ wp frame (wpE (defs₀ (F := F)) 𝒱₀ (VT d L) none) Set.univ
          (k0_t1_body L (Memref.whole main_arg1_scv) (Memref.isWhole_whole _) (Memref.whole main_v8_scv) (Memref.isWhole_whole _)
            (Memref.whole main_v9_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)
            cc0_scratch6 cc0_scratch7 cc0_scratch8 cc0_scratch9 cc0_scratch10 cc0_scratch11 cc0_scratch12 cc0_scratch13 cc0_scratch14 cc0_scratch15 cc0_scoped0 v2 k u)
          (inv m Iv d L hpre O W (k.val + 1)) := by
  have hk : k.val < 10 := trips_le k
  have hb : base L = 6400 * (wL L).val := rfl
  have hidx := fun g off hk hs => idx_inb Iv d L hpre g (PAYI Iv d L) rfl off hk hs
  unfold inv
  rw [if_pos hk]; unfold invA
  iintro ⟨#Hmw, ⟨%c1, HG0, %hc1⟩, ⟨%c2, HG1, %hc2⟩, ⟨%c3, HG2, %hc3⟩, ⟨%c4, HG3, %hc4⟩, ⟨%c5, HG4, %hc5⟩, HX0, HX1, HX2, HX3, HX4,
    HSd, HSt, HGd, HGt, Hc5, Hc6, Hc7, Hc8, Hc9, %W', HO, %hW'⟩
  ihave HGt' := (Entails.of_eq (band_split5 (rowsB d) (m (gLoc d)) (a := base L + 640 * k.val) (hi := base L + 6400) (a5 := base L + 640 * (k.val + 1))
    rfl rfl rfl rfl (by omega) (by omega))) $$ HGt
  icases HGt' with ⟨HC0, HC1, HC2, HC3, HC4, HGt⟩
  ihave HC0 := (Entails.of_eq (pts_gChK d L k 0 (by decide) _ _ (by omega) (by omega) (m (gLoc d))).symm) $$ HC0
  ihave HC1 := (Entails.of_eq (pts_gChK d L k 1 (by decide) _ _ (by omega) (by omega) (m (gLoc d))).symm) $$ HC1
  ihave HC2 := (Entails.of_eq (pts_gChK d L k 2 (by decide) _ _ (by omega) (by omega) (m (gLoc d))).symm) $$ HC2
  ihave HC3 := (Entails.of_eq (pts_gChK d L k 3 (by decide) _ _ (by omega) (by omega) (m (gLoc d))).symm) $$ HC3
  ihave HC4 := (Entails.of_eq (pts_gChK d L k 4 (by decide) _ _ (by omega) (by omega) (m (gLoc d))).symm) $$ HC4
  unfold k0_t1_body
  rw [k0_part1_eq_skeleton, k0_part2_eq_skeleton]; unfold k0_part1_skel k0_part2_skel
  by_cases hc : k.val + 1 < 10
  · have k0_h1 : k0_cond1 k = 1#1 := (cond1_iff k).mpr hc
    have k0_h2 : k0_cond2 k = 1#1 := (cond2_iff k).mpr hc
    have k0_h3 : k0_cond3 k = 1#1 := (cond3_iff k).mpr hc
    have k0_h4 : k0_cond4 k = 1#1 := (cond4_iff k).mpr hc
    have k0_h5 : k0_cond5 k = 1#1 := (cond5_iff k).mpr hc
    rw [if_pos hc]
    ihave HSt' := (Entails.of_eq (band_split5 (posB d L) (fS Iv d L) (a := 640 * k.val + 640) (hi := 6400) (a5 := 640 * (k.val + 1) + 640)
      rfl rfl rfl rfl (by omega) (by omega))) $$ HSt
    icases HSt' with ⟨HW0, HW1, HW2, HW3, HW4, HSt⟩
    ihave HW0 := (Entails.of_eq (pts_sWinK' d L (k0_off5 k) (k0_off5_inb k k0_h1) _ _ (by have := off5_0 k; omega) (by have := off5_0 k; omega) (fS Iv d L)).symm) $$ HW0
    ihave HW1 := (Entails.of_eq (pts_sWinK' d L (k0_off7 k) (k0_off7_inb k k0_h2) _ _ (by have := off7_0 k; omega) (by have := off7_0 k; omega) (fS Iv d L)).symm) $$ HW1
    ihave HW2 := (Entails.of_eq (pts_sWinK' d L (k0_off9 k) (k0_off9_inb k k0_h3) _ _ (by have := off9_0 k; omega) (by have := off9_0 k; omega) (fS Iv d L)).symm) $$ HW2
    ihave HW3 := (Entails.of_eq (pts_sWinK' d L (k0_off11 k) (k0_off11_inb k k0_h4) _ _ (by have := off11_0 k; omega) (by have := off11_0 k; omega) (fS Iv d L)).symm) $$ HW3
    ihave HW4 := (Entails.of_eq (pts_sWinK' d L (k0_off13 k) (k0_off13_inb k k0_h5) _ _ (by have := off13_0 k; omega) (by have := off13_0 k; omega) (fS Iv d L)).symm) $$ HW4
    sl_exec
    sl_step
    isplitr; · iexact Hmw
    isplitl [HG0]; · iapply (gIn_intro m Iv d L hpre bV1 c1 (k.val + 1) 0 _ _ (k0_off5_inb k k0_h1) (by have := off5_0 k; omega)); iexact HG0
    isplitl [HG1]; · iapply (gIn_intro m Iv d L hpre bV2 c2 (k.val + 1) 1 _ _ (k0_off7_inb k k0_h2) (by have := off7_0 k; omega)); iexact HG1
    isplitl [HG2]; · iapply (gIn_intro m Iv d L hpre bV3 c3 (k.val + 1) 2 _ _ (k0_off9_inb k k0_h3) (by have := off9_0 k; omega)); iexact HG2
    isplitl [HG3]; · iapply (gIn_intro m Iv d L hpre bV4 c4 (k.val + 1) 3 _ _ (k0_off11_inb k k0_h4) (by have := off11_0 k; omega)); iexact HG3
    isplitl [HG4]; · iapply (gIn_intro m Iv d L hpre bV5 c5 (k.val + 1) 4 _ _ (k0_off13_inb k k0_h5) (by have := off13_0 k; omega)); iexact HG4
    isplitl [HX0]; · iexact HX0
    isplitl [HX1]; · iexact HX1
    isplitl [HX2]; · iexact HX2
    isplitl [HX3]; · iexact HX3
    isplitl [HX4]; · iexact HX4
    isplitl [HSd HG0_dst_and HG1_dst_and HG2_dst_and HG3_dst_and HG4_dst_and]
    · iapply (Entails.of_eq (win_join d L k.val hk (640 * (k.val + 1)) (by omega) (fS Iv d L)))
      isplitl [HSd]; · iexact HSd
      isplitl [HG0_dst_and]; · iexact HG0_dst_and
      isplitl [HG1_dst_and]; · iexact HG1_dst_and
      isplitl [HG2_dst_and]; · iexact HG2_dst_and
      isplitl [HG3_dst_and]; · iexact HG3_dst_and
      iexact HG4_dst_and
    isplitl [HSt]; · iexact HSt
    isplitl [HGd HC0 HC1 HC2 HC3 HC4]
    · iapply (Entails.of_eq (band_join5 (rowsB d) (Gv m Iv d) (b := base L) (a := base L + 640 * k.val) (a5 := base L + 640 * (k.val + 1))
        (by omega) rfl rfl rfl rfl (by omega)))
      isplitl [HGd]; · iexact HGd
      isplitl [HC0]; · iapply (Entails.of_eq (chunk_trip m Iv d L hpre k 0 (by decide) bV1 c1 hc1 _ _ (by omega) (by omega) _ rfl)); iexact HC0
      isplitl [HC1]; · iapply (Entails.of_eq (chunk_trip m Iv d L hpre k 1 (by decide) bV2 c2 hc2 _ _ (by omega) (by omega) _ rfl)); iexact HC1
      isplitl [HC2]; · iapply (Entails.of_eq (chunk_trip m Iv d L hpre k 2 (by decide) bV3 c3 hc3 _ _ (by omega) (by omega) _ rfl)); iexact HC2
      isplitl [HC3]; · iapply (Entails.of_eq (chunk_trip m Iv d L hpre k 3 (by decide) bV4 c4 hc4 _ _ (by omega) (by omega) _ rfl)); iexact HC3
      iapply (Entails.of_eq (chunk_trip m Iv d L hpre k 4 (by decide) bV5 c5 hc5 _ _ (by omega) (by omega) _ rfl)); iexact HC4
    isplitl [HGt]; · iexact HGt
    isplitl [Hc5]; · iexact Hc5
    isplitl [Hc6]; · iexact Hc6
    isplitl [Hc7]; · iexact Hc7
    isplitl [Hc8]; · iexact Hc8
    isplitl [Hc9]; · iexact Hc9
    iexists _
    isplitl [HO]; · iexact HO
    ipureintro
    exact wins (wins (wins (wins (wins (wins (wins (wins (wins (wins hW' _) _) _) _) _) _) _) _) _) _
  · have k0_h1 : ¬ k0_cond1 k = 1#1 := fun h => hc ((cond1_iff k).mp h)
    have k0_h2 : ¬ k0_cond2 k = 1#1 := fun h => hc ((cond2_iff k).mp h)
    have k0_h3 : ¬ k0_cond3 k = 1#1 := fun h => hc ((cond3_iff k).mp h)
    have k0_h4 : ¬ k0_cond4 k = 1#1 := fun h => hc ((cond4_iff k).mp h)
    have k0_h5 : ¬ k0_cond5 k = 1#1 := fun h => hc ((cond5_iff k).mp h)
    have hk9 : k.val = 9 := by omega
    rw [if_neg hc]; unfold invB
    sl_exec
    sl_step
    isplitr; · iexact Hmw
    isplitl [Hc5]
    · iexists _
      iapply (Transfers.Flight_mono countersEmb (VT d L) (sep_mono_left (Entails.of_eq
        (chunk_trip m Iv d L hpre k 0 (by decide) bV1 c1 hc1 _ _ (by omega) (by omega) _ rfl))))
      iexact Hc5
    isplitl [Hc6]
    · iexists _
      iapply (Transfers.Flight_mono countersEmb (VT d L) (sep_mono_left (Entails.of_eq
        (chunk_trip m Iv d L hpre k 1 (by decide) bV2 c2 hc2 _ _ (by omega) (by omega) _ rfl))))
      iexact Hc6
    isplitl [Hc7]
    · iexists _
      iapply (Transfers.Flight_mono countersEmb (VT d L) (sep_mono_left (Entails.of_eq
        (chunk_trip m Iv d L hpre k 2 (by decide) bV3 c3 hc3 _ _ (by omega) (by omega) _ rfl))))
      iexact Hc7
    isplitl [Hc8]
    · iexists _
      iapply (Transfers.Flight_mono countersEmb (VT d L) (sep_mono_left (Entails.of_eq
        (chunk_trip m Iv d L hpre k 3 (by decide) bV4 c4 hc4 _ _ (by omega) (by omega) _ rfl))))
      iexact Hc8
    isplitl [Hc9]
    · iexists _
      iapply (Transfers.Flight_mono countersEmb (VT d L) (sep_mono_left (Entails.of_eq
        (chunk_trip m Iv d L hpre k 4 (by decide) bV5 c5 hc5 _ _ (by omega) (by omega) _ rfl))))
      iexact Hc9
    isplitl [HX0]; · iexact HX0
    isplitl [HX1]; · iexact HX1
    isplitl [HX2]; · iexact HX2
    isplitl [HX3]; · iexact HX3
    isplitl [HX4]; · iexact HX4
    isplitl [HSd HG0_dst_and HG1_dst_and HG2_dst_and HG3_dst_and HG4_dst_and]
    · iapply (Entails.of_eq (win_join d L k.val hk 6400 (by omega) (fS Iv d L)))
      isplitl [HSd]; · iexact HSd
      isplitl [HG0_dst_and]; · iexact HG0_dst_and
      isplitl [HG1_dst_and]; · iexact HG1_dst_and
      isplitl [HG2_dst_and]; · iexact HG2_dst_and
      isplitl [HG3_dst_and]; · iexact HG3_dst_and
      iexact HG4_dst_and
    isplitl [HGd]
    · iapply (Entails.of_eq (rows_congr d (Gv m Iv d) (lo := base L) (hi := base L + 640 * k.val) (lo' := base L) (hi' := base L + 5760) rfl (by omega)))
      iexact HGd
    isplitl [HG0]; · iexact HG0
    isplitl [HG1]; · iexact HG1
    isplitl [HG2]; · iexact HG2
    isplitl [HG3]; · iexact HG3
    isplitl [HG4]; · iexact HG4
    iexists _
    isplitl [HO]; · iexact HO
    ipureintro
    exact wins (wins (wins (wins (wins hW' _) _) _) _) _

end Tile

set_option maxHeartbeats 4000000 in
/-- The worker's task leaves its rows of the result holding the rows of `h` its index words name, and hands everything else back. -/
theorem tile_body (hF : (K (F := F)).Facts) (hpre : PreOK Iv) (d : Dev nD) (L : grid0.Coords)
    (O : CellTallies nD τ sig (HIx 1)) (W : Waits sig (HIx 1)) (hO : ∀ g, O g none = 0) :
    iprop(levAts (K (F := F)).L (K (F := F)).lev ∗ emp ∗ goW m Iv d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_rows L (Memref.whole main_arg1_scv) (Memref.isWhole_whole _) (Memref.whole main_v8_scv) (Memref.isWhole_whole _)
            (Memref.whole main_v9_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tdW m Iv d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Hg⟩, ⟨⟨⟨%s0, HS⟩, ⟨%t1, HB1⟩, ⟨%t2, HB2⟩, ⟨%t3, HB3⟩, ⟨%t4, HB4⟩, ⟨%t5, HB5⟩⟩, Hbufs⟩,
    ⟨⟨Hc0, Hc1, Hc2, Hc3, Hc4, Hc5, Hc6, Hc7, Hc8, Hc9, Hc10⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HI := (Entails.of_eq (pts_iRowK (F := F) d L _).symm) $$ Hi
  ihave HS := (Entails.of_eq (pts_scr (F := F) d L cc0_scratch0 _).symm) $$ HS
  ihave HB1 := (Entails.of_eq (pts_scr (F := F) d L cc0_scratch1 _).symm) $$ HB1
  ihave HB2 := (Entails.of_eq (pts_scr (F := F) d L cc0_scratch2 _).symm) $$ HB2
  ihave HB3 := (Entails.of_eq (pts_scr (F := F) d L cc0_scratch3 _).symm) $$ HB3
  ihave HB4 := (Entails.of_eq (pts_scr (F := F) d L cc0_scratch4 _).symm) $$ HB4
  ihave HB5 := (Entails.of_eq (pts_scr (F := F) d L cc0_scratch5 _).symm) $$ HB5
  ihave Hx' := (hToks d (hq (wL L)) (m (hLoc d))).1 $$ Hx
  icases Hx' with ⟨Hxr, HX0, HX1, HX2, HX3, HX4⟩
  ihave HX0 := (Entails.of_eq (pts_hV (F := F) d L _ _).symm) $$ HX0
  ihave HX1 := (Entails.of_eq (pts_hV (F := F) d L _ _).symm) $$ HX1
  ihave HX2 := (Entails.of_eq (pts_hV (F := F) d L _ _).symm) $$ HX2
  ihave HX3 := (Entails.of_eq (pts_hV (F := F) d L _ _).symm) $$ HX3
  ihave HX4 := (Entails.of_eq (pts_hV (F := F) d L _ _).symm) $$ HX4
  ihave Hg := (Entails.of_eq (pts_gSet (F := F) d L _)) $$ Hg
  rw [cc0_gather_rows_eq_skeleton]; unfold cc0_gather_rows_skel
  rw [k0_part3_eq_skeleton]; unfold k0_part3_skel
  sl_exec
  unfold tile_body.sl.dma0
  have hidx := fun g off hk hs => idx_inb Iv d L hpre g (PAYI Iv d L) rfl off hk hs
  ihave HS := (Entails.of_eq (pts_sV_pos d L (fS Iv d L))) $$ HS
  ihave HS' := (Entails.of_eq (band_split5 (posB d L) (fS Iv d L) (a := 0) (hi := 6400) (a1 := 128) (a2 := 256) (a3 := 384) (a4 := 512) (a5 := 640)
    rfl rfl rfl rfl rfl (by omega))) $$ HS
  icases HS' with ⟨HW0, HW1, HW2, HW3, HW4, HSt⟩
  ihave HW0 := (Entails.of_eq (pts_sWinK' d L ![0] inb_S6400_S128_0 0 128 rfl rfl (fS Iv d L)).symm) $$ HW0
  ihave HW1 := (Entails.of_eq (pts_sWinK' d L ![128] inb_S6400_S128_128 128 256 rfl rfl (fS Iv d L)).symm) $$ HW1
  ihave HW2 := (Entails.of_eq (pts_sWinK' d L ![256] inb_S6400_S128_256 256 384 rfl rfl (fS Iv d L)).symm) $$ HW2
  ihave HW3 := (Entails.of_eq (pts_sWinK' d L ![384] inb_S6400_S128_384 384 512 rfl rfl (fS Iv d L)).symm) $$ HW3
  ihave HW4 := (Entails.of_eq (pts_sWinK' d L ![512] inb_S6400_S128_512 512 640 rfl rfl (fS Iv d L)).symm) $$ HW4
  sl_exec
  sl_rw [Prog.bind_assoc]
  sl_for (inv m Iv d L hpre O W) $$ [Hmw Hc0 Hc1 Hc2 Hc3 Hc4 HX0 HX1 HX2 HX3 HX4 HSt Hg Hc5 Hc6 Hc7 Hc8 Hc9 HO]
  case region =>
    intro k u
    exact tile_trip m Iv d L hpre O W _ k u
  · iapply (Entails.of_eq (inv_zero m Iv d L hpre O W _).symm)
    unfold invA
    isplitl [Hmw]; · iexact Hmw
    isplitl [Hc0]; · iapply (gIn_intro m Iv d L hpre _ _ 0 0 _ ![0] inb_S6400_S128_0 rfl); iexact Hc0
    isplitl [Hc1]; · iapply (gIn_intro m Iv d L hpre _ _ 0 1 _ ![128] inb_S6400_S128_128 rfl); iexact Hc1
    isplitl [Hc2]; · iapply (gIn_intro m Iv d L hpre _ _ 0 2 _ ![256] inb_S6400_S128_256 rfl); iexact Hc2
    isplitl [Hc3]; · iapply (gIn_intro m Iv d L hpre _ _ 0 3 _ ![384] inb_S6400_S128_384 rfl); iexact Hc3
    isplitl [Hc4]; · iapply (gIn_intro m Iv d L hpre _ _ 0 4 _ ![512] inb_S6400_S128_512 rfl); iexact Hc4
    isplitl [HX0]; · iexact HX0
    isplitl [HX1]; · iexact HX1
    isplitl [HX2]; · iexact HX2
    isplitl [HX3]; · iexact HX3
    isplitl [HX4]; · iexact HX4
    isplitr
    · iapply (Entails.of_eq (band_empty (posB d L) (fS Iv d L) (a := 0) (b := 640 * 0) (by omega)).symm); iempintro
    isplitl [HSt]; · iexact HSt
    isplitr
    · iapply (Entails.of_eq (band_empty (rowsB d) (Gv m Iv d) (a := base L) (b := base L + 640 * 0) (by omega)).symm); iempintro
    isplitl [Hg]
    · iapply (Entails.of_eq (rows_congr d (m (gLoc d)) (lo := base L) (hi := base L + 6400) (lo' := base L + 640 * 0) (hi' := base L + 6400) (by omega) rfl))
      iexact Hg
    isplitl [Hc5]; · iexact Hc5
    isplitl [Hc6]; · iexact Hc6
    isplitl [Hc7]; · iexact Hc7
    isplitl [Hc8]; · iexact Hc8
    isplitl [Hc9]; · iexact Hc9
    iexists _
    isplitl [HO]; · iexact HO
    ipureintro
    exact wins (fun p hp => .inl hp) _
  iintro %u HI'
  ihave HI' := (Entails.of_eq (inv_end m Iv d L hpre O W u)) $$ HI'
  unfold invB
  icases HI' with ⟨-, ⟨%c1, HF5⟩, ⟨%c2, HF6⟩, ⟨%c3, HF7⟩, ⟨%c4, HF8⟩, ⟨%c5, HF9⟩, HX0, HX1, HX2, HX3, HX4, HS, HGd,
    Hc0, Hc1, Hc2, Hc3, Hc4, %W', HO, %hW'⟩
  sl_exec
  sl_step
  unfold tdW
  isplitl [HI Hxr HX0 HX1 HX2 HX3 HX4 HGd HF5_dst HF6_dst HF7_dst HF8_dst HF9_dst]
  · isplitl [HI]; · iapply (Entails.of_eq (pts_iRowK (F := F) d L _)); iexact HI
    isplitl [Hxr HX0 HX1 HX2 HX3 HX4]
    · iapply (hToks d (hq (wL L)) (m (hLoc d))).2
      isplitl [Hxr]; · iexact Hxr
      isplitl [HX0]; · iexact HX0
      isplitl [HX1]; · iexact HX1
      isplitl [HX2]; · iexact HX2
      isplitl [HX3]; · iexact HX3
      iexact HX4
    · iapply (Entails.of_eq (pts_gSet (F := F) d L _).symm)
      iapply (Entails.of_eq (band_join5 (rowsB d) (Gv m Iv d) (b := base L) (a := base L + 5760) (a1 := base L + 5888) (a2 := base L + 6016) (a3 := base L + 6144)
        (a4 := base L + 6272) (a5 := base L + 6400) (by omega) (by omega) (by omega) (by omega) (by omega) (by omega)))
      isplitl [HGd]; · iexact HGd
      isplitl [HF5_dst]; · iexact HF5_dst
      isplitl [HF6_dst]; · iexact HF6_dst
      isplitl [HF7_dst]; · iexact HF7_dst
      isplitl [HF8_dst]; · iexact HF8_dst
      iexact HF9_dst
  isplitl [HS HF5_src HF6_src HF7_src HF8_src HF9_src Hbufs]
  · isplitl [HS HF5_src HF6_src HF7_src HF8_src HF9_src]
    · isplitl [HS]
      · iexists _; iapply (Entails.of_eq (pts_scr (F := F) d L cc0_scratch0 _)); iapply (Entails.of_eq (pts_sV_pos d L _).symm); iexact HS
      isplitl [HF5_src]; · iexists _; iapply (Entails.of_eq (pts_scr (F := F) d L cc0_scratch1 _)); iexact HF5_src
      isplitl [HF6_src]; · iexists _; iapply (Entails.of_eq (pts_scr (F := F) d L cc0_scratch2 _)); iexact HF6_src
      isplitl [HF7_src]; · iexists _; iapply (Entails.of_eq (pts_scr (F := F) d L cc0_scratch3 _)); iexact HF7_src
      isplitl [HF8_src]; · iexists _; iapply (Entails.of_eq (pts_scr (F := F) d L cc0_scratch4 _)); iexact HF8_src
      iexists _; iapply (Entails.of_eq (pts_scr (F := F) d L cc0_scratch5 _)); iexact HF9_src
    · iexact Hbufs
  isplitl [Hc0 Hc1 Hc2 Hc3 Hc4 HF5 HF6 HF7 HF8 HF9 Hc10 Hsems]
  · isplitl [Hc0 Hc1 Hc2 Hc3 Hc4 HF5 HF6 HF7 HF8 HF9 Hc10]
    · isplitl [Hc0]; · iexact Hc0
      isplitl [Hc1]; · iexact Hc1
      isplitl [Hc2]; · iexact Hc2
      isplitl [Hc3]; · iexact Hc3
      isplitl [Hc4]; · iexact Hc4
      isplitl [HF5]; · iexact HF5
      isplitl [HF6]; · iexact HF6
      isplitl [HF7]; · iexact HF7
      isplitl [HF8]; · iexact HF8
      isplitl [HF9]; · iexact HF9
      iexact Hc10
    · iexact Hsems
  iexists _
  isplitr [HO]
  rotate_left
  · iexact HO
  · ipureintro
    exact wins (wins (wins (wins (wins hW' _) _) _) _) _

end Cert.Proof.KB

end
-- ==== Proof.B.TileObl.lean ====
import proofs.«211965_g16441134809400_cont_sun_m_142_16_alg».proof.Proof.B.TileBody

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (Iv : (d : Dev nD) → Buf (Elt F) (iLoc d))

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
-- The worker's post-condition, weakened to the form the launch asks for.
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (Laws.pure_mono fun h p hp => (h p hp).imp_right Or.inl))))

-- A vector subcore's task is the gather kernel at the subcore's coordinates.
theorem tileObl (hF : (K (F := F)).Facts) (hpre : PreOK Iv) : (K (F := F)).TileObl (D (F := F)) 𝒱 (P m Iv) v₀ 0 := by
  intro d c i O W hO _ _
  simp only [show (P m Iv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀]; simp only [SparseCore.onTile, hci, and_self, ↓reduceDIte]
  exact (tile_body m Iv hF hpre d (coordsV ⟨_, hci.1⟩ ⟨_, hci.2⟩) O W hO).trans (wp_mono frame _ _ fun _ => obl_post)

end Cert.Proof.KB

end
-- ==== Proof.B.Run.lean ====
import proofs.«211965_g16441134809400_cont_sun_m_142_16_alg».proof.Proof.B.Main
import proofs.«211965_g16441134809400_cont_sun_m_142_16_alg».proof.Proof.B.TileObl

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ) (ρ : Dev nD → PrngReg)

def QC : PUnit × MemSt nD τ sig (Elt F) → Prop := fun r => ∀ c : Dev nD, ∀ b ∈ Pipeline.ucRefs τ sig, r.2.mem (c, b) = W4 m c b

-- Every weakly fair execution of the thirty-five threads ends, the TensorCore's buffers at the contents @main leaves.
theorem run_main [∀ e, Nonempty (Elt F e)] (hpre : PreOK (IvOf m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (IvOf m)) facts v₀
    (fun q hq => match q with | 0 => nomatch hq)
    (fun q _ => match q with | 0 => tileObl m (IvOf m) facts hpre)
    (fun q _ => match q with | 0 => SparseCore.Cfg.VecSplit.of_plain (vecSplit m (IvOf m)))
    m ρ main (fun d => GD (F := F) d) (FIN m) (u₀ (F := F)) (sep_elim_left.trans (hu₀ m (IvOf m))) (hmain m ρ) _
    (fun d s' => (pointsTo_read_all (Pipeline.ucRefs τ sig) (fun b => (d, b)) (W4 m d) s').trans sep_elim_left) (QC m) (fun _ h => h)

end Cert.Proof.KB

end
-- ==== Proof.B.HostValue.lean ====
import proofs.«211965_g16441134809400_cont_sun_m_142_16_alg».proof.Proof.B.HostOps
import Idealize.ShloMosaic.Lib.Pipeline.Value
import Idealize.ShloMosaic.Lib.ValueIdx
import Idealize.ShloMosaic.Lib.StableHlo.Predicate

noncomputable section

namespace Cert.Proof.KB

open Cert.Kernel Cert.Kernel.Gen
open Idealize.ShloMosaic

variable {F : FTy → Type} [FloatOps F]

def padProd : IVec S4800 32 :=
  muli (iotaInDim S4800 32 0) (broadcastInDim S4800 ![] bcast_S_S4800 (constantI S_ 32 17#32))
def padDiv : IVec S_ 32 :=
  select (cmpi .eq (constantI S_ 32 100000#32) (constantI S_ 32 0#32)) (constantI S_ 32 1#32) (constantI S_ 32 100000#32)
def padRem : IVec S4800 32 := Host.remsi padProd (broadcastInDim S4800 ![] bcast_S_S4800 padDiv)
def padWords : IVec S4800 32 :=
  select
    (andi
      (cmpi .ne (cmpi .slt padRem (broadcastInDim S4800 ![] bcast_S_S4800 (constantI S_ 32 0#32)))
        (broadcastInDim S4800 ![] bcast_S_S4800 (cmpi .slt padDiv (constantI S_ 32 0#32))))
      (cmpi .ne padRem (broadcastInDim S4800 ![] bcast_S_S4800 (constantI S_ 32 0#32))))
    (addi padRem (broadcastInDim S4800 ![] bcast_S_S4800 padDiv))
    padRem

-- The index list: column 0 of child_idx, column 1, the pad words.
def idxOf (ci : IVec S100000x2 32) : IVec S204800 32 :=
  concatenate S204800 0
    [⟨S100000, shapeCast S100000 (extractStridedSlice S100000x1 ![0, 0] ci slices_S100000x2_S100000x1_0_0) shapeCasts_S100000x1_S100000⟩,
     ⟨S100000, shapeCast S100000 (extractStridedSlice S100000x1 ![0, 1] ci slices_S100000x2_S100000x1_0_1) shapeCasts_S100000x1_S100000⟩,
     ⟨S4800, padWords⟩]
    concatenates_S100000_S100000_S4800_S204800_d0

open Idealize.ShloMosaic.ValueIdx Idealize.ShloMosaic.StableHlo.Predicate

theorem padDiv_apply (j : S_.Idx) : padDiv j = 100000#32 := rfl

-- A pad word's product is at most 4799 * 17 = 81583: it neither wraps nor reaches the divisor, and the sign correction leaves it.
theorem padProd_toNat (n : Fin 4800) : (padProd (ix1 n)).toNat = n.val * 17 := by
  show (IntOp.muli (BitVec.ofNat 32 n.val) 17#32).toNat = _
  simp only [IntOp.muli, BitVec.toNat_mul, BitVec.toNat_ofNat]
  omega

theorem padRem_toNat (n : Fin 4800) : (padRem (ix1 n)).toNat = n.val * 17 := by
  show (IntOp.remsi .host (padProd (ix1 n)) (padDiv _)).toNat = _
  rw [padDiv_apply, show (100000#32 : BitVec 32) = BitVec.ofNat 32 100000 from rfl,
    IntOp.toNat_remsi .host (by rw [padProd_toNat]; omega) 100000 (by omega) (by omega), padProd_toNat]
  omega

theorem padWords_lt (n : Fin 4800) : (padWords (ix1 n)).toNat < 100000 := by
  have hr := padRem_toNat n
  have h8 : IntOp.cmpi .slt (padRem (ix1 n)) 0#32 = 0#1 :=
    eq_zero_of_ne_one (by rw [slt_iff_toNat (by omega) (by decide)]; exact Nat.not_lt_zero _)
  have e : padWords (ix1 n) = padRem (ix1 n) := by
    simp only [padWords, select, andi, cmpi, addi, broadcastInDim, constantI, padDiv_apply]
    rw [h8, show IntOp.cmpi .slt (100000#32) 0#32 = 0#1 from by decide,
      show IntOp.cmpi .ne (0#1) (0#1) = 0#1 from by decide,
      show ∀ c : BitVec 1, IntOp.andi 0#1 c = 0#1 from by decide]
    exact select_zero _ _
  rw [e, hr]; omega

-- Column c of child_idx, flattened, read at n.
theorem col_apply (ci : IVec S100000x2 32) (c : Fin 2) (hs : S100000x2.Slices ![0, c.val] S100000x1) (n : Fin 100000) :
    shapeCast S100000 (extractStridedSlice S100000x1 ![0, c.val] ci hs) shapeCasts_S100000x1_S100000 (ix1 n) = ci (ix2 n c) :=
  (shapeCast_apply _ _ (ix1 n) (ix2 n (0 : Fin 1)) (by rw [Shape.rowMajor_val_two, Shape.rowMajor_val_one]; show n.val * 1 + 0 = n.val; omega)).trans
    (extractStridedSlice_apply _ _ _ _ (ix2 n c) fun a => by fin_cases a; exacts [(Nat.zero_add _).symm, rfl])

theorem idxOf_lo (ci : IVec S100000x2 32) (r : S204800.Idx) (n : Fin 100000) (h : 0 + n.val = (r 0).val) : idxOf ci r = ci (ix2 n 0) := by
  unfold idxOf
  exact (concatenate_apply_piece 0 _ _ r 0 (by show _ < 3; omega) S100000 _ rfl rfl 0 rfl (ix1 n) (fun _ h' => absurd (Subsingleton.elim _ _) h') (by exact h)).trans (col_apply ci 0 _ n)
theorem idxOf_mid (ci : IVec S100000x2 32) (r : S204800.Idx) (n : Fin 100000) (h : 100000 + n.val = (r 0).val) : idxOf ci r = ci (ix2 n 1) := by
  unfold idxOf
  exact (concatenate_apply_piece 0 _ _ r 1 (by show _ < 3; omega) S100000 _ rfl rfl 100000 rfl (ix1 n) (fun _ h' => absurd (Subsingleton.elim _ _) h') (by exact h)).trans (col_apply ci 1 _ n)
theorem idxOf_hi (ci : IVec S100000x2 32) (r : S204800.Idx) (n : Fin 4800) (h : 200000 + n.val = (r 0).val) : idxOf ci r = padWords (ix1 n) := by
  unfold idxOf
  exact concatenate_apply_piece 0 _ _ r 2 (by show _ < 3; omega) S4800 _ rfl rfl 200000 rfl (ix1 n) (fun _ h' => absurd (Subsingleton.elim _ _) h') (by exact h)

theorem idxOf_col0 (ci : IVec S100000x2 32) (n : Fin 100000) :
    idxOf ci (ix1 ⟨n.val, by omega⟩) = ci (ix2 n 0) :=
  idxOf_lo ci _ n (Nat.zero_add _)

theorem idxOf_col1 (ci : IVec S100000x2 32) (n : Fin 100000) :
    idxOf ci (ix1 ⟨100000 + n.val, by omega⟩) = ci (ix2 n 1) :=
  idxOf_mid ci _ n rfl

theorem idxOf_lt (ci : IVec S100000x2 32) (h : ∀ j, (ci j).toNat < 100000) : ∀ r, (idxOf ci r).toNat < 100000 := by
  intro r
  have hr : (r 0).val < 204800 := (r 0).isLt
  by_cases h1 : (r 0).val < 100000
  · rw [idxOf_lo ci r ⟨_, h1⟩ (Nat.zero_add _)]; exact h _
  · by_cases h2 : (r 0).val < 200000
    · rw [idxOf_mid ci r ⟨(r 0).val - 100000, by omega⟩ (by show 100000 + ((r 0).val - 100000) = _; omega)]; exact h _
    · rw [idxOf_hi ci r ⟨(r 0).val - 200000, by omega⟩ (by show 200000 + ((r 0).val - 200000) = _; omega)]; exact padWords_lt _

open Idealize.ShloMosaic.StableHlo

-- The first twenty-six operations leave the pad words in the call's result buffer and child_idx as it was; the last five lay its two columns and that buffer end to end.
theorem after_v8 (V : Valuation τ sig (Elt F)) :
    StableHlo.after opsA V (Proc.devRef .tc main_v8) = idxOf (V (Proc.devRef .tc main_arg2)) := by
  have e3 : after (opsA.take 26) V (Proc.devRef .tc main_v3) = padWords := by
    simp only [List.take]; after_results_simp; rfl
  have e2 : after (opsA.take 26) V (Proc.devRef .tc main_arg2) = V (Proc.devRef .tc main_arg2) := by
    simp only [List.take]; after_results_simp
  rw [← List.take_append_drop 26 opsA, after_append]
  simp only [List.drop, after_cons, after_nil]
  rw [nary_result]
  dsimp only [Matrix.cons_val]
  repeat (first
    | rw [reshape_result] | rw [unary_result]
    | (rw [reshape_result_ne]; rotate_left; decide)
    | (rw [unary_result_ne]; rotate_left; decide))
  rw [e3, e2]
  rfl

theorem after_v10 (V : Valuation τ sig (Elt F)) :
    StableHlo.after opsB V (Proc.devRef .tc main_v10)
      = fun i : S256x128.Idx => (V (Proc.devRef .tc main_arg3) : FVec F S384x128 .f32) (ix2 ⟨128 + (i 0).val, by have h : (i 0).val < 256 := (i 0).isLt; omega⟩ (i 1)) := by
  funext i
  after_results
  exact extractStridedSlice_apply _ _ _ i _ fun a => by fin_cases a <;> first | rfl | exact (Nat.zero_add _).symm

theorem after_v11 (V : Valuation τ sig (Elt F)) :
    StableHlo.after opsB V (Proc.devRef .tc main_v11)
      = fun i : S256x128.Idx => (V (Proc.devRef .tc main_arg4) : FVec F S384x256 .f32) (ix2 ⟨128 + (i 0).val, by have h : (i 0).val < 256 := (i 0).isLt; omega⟩ ⟨(i 1).val, by have h : (i 1).val < 128 := (i 1).isLt; omega⟩) := by
  funext i
  after_results
  exact extractStridedSlice_apply _ _ _ i _ fun a => by fin_cases a <;> first | rfl | exact (Nat.zero_add _).symm

theorem after_v12 (V : Valuation τ sig (Elt F)) :
    StableHlo.after opsB V (Proc.devRef .tc main_v12)
      = fun i : S256x128.Idx => (V (Proc.devRef .tc main_arg4) : FVec F S384x256 .f32) (ix2 ⟨128 + (i 0).val, by have h : (i 0).val < 256 := (i 0).isLt; omega⟩ ⟨128 + (i 1).val, by have h : (i 1).val < 128 := (i 1).isLt; omega⟩) := by
  funext i
  after_results
  exact extractStridedSlice_apply _ _ _ i _ fun a => by fin_cases a <;> first | rfl | exact (Nat.zero_add _).symm

theorem after_v13 (V : Valuation τ sig (Elt F)) :
    StableHlo.after opsB V (Proc.devRef .tc main_v13)
      = fun i : S1x256.Idx => (V (Proc.devRef .tc main_arg5) : FVec F S1x384 .f32) (ix2 (i 0) ⟨128 + (i 1).val, by have h : (i 1).val < 256 := (i 1).isLt; omega⟩) := by
  funext i
  after_results
  exact extractStridedSlice_apply _ _ _ i _ fun a => by fin_cases a <;> first | rfl | exact (Nat.zero_add _).symm

theorem after_v14 (V : Valuation τ sig (Elt F)) :
    StableHlo.after opsB V (Proc.devRef .tc main_v14)
      = fun i : S128x128.Idx => (V (Proc.devRef .tc main_arg6) : FVec F S128x256 .f32) (ix2 (i 0) ⟨(i 1).val, by have h : (i 1).val < 128 := (i 1).isLt; omega⟩) := by
  funext i
  after_results
  exact extractStridedSlice_apply _ _ _ i _ fun a => by fin_cases a <;> first | rfl | exact (Nat.zero_add _).symm

theorem after_v15 (V : Valuation τ sig (Elt F)) :
    StableHlo.after opsB V (Proc.devRef .tc main_v15)
      = fun i : S128x128.Idx => (V (Proc.devRef .tc main_arg6) : FVec F S128x256 .f32) (ix2 (i 0) ⟨128 + (i 1).val, by have h : (i 1).val < 128 := (i 1).isLt; omega⟩) := by
  funext i
  after_results
  exact extractStridedSlice_apply _ _ _ i _ fun a => by fin_cases a <;> first | rfl | exact (Nat.zero_add _).symm

end Cert.Proof.KB

end
-- ==== Proof.B.Reads.lean ====
import proofs.«211965_g16441134809400_cont_sun_m_142_16_alg».proof.Proof.B.Run
import proofs.«211965_g16441134809400_cont_sun_m_142_16_alg».proof.Proof.B.HostValue
import proofs.«211965_g16441134809400_cont_sun_m_142_16_alg».proof.Proof.PreRange

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ)

-- A buffer that no host stretch and neither kernel writes holds at every boundary what it held at launch.
theorem W2_keep (d : Dev nD) (a : Ref sig .tc) (hA : a ∉ wrA) (hg : (Proc.devRef .tc a : DevRef τ sig) ≠ g') :
    W2 m d (Proc.devRef .tc a) = m ((SparseCore.T d).loc a) :=
  (Function.update_of_ne hg _ _).trans (opsA_keeps (W0 m d) hA)

theorem W3_keep (d : Dev nD) (a : Ref sig .tc) (hA : a ∉ wrA) (hB : a ∉ wrB) (hg : (Proc.devRef .tc a : DevRef τ sig) ≠ g') :
    W3 m d (Proc.devRef .tc a) = m ((SparseCore.T d).loc a) :=
  (opsB_keeps (W2 m d) hB).trans (W2_keep m d a hA hg)

theorem W4_keep (d : Dev nD) (a : Ref sig .tc) (hA : a ∉ wrA) (hB : a ∉ wrB) (hg : (Proc.devRef .tc a : DevRef τ sig) ≠ g')
    (ho : (Proc.devRef .tc a : DevRef τ sig) ≠ Proc.devRef .tc main_v16) :
    W4 m d (Proc.devRef .tc a) = m ((SparseCore.T d).loc a) :=
  (Function.update_of_ne ho _ _).trans (W3_keep m d a hA hB hg)

theorem W4_out (d : Dev nD) : W4 m d (Proc.devRef .tc main_v16) = finalD (VW (fun d => W3 m d)) d := Function.update_self _ _ _

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem IvOf_eq (d : Dev nD) : (IvOf m d : S204800.Idx → BitVec 32) = idxOf (m ((SparseCore.T d).loc main_arg2)) :=
  after_v8 (W0 m d)

-- The index list is in range because the child table is.
theorem preOK (hci : ∀ (d : Dev nD) (j : S100000x2.Idx), ((m ((SparseCore.T d).loc main_arg2) : S100000x2.Idx → BitVec 32) j).toNat < 100000) :
    PreOK (IvOf m) := fun d j => by
  rw [IvOf_eq]
  exact idxOf_lt _ (hci d) j

end Cert.Proof.KB

end
-- ==== Proof.ClaimsBits.lean ====
import proofs.«211965_g16441134809400_cont_sun_m_142_16_alg».proof.Defs
import proofs.«211965_g16441134809400_cont_sun_m_142_16_alg».proof.Proof.B.Run
import proofs.«211965_g16441134809400_cont_sun_m_142_16_alg».proof.Proof.B.Reads
import proofs.«211965_g16441134809400_cont_sun_m_142_16_alg».proof.Proof.PreRange
import proofs.«211965_g16441134809400_cont_sun_m_142_16_alg».proof.Proof.Gen.Pre_input_domain

noncomputable section

namespace Cert.Proof.Claims

open Idealize.ShloMosaic Idealize.ShloMosaic.TcCoe Idealize.SL.Sem
open Cert.Proof Cert.Kernel

-- The arguments end as launched: no host stretch and neither kernel writes one.
theorem frame_k : Cert.frame_Kernel := fun m g hpre =>
  (θ_run (defs (F := Bits)) _ _).mono (fun r h c =>
      have k (a : Ref sig .tc) (ha : ¬(Proc.devRef .tc a : DevRef τ sig).isScoped ∧ a ∉ KB.wrA ∧ a ∉ KB.wrB
          ∧ (Proc.devRef .tc a : DevRef τ sig) ≠ KB.g' ∧ (Proc.devRef .tc a : DevRef τ sig) ≠ Proc.devRef .tc main_v16) :
          r.2.mem ((c.tc : Thread nD τ).loc a) = m ((c.tc : Thread nD τ).loc a) :=
        (h c _ (KB.mem_uc a ha.1)).trans (KB.W4_keep m c a ha.2.1 ha.2.2.1 ha.2.2.2.1 ha.2.2.2.2)
      ⟨k main_arg0 (by decide), k main_arg1 (by decide), k main_arg2 (by decide), k main_arg3 (by decide),
        k main_arg4 (by decide), k main_arg5 (by decide), k main_arg6 (by decide)⟩)
    (KB.run_main (F := Bits) m g (KB.preOK m fun d => KI.ok_of_pre _ _ _ _ _ _ _ (hpre d)))

end Cert.Proof.Claims

end
-- ==== Proof.lean ====
import proofs.«211965_g16441134809400_cont_sun_m_142_16_alg».proof.Defs
import proofs.«211965_g16441134809400_cont_sun_m_142_16_alg».proof.Proof.Gen.Kernel
import proofs.«211965_g16441134809400_cont_sun_m_142_16_alg».proof.Proof.Gen.Kernel.Skeleton
import proofs.«211965_g16441134809400_cont_sun_m_142_16_alg».proof.Proof.Gen.Kernel.Launch
import proofs.«211965_g16441134809400_cont_sun_m_142_16_alg».proof.Proof.Gen.Kernel.Points
import proofs.«211965_g16441134809400_cont_sun_m_142_16_alg».proof.Proof.Gen.KernelIdeal
import proofs.«211965_g16441134809400_cont_sun_m_142_16_alg».proof.Proof.Gen.KernelIdeal.Skeleton
import proofs.«211965_g16441134809400_cont_sun_m_142_16_alg».proof.Proof.Gen.KernelIdeal.Launch
import proofs.«211965_g16441134809400_cont_sun_m_142_16_alg».proof.Proof.Gen.KernelIdeal.Points
import proofs.«211965_g16441134809400_cont_sun_m_142_16_alg».proof.Proof.Gen.ReferenceIdeal
import proofs.«211965_g16441134809400_cont_sun_m_142_16_alg».proof.Proof.Gen.Pre_input_domain
import proofs.«211965_g16441134809400_cont_sun_m_142_16_alg».proof.Proof.ClaimsIdeal
import proofs.«211965_g16441134809400_cont_sun_m_142_16_alg».proof.Proof.ClaimsBits
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Claims.frame_k, Claims.frame_ki, Claims.frame_ri, trivial, Claims.algebraic⟩

end Cert.Proof

end
